-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S41472x256 : Shape := ⟨2, ![41472, 256]⟩
abbrev S256 : Shape := ⟨1, ![256]⟩
abbrev S256x3 : Shape := ⟨2, ![256, 3]⟩
abbrev S3 : Shape := ⟨1, ![3]⟩
abbrev S256x1x144x144 : Shape := ⟨4, ![256, 1, 144, 144]⟩
abbrev S_ : Shape := ⟨0, ![]⟩

class Facts : Prop where
  bcast_S_S3x3x1x32 : S_.BroadcastsInDim S3x3x1x32 (![] : Fin 0 → Fin S3x3x1x32.rank)
  reducesTo_S3x3x1x32_S_d0_1_2_3 : S3x3x1x32.ReducesTo [0, 1, 2, 3] S_
  h_S_ : 0 < S_.numel
  bcast_S_S32 : S_.BroadcastsInDim S32 (![] : Fin 0 → Fin S32.rank)
  reducesTo_S32_S_d0 : S32.ReducesTo [0] S_
  bcast_S_S3x3x32x64 : S_.BroadcastsInDim S3x3x32x64 (![] : Fin 0 → Fin S3x3x32x64.rank)
  reducesTo_S3x3x32x64_S_d0_1_2_3 : S3x3x32x64.ReducesTo [0, 1, 2, 3] S_
  bcast_S_S64 : S_.BroadcastsInDim S64 (![] : Fin 0 → Fin S64.rank)
  reducesTo_S64_S_d0 : S64.ReducesTo [0] S_
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S128 : S_.BroadcastsInDim S128 (![] : Fin 0 → Fin S128.rank)
  reducesTo_S128_S_d0 : S128.ReducesTo [0] S_
  bitsLt_bf16_f32 : FTy.bits .bf16 < FTy.bits .f32
  bcast_S_S41472x256 : S_.BroadcastsInDim S41472x256 (![] : Fin 0 → Fin S41472x256.rank)
  reducesTo_S41472x256_S_d0_1 : S41472x256.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S256x1x144x144 : S_.BroadcastsInDim S256x1x144x144 (![] : Fin 0 → Fin S256x1x144x144.rank)
  reducesTo_S256x1x144x144_S_d0_1_2_3 : S256x1x144x144.ReducesTo [0, 1, 2, 3] S_

variable [Facts]

def fn_part3 {F : FTy → Type} [FloatOps F] (main_v50 : IVec S_ 1) (main_v51 : FVec F S256x1x144x144 .f32) : IVec S_ 1 :=
  let main_cst_18 : FVec F S_ .f32 := constant S_ .f32 0x7F800000#32
  let main_v52 : FVec F S256x1x144x144 .f32 := broadcastInDim S256x1x144x144 ![] bcast_S_S256x1x144x144 main_cst_18
  let main_v53 : IVec S256x1x144x144 1 := cmpf .olt main_v51 main_v52
  let main_c_19 : IVec S_ 1 := constantI S_ 1 1#1
  let main_v54 : IVec S_ 1 := (fun x v => Host.reduce IntOp.andi x v reducesTo_S256x1x144x144_S_d0_1_2_3 h_S_) main_v53 main_c_19
  let main_v55 : IVec S_ 1 := andi main_v50 main_v54
  main_v55

def fn_part2 {F : FTy → Type} [FloatOps F] (main_arg7 : FVec F S256 .f32) (main_arg8 : FVec F S256x3 .bf16) (main_arg9 : FVec F S3 .f32) (main_arg10 : FVec F S256x1x144x144 .f32) (main_v28 : IVec S_ 1) (main_v33 : IVec S_ 1) : IVec S_ 1 :=
  let main_v34 : IVec S_ 1 := andi main_v28 main_v33
  let main_v35 : FVec F S256 .f32 := Host.absf main_arg7
  let main_cst_12 : FVec F S_ .f32 := constant S_ .f32 0x7F800000#32
  let main_v36 : FVec F S256 .f32 := broadcastInDim S256 ![] bcast_S_S256 main_cst_12
  let main_v37 : IVec S256 1 := cmpf .olt main_v35 main_v36
  let main_c_13 : IVec S_ 1 := constantI S_ 1 1#1
  let main_v38 : IVec S_ 1 := (fun x v => Host.reduce IntOp.andi x v reducesTo_S256_S_d0 h_S_) main_v37 main_c_13
  let main_v39 : IVec S_ 1 := andi main_v34 main_v38
  let main_v40 : FVec F S256x3 .f32 := (extf .f32 · bitsLt_bf16_f32) main_arg8
  let main_v41 : FVec F S256x3 .f32 := Host.absf main_v40
  let main_cst_14 : FVec F S_ .f32 := constant S_ .f32 0x7F800000#32
  let main_v42 : FVec F S256x3 .f32 := broadcastInDim S256x3 ![] bcast_S_S256x3 main_cst_14
  let main_v43 : IVec S256x3 1 := cmpf .olt main_v41 main_v42
  let main_c_15 : IVec S_ 1 := constantI S_ 1 1#1
  let main_v44 : IVec S_ 1 := (fun x v => Host.reduce IntOp.andi x v reducesTo_S256x3_S_d0_1 h_S_) main_v43 main_c_15
  let main_v45 : IVec S_ 1 := andi main_v39 main_v44
  let main_v46 : FVec F S3 .f32 := Host.absf main_arg9
  let main_cst_16 : FVec F S_ .f32 := constant S_ .f32 0x7F800000#32
  let main_v47 : FVec F S3 .f32 := broadcastInDim S3 ![] bcast_S_S3 main_cst_16
  let main_v48 : IVec S3 1 := cmpf .olt main_v46 main_v47
  let main_c_17 : IVec S_ 1 := constantI S_ 1 1#1
  let main_v49 : IVec S_ 1 := (fun x v => Host.reduce IntOp.andi x v reducesTo_S3_S_d0 h_S_) main_v48 main_c_17
  let main_v50 : IVec S_ 1 := andi main_v45 main_v49
  let main_v51 : FVec F S256x1x144x144 .f32 := Host.absf main_arg10
  fn_part3 (F := F) main_v50 main_v51

def fn_part1 {F : FTy → Type} [FloatOps F] (main_arg4 : FVec F S3x3x64x128 .f32) (main_arg5 : FVec F S128 .f32) (main_arg6 : FVec F S41472x256 .bf16) (main_arg7 : FVec F S256 .f32) (main_arg8 : FVec F S256x3 .bf16) (main_arg9 : FVec F S3 .f32) (main_arg10 : FVec F S256x1x144x144 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x3x64x128 .f32 := Host.absf main_arg4
  let main_cst_6 : FVec F S_ .f32 := constant S_ .f32 0x7F800000#32
  let main_v20 : FVec F S3x3x64x128 .f32 := broadcastInDim S3x3x64x128 ![] bcast_S_S3x3x64x128 main_cst_6
  let main_v21 : IVec S3x3x64x128 1 := cmpf .olt main_v19 main_v20
  let main_c_7 : IVec S_ 1 := constantI S_ 1 1#1
  let main_v22 : IVec S_ 1 := (fun x v => Host.reduce IntOp.andi x v reducesTo_S3x3x64x128_S_d0_1_2_3 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S41472x256 .f32 := (extf .f32 · bitsLt_bf16_f32) main_arg6
  let main_v30 : FVec F S41472x256 .f32 := Host.absf main_v29
  let main_cst_10 : FVec F S_ .f32 := constant S_ .f32 0x7F800000#32
  let main_v31 : FVec F S41472x256 .f32 := broadcastInDim S41472x256 ![] bcast_S_S41472x256 main_cst_10
  let main_v32 : IVec S41472x256 1 := cmpf .olt main_v30 main_v31
  let main_c_11 : IVec S_ 1 := constantI S_ 1 1#1
  let main_v33 : IVec S_ 1 := (fun x v => Host.reduce IntOp.andi x v reducesTo_S41472x256_S_d0_1 h_S_) main_v32 main_c_11
  fn_part2 (F := F) main_arg7 main_arg8 main_arg9 main_arg10 main_v28 main_v33

def fn {F : FTy → Type} [FloatOps F] (main_arg0 : FVec F S3x3x1x32 .f32) (main_arg1 : FVec F S32 .f32) (main_arg2 : FVec F S3x3x32x64 .f32) (main_arg3 : FVec F S64 .f32) (main_arg4 : FVec F S3x3x64x128 .f32) (main_arg5 : FVec F S128 .f32) (main_arg6 : FVec F S41472x256 .bf16) (main_arg7 : FVec F S256 .f32) (main_arg8 : FVec F S256x3 .bf16) (main_arg9 : FVec F S3 .f32) (main_arg10 : FVec F S256x1x144x144 .f32) : IVec S_ 1 :=
  let main_v0 : FVec F S3x3x1x32 .f32 := Host.absf main_arg0
  let main_cst : FVec F S_ .f32 := constant S_ .f32 0x7F800000#32
  let main_v1 : FVec F S3x3x1x32 .f32 := broadcastInDim S3x3x1x32 ![] bcast_S_S3x3x1x32 main_cst
  let main_v2 : IVec S3x3x1x32 1 := cmpf .olt main_v0 main_v1
  let main_c : IVec S_ 1 := constantI S_ 1 1#1
  let main_v3 : IVec S_ 1 := (fun x v => Host.reduce IntOp.andi x v reducesTo_S3x3x1x32_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S3x3x32x64 .f32 := Host.absf main_arg2
  let main_cst_2 : FVec F S_ .f32 := constant S_ .f32 0x7F800000#32
  let main_v10 : FVec F S3x3x32x64 .f32 := broadcastInDim S3x3x32x64 ![] bcast_S_S3x3x32x64 main_cst_2
  let main_v11 : IVec S3x3x32x64 1 := cmpf .olt main_v9 main_v10
  let main_c_3 : IVec S_ 1 := constantI S_ 1 1#1
  let main_v12 : IVec S_ 1 := (fun x v => Host.reduce IntOp.andi x v reducesTo_S3x3x32x64_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S41472x256 : Shape := ⟨2, ![41472, 256]⟩
abbrev S256 : Shape := ⟨1, ![256]⟩
abbrev S256x3 : Shape := ⟨2, ![256, 3]⟩
abbrev S3 : Shape := ⟨1, ![3]⟩
abbrev S256x1x144x144 : Shape := ⟨4, ![256, 1, 144, 144]⟩
abbrev S256x144x144 : Shape := ⟨3, ![256, 144, 144]⟩
abbrev S_ : Shape := ⟨0, ![]⟩
abbrev S256x146x146 : Shape := ⟨3, ![256, 146, 146]⟩
abbrev S146x144 : Shape := ⟨2, ![146, 144]⟩
abbrev S1x146x144x1 : Shape := ⟨4, ![1, 146, 144, 1]⟩
abbrev S3x1x1x32 : Shape := ⟨4, ![3, 1, 1, 32]⟩
abbrev S3x32 : Shape := ⟨2, ![3, 32]⟩
abbrev S3x146x144x32 : Shape := ⟨4, ![3, 146, 144, 32]⟩
abbrev S3x146x4608 : Shape := ⟨3, ![3, 146, 4608]⟩
abbrev S1x32 : Shape := ⟨2, ![1, 32]⟩
abbrev S144x32 : Shape := ⟨2, ![144, 32]⟩
abbrev S4608 : Shape := ⟨1, ![4608]⟩
abbrev S1x4608 : Shape := ⟨2, ![1, 4608]⟩
abbrev S3x96x64 : Shape := ⟨3, ![3, 96, 64]⟩
abbrev S3x192x128 : Shape := ⟨3, ![3, 192, 128]⟩
abbrev S1x64 : Shape := ⟨2, ![1, 64]⟩
abbrev S1x128 : Shape := ⟨2, ![1, 128]⟩
abbrev S256x18x2304 : Shape := ⟨3, ![256, 18, 2304]⟩
abbrev S2x146x146 : Shape := ⟨3, ![2, 146, 146]⟩
abbrev S2x18x2304 : Shape := ⟨3, ![2, 18, 2304]⟩
abbrev S288x4608 : Shape := ⟨2, ![288, 4608]⟩
abbrev S2x144x146 : Shape := ⟨3, ![2, 144, 146]⟩
abbrev S288x146 : Shape := ⟨2, ![288, 146]⟩
abbrev S1x146x4608 : Shape := ⟨3, ![1, 146, 4608]⟩
abbrev S146x4608 : Shape := ⟨2, ![146, 4608]⟩
abbrev S2x72x2x4608 : Shape := ⟨4, ![2, 72, 2, 4608]⟩
abbrev S2x72x4608 : Shape := ⟨3, ![2, 72, 4608]⟩
abbrev S2x72x72x64 : Shape := ⟨4, ![2, 72, 72, 64]⟩
abbrev S2x72x72x32 : Shape := ⟨4, ![2, 72, 72, 32]⟩
abbrev S2x72x1x32 : Shape := ⟨4, ![2, 72, 1, 32]⟩
abbrev S2x1x74x32 : Shape := ⟨4, ![2, 1, 74, 32]⟩
abbrev S2x72x74x32 : Shape := ⟨4, ![2, 72, 74, 32]⟩
abbrev S2x74x74x32 : Shape := ⟨4, ![2, 74, 74, 32]⟩
abbrev S2x72x74x96 : Shape := ⟨4, ![2, 72, 74, 96]⟩
abbrev S10368x64 : Shape := ⟨2, ![10368, 64]⟩
abbrev S2x72x72x96 : Shape := ⟨4, ![2, 72, 72, 96]⟩
abbrev S10368x96 : Shape := ⟨2, ![10368, 96]⟩
abbrev S1x96x64 : Shape := ⟨3, ![1, 96, 64]⟩
abbrev S96x64 : Shape := ⟨2, ![96, 64]⟩
abbrev S2x36x2x36x2x64 : Shape := ⟨6, ![2, 36, 2, 36, 2, 64]⟩
abbrev S2x36x2x36x64 : Shape := ⟨5, ![2, 36, 2, 36, 64]⟩
abbrev S2x36x36x64 : Shape := ⟨4, ![2, 36, 36, 64]⟩
abbrev S2x36x1x64 : Shape := ⟨4, ![2, 36, 1, 64]⟩
abbrev S2x1x38x64 : Shape := ⟨4, ![2, 1, 38, 64]⟩
abbrev S2x36x38x64 : Shape := ⟨4, ![2, 36, 38, 64]⟩
abbrev S2x38x38x64 : Shape := ⟨4, ![2, 38, 38, 64]⟩
abbrev S2x36x38x192 : Shape := ⟨4, ![2, 36, 38, 192]⟩
abbrev S2592x128 : Shape := ⟨2, ![2592, 128]⟩
abbrev S2x36x36x192 : Shape := ⟨4, ![2, 36, 36, 192]⟩
abbrev S2592x192 : Shape := ⟨2, ![2592, 192]⟩
abbrev S1x192x128 : Shape := ⟨3, ![1, 192, 128]⟩
abbrev S192x128 : Shape := ⟨2, ![192, 128]⟩
abbrev S2x18x2x18x2x128 : Shape := ⟨6, ![2, 18, 2, 18, 2, 128]⟩
abbrev S2x18x2x18x128 : Shape := ⟨5, ![2, 18, 2, 18, 128]⟩
abbrev S2x18x18x128 : Shape := ⟨4, ![2, 18, 18, 128]⟩
abbrev S256x41472 : Shape := ⟨2, ![256, 41472]⟩
abbrev S1x256 : Shape := ⟨2, ![1, 256]⟩
abbrev S2x256x3 : Shape := ⟨3, ![2, 256, 3]⟩
abbrev S256x10368 : Shape := ⟨2, ![256, 10368]⟩
abbrev S10368x128 : Shape := ⟨2, ![10368, 128]⟩
abbrev S128x3 : Shape := ⟨2, ![128, 3]⟩
abbrev S1x256x3 : Shape := ⟨3, ![1, 256, 3]⟩
abbrev S256x128 : Shape := ⟨2, ![256, 128]⟩
abbrev S1x3 : Shape := ⟨2, ![1, 3]⟩

abbrev nBuf : Space → Nat
  | .hbm => 86
  | .vmem => 21
  | .smem => 0
  | _ => 0

abbrev bufTy : (tb : Table) → Fin (tcTables nBuf tb) → BufTy
  | .hbm, ⟨0, _⟩ => ⟨S3x3x1x32, .f32⟩
  | .hbm, ⟨1, _⟩ => ⟨S32, .f32⟩
  | .hbm, ⟨2, _⟩ => ⟨S3x3x32x64, .f32⟩
  | .hbm, ⟨3, _⟩ => ⟨S64, .f32⟩
  | .hbm, ⟨4, _⟩ => ⟨S3x3x64x128, .f32⟩
  | .hbm, ⟨5, _⟩ => ⟨S128, .f32⟩
  | .hbm, ⟨6, _⟩ => ⟨S41472x256, .bf16⟩
  | .hbm, ⟨7, _⟩ => ⟨S256, .f32⟩
  | .hbm, ⟨8, _⟩ => ⟨S256x3, .bf16⟩
  | .hbm, ⟨9, _⟩ => ⟨S3, .f32⟩
  | .hbm, ⟨10, _⟩ => ⟨S256x1x144x144, .f32⟩
  | .hbm, ⟨11, _⟩ => ⟨S256x144x144, .f32⟩
  | .hbm, ⟨12, _⟩ => ⟨S_, .i32⟩
  | .hbm, ⟨13, _⟩ => ⟨S_, .f32⟩
  | .hbm, ⟨14, _⟩ => ⟨S256x146x146, .f32⟩
  | .hbm, ⟨15, _⟩ => ⟨S256x146x146, .bf16⟩
  | .hbm, ⟨16, _⟩ => ⟨S146x144, .i32⟩
  | .hbm, ⟨17, _⟩ => ⟨S146x144, .i32⟩
  | .hbm, ⟨18, _⟩ => ⟨S_, .i32⟩
  | .hbm, ⟨19, _⟩ => ⟨S146x144, .i32⟩
  | .hbm, ⟨20, _⟩ => ⟨S146x144, .i32⟩
  | .hbm, ⟨21, _⟩ => ⟨S146x144, .i1⟩
  | .hbm, ⟨22, _⟩ => ⟨S146x144, .f32⟩
  | .hbm, ⟨23, _⟩ => ⟨S146x144, .i32⟩
  | .hbm, ⟨24, _⟩ => ⟨S146x144, .i32⟩
  | .hbm, ⟨25, _⟩ => ⟨S_, .i32⟩
  | .hbm, ⟨26, _⟩ => ⟨S146x144, .i32⟩
  | .hbm, ⟨27, _⟩ => ⟨S146x144, .i32⟩
  | .hbm, ⟨28, _⟩ => ⟨S146x144, .i1⟩
  | .hbm, ⟨29, _⟩ => ⟨S146x144, .f32⟩
  | .hbm, ⟨30, _⟩ => ⟨S146x144, .i32⟩
  | .hbm, ⟨31, _⟩ => ⟨S146x144, .i32⟩
  | .hbm, ⟨32, _⟩ => ⟨S_, .i32⟩
  | .hbm, ⟨33, _⟩ => ⟨S146x144, .i32⟩
  | .hbm, ⟨34, _⟩ => ⟨S146x144, .i32⟩
  | .hbm, ⟨35, _⟩ => ⟨S146x144, .i1⟩
  | .hbm, ⟨36, _⟩ => ⟨S146x144, .f32⟩
  | .hbm, ⟨37, _⟩ => ⟨S1x146x144x1, .f32⟩
  | .hbm, ⟨38, _⟩ => ⟨S3x1x1x32, .f32⟩
  | .hbm, ⟨39, _⟩ => ⟨S3x32, .f32⟩
  | .hbm, ⟨40, _⟩ => ⟨S3x1x1x32, .f32⟩
  | .hbm, ⟨41, _⟩ => ⟨S3x146x144x32, .f32⟩
  | .hbm, ⟨42, _⟩ => ⟨S3x146x144x32, .f32⟩
  | .hbm, ⟨43, _⟩ => ⟨S3x146x144x32, .f32⟩
  | .hbm, ⟨44, _⟩ => ⟨S_, .f32⟩
  | .hbm, ⟨45, _⟩ => ⟨S3x146x144x32, .f32⟩
  | .hbm, ⟨46, _⟩ => ⟨S3x146x144x32, .f32⟩
  | .hbm, ⟨47, _⟩ => ⟨S1x146x144x1, .f32⟩
  | .hbm, ⟨48, _⟩ => ⟨S3x1x1x32, .f32⟩
  | .hbm, ⟨49, _⟩ => ⟨S3x32, .f32⟩
  | .hbm, ⟨50, _⟩ => ⟨S3x1x1x32, .f32⟩
  | .hbm, ⟨51, _⟩ => ⟨S3x146x144x32, .f32⟩
  | .hbm, ⟨52, _⟩ => ⟨S3x146x144x32, .f32⟩
  | .hbm, ⟨53, _⟩ => ⟨S3x146x144x32, .f32⟩
  | .hbm, ⟨54, _⟩ => ⟨S3x146x144x32, .f32⟩
  | .hbm, ⟨55, _⟩ => ⟨S1x146x144x1, .f32⟩
  | .hbm, ⟨56, _⟩ => ⟨S3x1x1x32, .f32⟩
  | .hbm, ⟨57, _⟩ => ⟨S3x32, .f32⟩
  | .hbm, ⟨58, _⟩ => ⟨S3x1x1x32, .f32⟩
  | .hbm, ⟨59, _⟩ => ⟨S3x146x144x32, .f32⟩
  | .hbm, ⟨60, _⟩ => ⟨S3x146x144x32, .f32⟩
  | .hbm, ⟨61, _⟩ => ⟨S3x146x144x32, .f32⟩
  | .hbm, ⟨62, _⟩ => ⟨S3x146x144x32, .f32⟩
  | .hbm, ⟨63, _⟩ => ⟨S3x146x4608, .f32⟩
  | .hbm, ⟨64, _⟩ => ⟨S3x146x4608, .bf16⟩
  | .hbm, ⟨65, _⟩ => ⟨S1x32, .f32⟩
  | .hbm, ⟨66, _⟩ => ⟨S144x32, .f32⟩
  | .hbm, ⟨67, _⟩ => ⟨S4608, .f32⟩
  | .hbm, ⟨68, _⟩ => ⟨S1x4608, .f32⟩
  | .hbm, ⟨69, _⟩ => ⟨S3x3x32x64, .f32⟩
  | .hbm, ⟨70, _⟩ => ⟨S3x96x64, .f32⟩
  | .hbm, ⟨71, _⟩ => ⟨S3x96x64, .bf16⟩
  | .hbm, ⟨72, _⟩ => ⟨S3x3x64x128, .f32⟩
  | .hbm, ⟨73, _⟩ => ⟨S3x192x128, .f32⟩
  | .hbm, ⟨74, _⟩ => ⟨S3x192x128, .bf16⟩
  | .hbm, ⟨75, _⟩ => ⟨S1x64, .f32⟩
  | .hbm, ⟨76, _⟩ => ⟨S1x128, .f32⟩
  | .hbm, ⟨77, _⟩ => ⟨S256x18x2304, .bf16⟩
  | .hbm, ⟨78, _⟩ => ⟨S256x41472, .bf16⟩
  | .hbm, ⟨79, _⟩ => ⟨S1x256, .f32⟩
  | .hbm, ⟨80, _⟩ => ⟨S2x256x3, .f32⟩
  | .hbm, ⟨81, _⟩ => ⟨S_, .f32⟩
  | .hbm, ⟨82, _⟩ => ⟨S256x3, .f32⟩
  | .hbm, ⟨83, _⟩ => ⟨S1x3, .f32⟩
  | .hbm, ⟨84, _⟩ => ⟨S256x3, .f32⟩
  | .hbm, ⟨85, _⟩ => ⟨S256x3, .f32⟩
  | .local _ .vmem, ⟨0, _⟩ => ⟨S2x146x146, .bf16⟩
  | .local _ .vmem, ⟨1, _⟩ => ⟨S2x146x146, .bf16⟩
  | .local _ .vmem, ⟨2, _⟩ => ⟨S3x146x4608, .bf16⟩
  | .local _ .vmem, ⟨3, _⟩ => ⟨S1x4608, .f32⟩
  | .local _ .vmem, ⟨4, _⟩ => ⟨S3x96x64, .bf16⟩
  | .local _ .vmem, ⟨5, _⟩ => ⟨S1x64, .f32⟩
  | .local _ .vmem, ⟨6, _⟩ => ⟨S3x192x128, .bf16⟩
  | .local _ .vmem, ⟨7, _⟩ => ⟨S1x128, .f32⟩
  | .local _ .vmem, ⟨8, _⟩ => ⟨S2x18x2304, .bf16⟩
  | .local _ .vmem, ⟨9, _⟩ => ⟨S2x18x2304, .bf16⟩
  | .local _ .vmem, ⟨10, _⟩ => ⟨S256x10368, .bf16⟩
  | .local _ .vmem, ⟨11, _⟩ => ⟨S256x10368, .bf16⟩
  | .local _ .vmem, ⟨12, _⟩ => ⟨S10368x128, .bf16⟩
  | .local _ .vmem, ⟨13, _⟩ => ⟨S10368x128, .bf16⟩
  | .local _ .vmem, ⟨14, _⟩ => ⟨S1x128, .f32⟩
  | .local _ .vmem, ⟨15, _⟩ => ⟨S1x128, .f32⟩
  | .local _ .vmem, ⟨16, _⟩ => ⟨S128x3, .bf16⟩
  | .local _ .vmem, ⟨17, _⟩ => ⟨S128x3, .bf16⟩
  | .local _ .vmem, ⟨18, _⟩ => ⟨S1x256x3, .f32⟩
  | .local _ .vmem, ⟨19, _⟩ => ⟨S1x256x3, .f32⟩
  | .local _ .vmem, ⟨20, _⟩ => ⟨S256x128, .f32⟩
  | _, _ => ⟨S3x3x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_3 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x146x146 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x146x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x96x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x18x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x10368 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S10368x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x3 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S256x1x144x144_S256x144x144 : S256x1x144x144.ShapeCasts S256x144x144
  pads_S256x144x144_S256x146x146_000_110_110 : S256x144x144.Pads (![0, 1, 1] : Fin 3 → Nat) ![0, 1, 1] ![0, 0, 0] S256x146x146
  h_S_ : 0 < S_.numel
  bitsLt_bf16_f32 : FTy.bits .bf16 < FTy.bits .f32
  bcast_S_S146x144 : S_.BroadcastsInDim S146x144 (![] : Fin 0 → Fin S146x144.rank)
  bcast_S146x144_S1x146x144x1_1_2 : S146x144.BroadcastsInDim S1x146x144x1 (![1, 2] : Fin 2 → Fin S1x146x144x1.rank)
  slices_S3x3x1x32_S3x1x1x32_0_0_0_0 : S3x3x1x32.Slices ![0, 0, 0, 0] S3x1x1x32
  shapeCasts_S3x1x1x32_S3x32 : S3x1x1x32.ShapeCasts S3x32
  bcast_S3x32_S3x1x1x32_0_3 : S3x32.BroadcastsInDim S3x1x1x32 (![0, 3] : Fin 2 → Fin S3x1x1x32.rank)
  bcast_S1x146x144x1_S3x146x144x32_0_1_2_3 : S1x146x144x1.BroadcastsInDim S3x146x144x32 (![0, 1, 2, 3] : Fin 4 → Fin S3x146x144x32.rank)
  bcast_S3x1x1x32_S3x146x144x32_0_1_2_3 : S3x1x1x32.BroadcastsInDim S3x146x144x32 (![0, 1, 2, 3] : Fin 4 → Fin S3x146x144x32.rank)
  bcast_S_S3x146x144x32 : S_.BroadcastsInDim S3x146x144x32 (![] : Fin 0 → Fin S3x146x144x32.rank)
  slices_S3x3x1x32_S3x1x1x32_0_1_0_0 : S3x3x1x32.Slices ![0, 1, 0, 0] S3x1x1x32
  slices_S3x3x1x32_S3x1x1x32_0_2_0_0 : S3x3x1x32.Slices ![0, 2, 0, 0] S3x1x1x32
  shapeCasts_S3x146x144x32_S3x146x4608 : S3x146x144x32.ShapeCasts S3x146x4608
  shapeCasts_S32_S1x32 : S32.ShapeCasts S1x32
  bcast_S1x32_S144x32_0_1 : S1x32.BroadcastsInDim S144x32 (![0, 1] : Fin 2 → Fin S144x32.rank)
  shapeCasts_S144x32_S4608 : S144x32.ShapeCasts S4608
  shapeCasts_S4608_S1x4608 : S4608.ShapeCasts S1x4608
  transposes_S3x3x32x64_S3x3x32x64_1_0_2_3 : S3x3x32x64.Transposes [1, 0, 2, 3] S3x3x32x64
  shapeCasts_S3x3x32x64_S3x96x64 : S3x3x32x64.ShapeCasts S3x96x64
  transposes_S3x3x64x128_S3x3x64x128_1_0_2_3 : S3x3x64x128.Transposes [1, 0, 2, 3] S3x3x64x128
  shapeCasts_S3x3x64x128_S3x192x128 : S3x3x64x128.ShapeCasts S3x192x128
  shapeCasts_S64_S1x64 : S64.ShapeCasts S1x64
  shapeCasts_S128_S1x128 : S128.ShapeCasts S1x128
  inb_S2x146x146_S2x144x146_0_0_0 : ∀ a, (![0, 0, 0] : Fin 3 → Nat) a + S2x144x146.size a ≤ S2x146x146.size a
  h_S2x144x146 : 0 < S2x144x146.numel
  shapeCasts_S2x144x146_S2x144x146 : S2x144x146.ShapeCasts S2x144x146
  shapeCasts_S2x144x146_S288x146 : S2x144x146.ShapeCasts S288x146
  inb_S3x146x4608_S1x146x4608_0_0_0 : ∀ a, (![0, 0, 0] : Fin 3 → Nat) a + S1x146x4608.size a ≤ S3x146x4608.size a
  h_S1x146x4608 : 0 < S1x146x4608.numel
  shapeCasts_S1x146x4608_S146x4608 : S1x146x4608.ShapeCasts S146x4608
  inb_S2x146x146_S2x144x146_0_1_0 : ∀ a, (![0, 1, 0] : Fin 3 → Nat) a + S2x144x146.size a ≤ S2x146x146.size a
  inb_S3x146x4608_S1x146x4608_1_0_0 : ∀ a, (![1, 0, 0] : Fin 3 → Nat) a + S1x146x4608.size a ≤ S3x146x4608.size a
  inb_S2x146x146_S2x144x146_0_2_0 : ∀ a, (![0, 2, 0] : Fin 3 → Nat) a + S2x144x146.size a ≤ S2x146x146.size a
  inb_S3x146x4608_S1x146x4608_2_0_0 : ∀ a, (![2, 0, 0] : Fin 3 → Nat) a + S1x146x4608.size a ≤ S3x146x4608.size a
  inb_S1x4608_S1x4608_0_0 : ∀ a, (![0, 0] : Fin 2 → Nat) a + S1x4608.size a ≤ S1x4608.size a
  h_S1x4608 : 0 < S1x4608.numel
  shapeCasts_S1x4608_S4608 : S1x4608.ShapeCasts S4608
  broadcasts_S1x4608_S288x4608 : S1x4608.Broadcasts S288x4608
  shapeCasts_S288x4608_S2x72x2x4608 : S288x4608.ShapeCasts S2x72x2x4608
  reduces_S2x72x2x4608_S2x72x4608 : S2x72x2x4608.Reduces [2] S2x72x4608
  shapeCasts_S2x72x4608_S2x72x72x64 : S2x72x4608.ShapeCasts S2x72x72x64
  slices_S2x72x72x64_o0_0_0_0_S2x72x72x32 : S2x72x72x64.Slices ![0, 0, 0, 0] S2x72x72x32
  slices_S2x72x72x64_o0_0_0_32_S2x72x72x32 : S2x72x72x64.Slices ![0, 0, 0, 32] S2x72x72x32
  concatenates_S2x72x1x32_S2x72x72x32_S2x72x1x32_S2x72x74x32_d2 : Shape.Concatenates [S2x72x1x32, S2x72x72x32, S2x72x1x32] S2x72x74x32 2
  concatenates_S2x1x74x32_S2x72x74x32_S2x1x74x32_S2x74x74x32_d1 : Shape.Concatenates [S2x1x74x32, S2x72x74x32, S2x1x74x32] S2x74x74x32 1
  slices_S2x74x74x32_o0_0_0_0_S2x72x74x32 : S2x74x74x32.Slices ![0, 0, 0, 0] S2x72x74x32
  slices_S2x74x74x32_o0_1_0_0_S2x72x74x32 : S2x74x74x32.Slices ![0, 1, 0, 0] S2x72x74x32
  slices_S2x74x74x32_o0_2_0_0_S2x72x74x32 : S2x74x74x32.Slices ![0, 2, 0, 0] S2x72x74x32
  concatenates_S2x72x74x32_S2x72x74x32_S2x72x74x32_S2x72x74x96_d3 : Shape.Concatenates [S2x72x74x32, S2x72x74x32, S2x72x74x32] S2x72x74x96 3
  slices_S2x72x74x96_o0_0_0_0_S2x72x72x96 : S2x72x74x96.Slices ![0, 0, 0, 0] S2x72x72x96
  shapeCasts_S2x72x72x96_S10368x96 : S2x72x72x96.ShapeCasts S10368x96
  inb_S3x96x64_S1x96x64_0_0_0 : ∀ a, (![0, 0, 0] : Fin 3 → Nat) a + S1x96x64.size a ≤ S3x96x64.size a
  h_S1x96x64 : 0 < S1x96x64.numel
  shapeCasts_S1x96x64_S96x64 : S1x96x64.ShapeCasts S96x64
  slices_S2x72x74x96_o0_0_1_0_S2x72x72x96 : S2x72x74x96.Slices ![0, 0, 1, 0] S2x72x72x96
  inb_S3x96x64_S1x96x64_1_0_0 : ∀ a, (![1, 0, 0] : Fin 3 → Nat) a + S1x96x64.size a ≤ S3x96x64.size a
  slices_S2x72x74x96_o0_0_2_0_S2x72x72x96 : S2x72x74x96.Slices ![0, 0, 2, 0] S2x72x72x96
  inb_S3x96x64_S1x96x64_2_0_0 : ∀ a, (![2, 0, 0] : Fin 3 → Nat) a + S1x96x64.size a ≤ S3x96x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S10368x64 : S1x64.Broadcasts S10368x64
  shapeCasts_S10368x64_S2x36x2x36x2x64 : S10368x64.ShapeCasts S2x36x2x36x2x64
  reduces_S2x36x2x36x2x64_S2x36x2x36x64 : S2x36x2x36x2x64.Reduces [4] S2x36x2x36x64
  reduces_S2x36x2x36x64_S2x36x36x64 : S2x36x2x36x64.Reduces [2] S2x36x36x64
  concatenates_S2x36x1x64_S2x36x36x64_S2x36x1x64_S2x36x38x64_d2 : Shape.Concatenates [S2x36x1x64, S2x36x36x64, S2x36x1x64] S2x36x38x64 2
  concatenates_S2x1x38x64_S2x36x38x64_S2x1x38x64_S2x38x38x64_d1 : Shape.Concatenates [S2x1x38x64, S2x36x38x64, S2x1x38x64] S2x38x38x64 1
  slices_S2x38x38x64_o0_0_0_0_S2x36x38x64 : S2x38x38x64.Slices ![0, 0, 0, 0] S2x36x38x64
  slices_S2x38x38x64_o0_1_0_0_S2x36x38x64 : S2x38x38x64.Slices ![0, 1, 0, 0] S2x36x38x64
  slices_S2x38x38x64_o0_2_0_0_S2x36x38x64 : S2x38x38x64.Slices ![0, 2, 0, 0] S2x36x38x64
  concatenates_S2x36x38x64_S2x36x38x64_S2x36x38x64_S2x36x38x192_d3 : Shape.Concatenates [S2x36x38x64, S2x36x38x64, S2x36x38x64] S2x36x38x192 3
  slices_S2x36x38x192_o0_0_0_0_S2x36x36x192 : S2x36x38x192.Slices ![0, 0, 0, 0] S2x36x36x192
  shapeCasts_S2x36x36x192_S2592x192 : S2x36x36x192.ShapeCasts S2592x192
  inb_S3x192x128_S1x192x128_0_0_0 : ∀ a, (![0, 0, 0] : Fin 3 → Nat) a + S1x192x128.size a ≤ S3x192x128.size a
  h_S1x192x128 : 0 < S1x192x128.numel
  shapeCasts_S1x192x128_S192x128 : S1x192x128.ShapeCasts S192x128
  slices_S2x36x38x192_o0_0_1_0_S2x36x36x192 : S2x36x38x192.Slices ![0, 0, 1, 0] S2x36x36x192
  inb_S3x192x128_S1x192x128_1_0_0 : ∀ a, (![1, 0, 0] : Fin 3 → Nat) a + S1x192x128.size a ≤ S3x192x128.size a
  slices_S2x36x38x192_o0_0_2_0_S2x36x36x192 : S2x36x38x192.Slices ![0, 0, 2, 0] S2x36x36x192
  inb_S3x192x128_S1x192x128_2_0_0 : ∀ a, (![2, 0, 0] : Fin 3 → Nat) a + S1x192x128.size a ≤ S3x192x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S2592x128 : S1x128.Broadcasts S2592x128
  shapeCasts_S2592x128_S2x18x2x18x2x128 : S2592x128.ShapeCasts S2x18x2x18x2x128
  reduces_S2x18x2x18x2x128_S2x18x2x18x128 : S2x18x2x18x2x128.Reduces [4] S2x18x2x18x128
  reduces_S2x18x2x18x128_S2x18x18x128 : S2x18x2x18x128.Reduces [2] S2x18x18x128
  shapeCasts_S2x18x18x128_S2x18x2304 : S2x18x18x128.ShapeCasts S2x18x2304
  inb_S2x18x2304_S2x18x2304_0_0_0 : ∀ a, (![0, 0, 0] : Fin 3 → Nat) a + S2x18x2304.size a ≤ S2x18x2304.size a
  h_S2x18x2304 : 0 < S2x18x2304.numel
  packedbf16_S2x18x2304_S2x18x2304_0_0_0 : (Rect.unit (s := S2x18x2304) ![0, 0, 0] S2x18x2304.size inb_S2x18x2304_S2x18x2304_0_0_0).PackedRows (EltTy.packing .bf16)
  shapeCasts_S256x18x2304_S256x41472 : S256x18x2304.ShapeCasts S256x41472
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x10368_S256x10368_0_0 : ∀ a, (![0, 0] : Fin 2 → Nat) a + S256x10368.size a ≤ S256x10368.size a
  h_S256x10368 : 0 < S256x10368.numel
  shapeCasts_S256x10368_S256x10368 : S256x10368.ShapeCasts S256x10368
  inb_S10368x128_S10368x128_0_0 : ∀ a, (![0, 0] : Fin 2 → Nat) a + S10368x128.size a ≤ S10368x128.size a
  h_S10368x128 : 0 < S10368x128.numel
  shapeCasts_S1x128_S1x128 : S1x128.ShapeCasts S1x128
  broadcasts_S1x128_S256x128 : S1x128.Broadcasts S256x128
  inb_S128x3_S128x3_0_0 : ∀ a, (![0, 0] : Fin 2 → Nat) a + S128x3.size a ≤ S128x3.size a
  h_S128x3 : 0 < S128x3.numel
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  reducesTo_S2x256x3_S256x3_d0 : S2x256x3.ReducesTo [0] S256x3
  shapeCasts_S3_S1x3 : S3.ShapeCasts S1x3
  bcast_S1x3_S256x3_0_1 : S1x3.BroadcastsInDim S256x3 (![0, 1] : Fin 2 → Fin S256x3.rank)
  dot_S288x146_S146x4608_S288x4608_1_0_0_1_n_n_wf : DotDims.WF S288x146 S146x4608 S288x4608 [1] [0] [0] [1] [] []
  dot_S10368x96_S96x64_S10368x64_1_0_0_1_n_n_wf : DotDims.WF S10368x96 S96x64 S10368x64 [1] [0] [0] [1] [] []
  dot_S2592x192_S192x128_S2592x128_1_0_0_1_n_n_wf : DotDims.WF S2592x192 S192x128 S2592x128 [1] [0] [0] [1] [] []
  dot_S256x10368_S10368x128_S256x128_1_0_0_1_n_n_wf : DotDims.WF S256x10368 S10368x128 S256x128 [1] [0] [0] [1] [] []
  dot_S256x128_S128x3_S256x3_1_0_0_1_n_n_wf : DotDims.WF S256x128 S128x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x146x146.size a ≤ S256x146x146.size a
  hwx0_0 : ∀ i : grid0.Coords, EltTy.bits .bf16 = 32 ∨ (Rect.block (s := S256x146x146) S2x146x146.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x146x4608.size a ≤ S3x146x4608.size a
  hwx0_1 : ∀ i : grid0.Coords, EltTy.bits .bf16 = 32 ∨ (Rect.block (s := S3x146x4608) S3x146x4608.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4608.size a ≤ S1x4608.size a
  hwx0_2 : ∀ i : grid0.Coords, EltTy.bits .f32 = 32 ∨ (Rect.block (s := S1x4608) S1x4608.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x96x64.size a ≤ S3x96x64.size a
  hwx0_3 : ∀ i : grid0.Coords, EltTy.bits .bf16 = 32 ∨ (Rect.block (s := S3x96x64) S3x96x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x192x128.size a ≤ S3x192x128.size a
  hwx0_5 : ∀ i : grid0.Coords, EltTy.bits .bf16 = 32 ∨ (Rect.block (s := S3x192x128) S3x192x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x18x2304.size a ≤ S256x18x2304.size a
  hwx0_7 : ∀ i : grid0.Coords, EltTy.bits .bf16 = 32 ∨ (Rect.block (s := S256x18x2304) S2x18x2304.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x10368.size a ≤ S256x41472.size a
  hwx1_0 : ∀ i : grid1.Coords, EltTy.bits .bf16 = 32 ∨ (Rect.block (s := S256x41472) S256x10368.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10368x128.size a ≤ S41472x256.size a
  hwx1_1 : ∀ i : grid1.Coords, EltTy.bits .bf16 = 32 ∨ (Rect.block (s := S41472x256) S10368x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x256.size a
  hwx1_2 : ∀ i : grid1.Coords, EltTy.bits .f32 = 32 ∨ (Rect.block (s := S1x256) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x3.size a ≤ S256x3.size a
  hwx1_3 : ∀ i : grid1.Coords, EltTy.bits .bf16 = 32 ∨ (Rect.block (s := S256x3) S128x3.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x3.size a ≤ S2x256x3.size a
  hwx1_4 : ∀ i : grid1.Coords, EltTy.bits .f32 = 32 ∨ (Rect.block (s := S2x256x3) S1x256x3.size (cc1_transform_4 i) (hinb1_4 i)).WholeWords (EltTy.packing .f32)

variable [Facts₀]

def dot_S288x146_S146x4608_S288x4608_1_0_0_1_n_n : DotDims S288x146 S146x4608 S288x4608 where
  lhsContracting := [1]
  rhsContracting := [0]
  lhsNonContracting := [0]
  rhsNonContracting := [1]
  lhsBatch := []
  rhsBatch := []
  wf := dot_S288x146_S146x4608_S288x4608_1_0_0_1_n_n_wf
def dot_S10368x96_S96x64_S10368x64_1_0_0_1_n_n : DotDims S10368x96 S96x64 S10368x64 where
  lhsContracting := [1]
  rhsContracting := [0]
  lhsNonContracting := [0]
  rhsNonContracting := [1]
  lhsBatch := []
  rhsBatch := []
  wf := dot_S10368x96_S96x64_S10368x64_1_0_0_1_n_n_wf
def dot_S2592x192_S192x128_S2592x128_1_0_0_1_n_n : DotDims S2592x192 S192x128 S2592x128 where
  lhsContracting := [1]
  rhsContracting := [0]
  lhsNonContracting := [0]
  rhsNonContracting := [1]
  lhsBatch := []
  rhsBatch := []
  wf := dot_S2592x192_S192x128_S2592x128_1_0_0_1_n_n_wf
def dot_S256x10368_S10368x128_S256x128_1_0_0_1_n_n : DotDims S256x10368 S10368x128 S256x128 where
  lhsContracting := [1]
  rhsContracting := [0]
  lhsNonContracting := [0]
  rhsNonContracting := [1]
  lhsBatch := []
  rhsBatch := []
  wf := dot_S256x10368_S10368x128_S256x128_1_0_0_1_n_n_wf
def dot_S256x128_S128x3_S256x3_1_0_0_1_n_n : DotDims S256x128 S128x3 S256x3 where
  lhsContracting := [1]
  rhsContracting := [0]
  lhsNonContracting := [0]
  rhsNonContracting := [1]
  lhsBatch := []
  rhsBatch := []
  wf := dot_S256x128_S128x3_S256x3_1_0_0_1_n_n_wf

abbrev win0_0 : Pipeline.Window sig grid0 :=
  Pipeline.Window.ofSpec (Memref.whole main_v2) S2x146x146.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S3x146x4608.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x4608.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S3x96x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S3x192x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S2x18x2304.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v61) S256x10368.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S10368x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x256x3.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S41472x256 : Shape := ⟨2, ![41472, 256]⟩
abbrev S256 : Shape := ⟨1, ![256]⟩
abbrev S256x3 : Shape := ⟨2, ![256, 3]⟩
abbrev S3 : Shape := ⟨1, ![3]⟩
abbrev S256x1x144x144 : Shape := ⟨4, ![256, 1, 144, 144]⟩
abbrev S256x144x144x1 : Shape := ⟨4, ![256, 144, 144, 1]⟩
abbrev S_ : Shape := ⟨0, ![]⟩
abbrev S256x146x146x1 : Shape := ⟨4, ![256, 146, 146, 1]⟩
abbrev S256x144x144x9 : Shape := ⟨4, ![256, 144, 144, 9]⟩
abbrev S1x9x32 : Shape := ⟨3, ![1, 9, 32]⟩
abbrev S1x32 : Shape := ⟨2, ![1, 32]⟩
abbrev S256x72x2304 : Shape := ⟨3, ![256, 72, 2304]⟩
abbrev S1x16x144x9 : Shape := ⟨4, ![1, 16, 144, 9]⟩
abbrev S1x8x2304 : Shape := ⟨3, ![1, 8, 2304]⟩
abbrev S2304x32 : Shape := ⟨2, ![2304, 32]⟩
abbrev S16x144x9 : Shape := ⟨3, ![16, 144, 9]⟩
abbrev S2304x9 : Shape := ⟨2, ![2304, 9]⟩
abbrev S9x32 : Shape := ⟨2, ![9, 32]⟩
abbrev S8x2x72x2x32 : Shape := ⟨5, ![8, 2, 72, 2, 32]⟩
abbrev S8x2x72x32 : Shape := ⟨4, ![8, 2, 72, 32]⟩
abbrev S8x72x32 : Shape := ⟨3, ![8, 72, 32]⟩
abbrev S8x2304 : Shape := ⟨2, ![8, 2304]⟩
abbrev S256x72x72x32 : Shape := ⟨4, ![256, 72, 72, 32]⟩
abbrev S256x74x74x32 : Shape := ⟨4, ![256, 74, 74, 32]⟩
abbrev S256x72x74x32 : Shape := ⟨4, ![256, 72, 74, 32]⟩
abbrev S256x72x74x96 : Shape := ⟨4, ![256, 72, 74, 96]⟩
abbrev S3x96x64 : Shape := ⟨3, ![3, 96, 64]⟩
abbrev S1x64 : Shape := ⟨2, ![1, 64]⟩
abbrev S256x36x36x64 : Shape := ⟨4, ![256, 36, 36, 64]⟩
abbrev S1x8x74x96 : Shape := ⟨4, ![1, 8, 74, 96]⟩
abbrev S1x4x36x64 : Shape := ⟨4, ![1, 4, 36, 64]⟩
abbrev S576x64 : Shape := ⟨2, ![576, 64]⟩
abbrev S1x8x72x96 : Shape := ⟨4, ![1, 8, 72, 96]⟩
abbrev S8x72x96 : Shape := ⟨3, ![8, 72, 96]⟩
abbrev S576x96 : Shape := ⟨2, ![576, 96]⟩
abbrev S1x96x64 : Shape := ⟨3, ![1, 96, 64]⟩
abbrev S96x64 : Shape := ⟨2, ![96, 64]⟩
abbrev S4x2x36x2x64 : Shape := ⟨5, ![4, 2, 36, 2, 64]⟩
abbrev S4x2x36x64 : Shape := ⟨4, ![4, 2, 36, 64]⟩
abbrev S4x36x64 : Shape := ⟨3, ![4, 36, 64]⟩
abbrev S256x38x38x64 : Shape := ⟨4, ![256, 38, 38, 64]⟩
abbrev S256x36x38x64 : Shape := ⟨4, ![256, 36, 38, 64]⟩
abbrev S256x36x38x192 : Shape := ⟨4, ![256, 36, 38, 192]⟩
abbrev S3x192x128 : Shape := ⟨3, ![3, 192, 128]⟩
abbrev S1x128 : Shape := ⟨2, ![1, 128]⟩
abbrev S256x18x18x128 : Shape := ⟨4, ![256, 18, 18, 128]⟩
abbrev S1x12x38x192 : Shape := ⟨4, ![1, 12, 38, 192]⟩
abbrev S1x6x18x128 : Shape := ⟨4, ![1, 6, 18, 128]⟩
abbrev S432x128 : Shape := ⟨2, ![432, 128]⟩
abbrev S1x12x36x192 : Shape := ⟨4, ![1, 12, 36, 192]⟩
abbrev S12x36x192 : Shape := ⟨3, ![12, 36, 192]⟩
abbrev S432x192 : Shape := ⟨2, ![432, 192]⟩
abbrev S1x192x128 : Shape := ⟨3, ![1, 192, 128]⟩
abbrev S192x128 : Shape := ⟨2, ![192, 128]⟩
abbrev S6x2x18x2x128 : Shape := ⟨5, ![6, 2, 18, 2, 128]⟩
abbrev S6x2x18x128 : Shape := ⟨4, ![6, 2, 18, 128]⟩
abbrev S6x18x128 : Shape := ⟨3, ![6, 18, 128]⟩
abbrev S256x41472 : Shape := ⟨2, ![256, 41472]⟩
abbrev S1x256 : Shape := ⟨2, ![1, 256]⟩
abbrev S2x256x3 : Shape := ⟨3, ![2, 256, 3]⟩
abbrev S256x4608 : Shape := ⟨2, ![256, 4608]⟩
abbrev S4608x128 : Shape := ⟨2, ![4608, 128]⟩
abbrev S128x3 : Shape := ⟨2, ![128, 3]⟩
abbrev S1x256x3 : Shape := ⟨3, ![1, 256, 3]⟩
abbrev S256x128 : Shape := ⟨2, ![256, 128]⟩
abbrev S1x3 : Shape := ⟨2, ![1, 3]⟩

abbrev nBuf : Space → Nat
  | .hbm => 60
  | .vmem => 29
  | .smem => 0
  | _ => 0

abbrev bufTy : (tb : Table) → Fin (tcTables nBuf tb) → BufTy
  | .hbm, ⟨0, _⟩ => ⟨S3x3x1x32, .f32⟩
  | .hbm, ⟨1, _⟩ => ⟨S32, .f32⟩
  | .hbm, ⟨2, _⟩ => ⟨S3x3x32x64, .f32⟩
  | .hbm, ⟨3, _⟩ => ⟨S64, .f32⟩
  | .hbm, ⟨4, _⟩ => ⟨S3x3x64x128, .f32⟩
  | .hbm, ⟨5, _⟩ => ⟨S128, .f32⟩
  | .hbm, ⟨6, _⟩ => ⟨S41472x256, .bf16⟩
  | .hbm, ⟨7, _⟩ => ⟨S256, .f32⟩
  | .hbm, ⟨8, _⟩ => ⟨S256x3, .bf16⟩
  | .hbm, ⟨9, _⟩ => ⟨S3, .f32⟩
  | .hbm, ⟨10, _⟩ => ⟨S256x1x144x144, .f32⟩
  | .hbm, ⟨11, _⟩ => ⟨S256x144x144x1, .f32⟩
  | .hbm, ⟨12, _⟩ => ⟨S_, .i32⟩
  | .hbm, ⟨13, _⟩ => ⟨S_, .f32⟩
  | .hbm, ⟨14, _⟩ => ⟨S256x146x146x1, .f32⟩
  | .hbm, ⟨15, _⟩ => ⟨S256x144x144x1, .f32⟩
  | .hbm, ⟨16, _⟩ => ⟨S256x144x144x1, .f32⟩
  | .hbm, ⟨17, _⟩ => ⟨S256x144x144x1, .f32⟩
  | .hbm, ⟨18, _⟩ => ⟨S256x144x144x1, .f32⟩
  | .hbm, ⟨19, _⟩ => ⟨S256x144x144x1, .f32⟩
  | .hbm, ⟨20, _⟩ => ⟨S256x144x144x1, .f32⟩
  | .hbm, ⟨21, _⟩ => ⟨S256x144x144x1, .f32⟩
  | .hbm, ⟨22, _⟩ => ⟨S256x144x144x1, .f32⟩
  | .hbm, ⟨23, _⟩ => ⟨S256x144x144x1, .f32⟩
  | .hbm, ⟨24, _⟩ => ⟨S256x144x144x9, .f32⟩
  | .hbm, ⟨25, _⟩ => ⟨S1x9x32, .f32⟩
  | .hbm, ⟨26, _⟩ => ⟨S1x32, .f32⟩
  | .hbm, ⟨27, _⟩ => ⟨S256x72x2304, .f32⟩
  | .hbm, ⟨28, _⟩ => ⟨S256x72x72x32, .f32⟩
  | .hbm, ⟨29, _⟩ => ⟨S_, .i32⟩
  | .hbm, ⟨30, _⟩ => ⟨S_, .f32⟩
  | .hbm, ⟨31, _⟩ => ⟨S256x74x74x32, .f32⟩
  | .hbm, ⟨32, _⟩ => ⟨S256x72x74x32, .f32⟩
  | .hbm, ⟨33, _⟩ => ⟨S256x72x74x32, .f32⟩
  | .hbm, ⟨34, _⟩ => ⟨S256x72x74x32, .f32⟩
  | .hbm, ⟨35, _⟩ => ⟨S256x72x74x96, .f32⟩
  | .hbm, ⟨36, _⟩ => ⟨S3x3x32x64, .f32⟩
  | .hbm, ⟨37, _⟩ => ⟨S3x96x64, .f32⟩
  | .hbm, ⟨38, _⟩ => ⟨S1x64, .f32⟩
  | .hbm, ⟨39, _⟩ => ⟨S256x36x36x64, .f32⟩
  | .hbm, ⟨40, _⟩ => ⟨S_, .i32⟩
  | .hbm, ⟨41, _⟩ => ⟨S_, .f32⟩
  | .hbm, ⟨42, _⟩ => ⟨S256x38x38x64, .f32⟩
  | .hbm, ⟨43, _⟩ => ⟨S256x36x38x64, .f32⟩
  | .hbm, ⟨44, _⟩ => ⟨S256x36x38x64, .f32⟩
  | .hbm, ⟨45, _⟩ => ⟨S256x36x38x64, .f32⟩
  | .hbm, ⟨46, _⟩ => ⟨S256x36x38x192, .f32⟩
  | .hbm, ⟨47, _⟩ => ⟨S3x3x64x128, .f32⟩
  | .hbm, ⟨48, _⟩ => ⟨S3x192x128, .f32⟩
  | .hbm, ⟨49, _⟩ => ⟨S1x128, .f32⟩
  | .hbm, ⟨50, _⟩ => ⟨S256x18x18x128, .f32⟩
  | .hbm, ⟨51, _⟩ => ⟨S256x41472, .f32⟩
  | .hbm, ⟨52, _⟩ => ⟨S256x41472, .bf16⟩
  | .hbm, ⟨53, _⟩ => ⟨S1x256, .f32⟩
  | .hbm, ⟨54, _⟩ => ⟨S2x256x3, .f32⟩
  | .hbm, ⟨55, _⟩ => ⟨S_, .f32⟩
  | .hbm, ⟨56, _⟩ => ⟨S256x3, .f32⟩
  | .hbm, ⟨57, _⟩ => ⟨S1x3, .f32⟩
  | .hbm, ⟨58, _⟩ => ⟨S256x3, .f32⟩
  | .hbm, ⟨59, _⟩ => ⟨S256x3, .f32⟩
  | .local _ .vmem, ⟨0, _⟩ => ⟨S1x16x144x9, .f32⟩
  | .local _ .vmem, ⟨1, _⟩ => ⟨S1x16x144x9, .f32⟩
  | .local _ .vmem, ⟨2, _⟩ => ⟨S1x9x32, .f32⟩
  | .local _ .vmem, ⟨3, _⟩ => ⟨S1x32, .f32⟩
  | .local _ .vmem, ⟨4, _⟩ => ⟨S1x8x2304, .f32⟩
  | .local _ .vmem, ⟨5, _⟩ => ⟨S1x8x2304, .f32⟩
  | .local _ .vmem, ⟨6, _⟩ => ⟨S1x8x74x96, .f32⟩
  | .local _ .vmem, ⟨7, _⟩ => ⟨S1x8x74x96, .f32⟩
  | .local _ .vmem, ⟨8, _⟩ => ⟨S3x96x64, .f32⟩
  | .local _ .vmem, ⟨9, _⟩ => ⟨S1x64, .f32⟩
  | .local _ .vmem, ⟨10, _⟩ => ⟨S1x4x36x64, .f32⟩
  | .local _ .vmem, ⟨11, _⟩ => ⟨S1x4x36x64, .f32⟩
  | .local _ .vmem, ⟨12, _⟩ => ⟨S1x12x38x192, .f32⟩
  | .local _ .vmem, ⟨13, _⟩ => ⟨S1x12x38x192, .f32⟩
  | .local _ .vmem, ⟨14, _⟩ => ⟨S3x192x128, .f32⟩
  | .local _ .vmem, ⟨15, _⟩ => ⟨S1x128, .f32⟩
  | .local _ .vmem, ⟨16, _⟩ => ⟨S1x6x18x128, .f32⟩
  | .local _ .vmem, ⟨17, _⟩ => ⟨S1x6x18x128, .f32⟩
  | .local _ .vmem, ⟨18, _⟩ => ⟨S256x4608, .bf16⟩
  | .local _ .vmem, ⟨19, _⟩ => ⟨S256x4608, .bf16⟩
  | .local _ .vmem, ⟨20, _⟩ => ⟨S4608x128, .bf16⟩
  | .local _ .vmem, ⟨21, _⟩ => ⟨S4608x128, .bf16⟩
  | .local _ .vmem, ⟨22, _⟩ => ⟨S1x128, .f32⟩
  | .local _ .vmem, ⟨23, _⟩ => ⟨S1x128, .f32⟩
  | .local _ .vmem, ⟨24, _⟩ => ⟨S128x3, .bf16⟩
  | .local _ .vmem, ⟨25, _⟩ => ⟨S128x3, .bf16⟩
  | .local _ .vmem, ⟨26, _⟩ => ⟨S1x256x3, .f32⟩
  | .local _ .vmem, ⟨27, _⟩ => ⟨S1x256x3, .f32⟩
  | .local _ .vmem, ⟨28, _⟩ => ⟨S256x128, .f32⟩
  | _, _ => ⟨S3x3x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨2, ![256, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x144x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![256, 9], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x74x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3x96x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4x36x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![256, 3], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x12x38x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S3x192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x6x18x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 9], ![false, false]⟩

def k3_cond2 (i : grid3.Coords) : BitVec 1 :=
  let arg1 : BitVec 32 := BitVec.ofNat 32 (i 1).val
  let c8_i32 : BitVec 32 := 8#32
  let v12 : BitVec 1 := Scalar.cmpi .eq arg1 c8_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x4608 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4608x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S128x3 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  transposes_S256x1x144x144_S256x144x144x1_0_2_3_1 : S256x1x144x144.Transposes [0, 2, 3, 1] S256x144x144x1
  pads_S256x144x144x1_S256x146x146x1_000_110_110_000 : S256x144x144x1.Pads (![0, 1, 1, 0] : Fin 4 → Nat) ![0, 1, 1, 0] ![0, 0, 0, 0] S256x146x146x1
  h_S_ : 0 < S_.numel
  slices_S256x146x146x1_S256x144x144x1_0_0_0_0 : S256x146x146x1.Slices ![0, 0, 0, 0] S256x144x144x1
  slices_S256x146x146x1_S256x144x144x1_0_0_1_0 : S256x146x146x1.Slices ![0, 0, 1, 0] S256x144x144x1
  slices_S256x146x146x1_S256x144x144x1_0_0_2_0 : S256x146x146x1.Slices ![0, 0, 2, 0] S256x144x144x1
  slices_S256x146x146x1_S256x144x144x1_0_1_0_0 : S256x146x146x1.Slices ![0, 1, 0, 0] S256x144x144x1
  slices_S256x146x146x1_S256x144x144x1_0_1_1_0 : S256x146x146x1.Slices ![0, 1, 1, 0] S256x144x144x1
  slices_S256x146x146x1_S256x144x144x1_0_1_2_0 : S256x146x146x1.Slices ![0, 1, 2, 0] S256x144x144x1
  slices_S256x146x146x1_S256x144x144x1_0_2_0_0 : S256x146x146x1.Slices ![0, 2, 0, 0] S256x144x144x1
  slices_S256x146x146x1_S256x144x144x1_0_2_1_0 : S256x146x146x1.Slices ![0, 2, 1, 0] S256x144x144x1
  slices_S256x146x146x1_S256x144x144x1_0_2_2_0 : S256x146x146x1.Slices ![0, 2, 2, 0] S256x144x144x1
  concatenates_S256x144x144x1_S256x144x144x1_S256x144x144x1_S256x144x144x1_S256x144x144x1_S256x144x144x1_S256x144x144x1_S256x144x144x1_S256x144x144x1_S256x144x144x9_d3 : Shape.Concatenates [S256x144x144x1, S256x144x144x1, S256x144x144x1, S256x144x144x1, S256x144x144x1, S256x144x144x1, S256x144x144x1, S256x144x144x1, S256x144x144x1] S256x144x144x9 3
  shapeCasts_S3x3x1x32_S1x9x32 : S3x3x1x32.ShapeCasts S1x9x32
  shapeCasts_S32_S1x32 : S32.ShapeCasts S1x32
  inb_S1x16x144x9_S1x16x144x9_0_0_0_0 : ∀ a, (![0, 0, 0, 0] : Fin 4 → Nat) a + S1x16x144x9.size a ≤ S1x16x144x9.size a
  h_S1x16x144x9 : 0 < S1x16x144x9.numel
  shapeCasts_S1x16x144x9_S16x144x9 : S1x16x144x9.ShapeCasts S16x144x9
  shapeCasts_S16x144x9_S2304x9 : S16x144x9.ShapeCasts S2304x9
  inb_S1x9x32_S1x9x32_0_0_0 : ∀ a, (![0, 0, 0] : Fin 3 → Nat) a + S1x9x32.size a ≤ S1x9x32.size a
  h_S1x9x32 : 0 < S1x9x32.numel
  shapeCasts_S1x9x32_S9x32 : S1x9x32.ShapeCasts S9x32
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S2304x32 : S1x32.Broadcasts S2304x32
  shapeCasts_S2304x32_S8x2x72x2x32 : S2304x32.ShapeCasts S8x2x72x2x32
  reduces_S8x2x72x2x32_S8x2x72x32 : S8x2x72x2x32.Reduces [3] S8x2x72x32
  reduces_S8x2x72x32_S8x72x32 : S8x2x72x32.Reduces [1] S8x72x32
  shapeCasts_S8x72x32_S8x2304 : S8x72x32.ShapeCasts S8x2304
  inb_S1x8x2304_S1x8x2304_0_0_0 : ∀ a, (![0, 0, 0] : Fin 3 → Nat) a + S1x8x2304.size a ≤ S1x8x2304.size a
  h_S1x8x2304 : 0 < S1x8x2304.numel
  shapeCasts_S1x8x2304_S8x2304 : S1x8x2304.ShapeCasts S8x2304
  shapeCasts_S8x2304_S1x8x2304 : S8x2304.ShapeCasts S1x8x2304
  shapeCasts_S256x72x2304_S256x72x72x32 : S256x72x2304.ShapeCasts S256x72x72x32
  pads_S256x72x72x32_S256x74x74x32_000_110_110_000 : S256x72x72x32.Pads (![0, 1, 1, 0] : Fin 4 → Nat) ![0, 1, 1, 0] ![0, 0, 0, 0] S256x74x74x32
  slices_S256x74x74x32_S256x72x74x32_0_0_0_0 : S256x74x74x32.Slices ![0, 0, 0, 0] S256x72x74x32
  slices_S256x74x74x32_S256x72x74x32_0_1_0_0 : S256x74x74x32.Slices ![0, 1, 0, 0] S256x72x74x32
  slices_S256x74x74x32_S256x72x74x32_0_2_0_0 : S256x74x74x32.Slices ![0, 2, 0, 0] S256x72x74x32
  concatenates_S256x72x74x32_S256x72x74x32_S256x72x74x32_S256x72x74x96_d3 : Shape.Concatenates [S256x72x74x32, S256x72x74x32, S256x72x74x32] S256x72x74x96 3
  transposes_S3x3x32x64_S3x3x32x64_1_0_2_3 : S3x3x32x64.Transposes [1, 0, 2, 3] S3x3x32x64
  shapeCasts_S3x3x32x64_S3x96x64 : S3x3x32x64.ShapeCasts S3x96x64
  shapeCasts_S64_S1x64 : S64.ShapeCasts S1x64
  inb_S1x8x74x96_S1x8x72x96_0_0_0_0 : ∀ a, (![0, 0, 0, 0] : Fin 4 → Nat) a + S1x8x72x96.size a ≤ S1x8x74x96.size a
  h_S1x8x72x96 : 0 < S1x8x72x96.numel
  shapeCasts_S1x8x72x96_S8x72x96 : S1x8x72x96.ShapeCasts S8x72x96
  shapeCasts_S8x72x96_S576x96 : S8x72x96.ShapeCasts S576x96
  inb_S3x96x64_S1x96x64_0_0_0 : ∀ a, (![0, 0, 0] : Fin 3 → Nat) a + S1x96x64.size a ≤ S3x96x64.size a
  h_S1x96x64 : 0 < S1x96x64.numel
  shapeCasts_S1x96x64_S96x64 : S1x96x64.ShapeCasts S96x64
  inb_S1x8x74x96_S1x8x72x96_0_0_1_0 : ∀ a, (![0, 0, 1, 0] : Fin 4 → Nat) a + S1x8x72x96.size a ≤ S1x8x74x96.size a
  inb_S3x96x64_S1x96x64_1_0_0 : ∀ a, (![1, 0, 0] : Fin 3 → Nat) a + S1x96x64.size a ≤ S3x96x64.size a
  inb_S1x8x74x96_S1x8x72x96_0_0_2_0 : ∀ a, (![0, 0, 2, 0] : Fin 4 → Nat) a + S1x8x72x96.size a ≤ S1x8x74x96.size a
  inb_S3x96x64_S1x96x64_2_0_0 : ∀ a, (![2, 0, 0] : Fin 3 → Nat) a + S1x96x64.size a ≤ S3x96x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S576x64 : S1x64.Broadcasts S576x64
  shapeCasts_S576x64_S4x2x36x2x64 : S576x64.ShapeCasts S4x2x36x2x64
  reduces_S4x2x36x2x64_S4x2x36x64 : S4x2x36x2x64.Reduces [3] S4x2x36x64
  reduces_S4x2x36x64_S4x36x64 : S4x2x36x64.Reduces [1] S4x36x64
  inb_S1x4x36x64_S1x4x36x64_0_0_0_0 : ∀ a, (![0, 0, 0, 0] : Fin 4 → Nat) a + S1x4x36x64.size a ≤ S1x4x36x64.size a
  h_S1x4x36x64 : 0 < S1x4x36x64.numel
  shapeCasts_S1x4x36x64_S4x36x64 : S1x4x36x64.ShapeCasts S4x36x64
  shapeCasts_S4x36x64_S1x4x36x64 : S4x36x64.ShapeCasts S1x4x36x64
  pads_S256x36x36x64_S256x38x38x64_000_110_110_000 : S256x36x36x64.Pads (![0, 1, 1, 0] : Fin 4 → Nat) ![0, 1, 1, 0] ![0, 0, 0, 0] S256x38x38x64
  slices_S256x38x38x64_S256x36x38x64_0_0_0_0 : S256x38x38x64.Slices ![0, 0, 0, 0] S256x36x38x64
  slices_S256x38x38x64_S256x36x38x64_0_1_0_0 : S256x38x38x64.Slices ![0, 1, 0, 0] S256x36x38x64
  slices_S256x38x38x64_S256x36x38x64_0_2_0_0 : S256x38x38x64.Slices ![0, 2, 0, 0] S256x36x38x64
  concatenates_S256x36x38x64_S256x36x38x64_S256x36x38x64_S256x36x38x192_d3 : Shape.Concatenates [S256x36x38x64, S256x36x38x64, S256x36x38x64] S256x36x38x192 3
  transposes_S3x3x64x128_S3x3x64x128_1_0_2_3 : S3x3x64x128.Transposes [1, 0, 2, 3] S3x3x64x128
  shapeCasts_S3x3x64x128_S3x192x128 : S3x3x64x128.ShapeCasts S3x192x128
  shapeCasts_S128_S1x128 : S128.ShapeCasts S1x128
  inb_S1x12x38x192_S1x12x36x192_0_0_0_0 : ∀ a, (![0, 0, 0, 0] : Fin 4 → Nat) a + S1x12x36x192.size a ≤ S1x12x38x192.size a
  h_S1x12x36x192 : 0 < S1x12x36x192.numel
  shapeCasts_S1x12x36x192_S12x36x192 : S1x12x36x192.ShapeCasts S12x36x192
  shapeCasts_S12x36x192_S432x192 : S12x36x192.ShapeCasts S432x192
  inb_S3x192x128_S1x192x128_0_0_0 : ∀ a, (![0, 0, 0] : Fin 3 → Nat) a + S1x192x128.size a ≤ S3x192x128.size a
  h_S1x192x128 : 0 < S1x192x128.numel
  shapeCasts_S1x192x128_S192x128 : S1x192x128.ShapeCasts S192x128
  inb_S1x12x38x192_S1x12x36x192_0_0_1_0 : ∀ a, (![0, 0, 1, 0] : Fin 4 → Nat) a + S1x12x36x192.size a ≤ S1x12x38x192.size a
  inb_S3x192x128_S1x192x128_1_0_0 : ∀ a, (![1, 0, 0] : Fin 3 → Nat) a + S1x192x128.size a ≤ S3x192x128.size a
  inb_S1x12x38x192_S1x12x36x192_0_0_2_0 : ∀ a, (![0, 0, 2, 0] : Fin 4 → Nat) a + S1x12x36x192.size a ≤ S1x12x38x192.size a
  inb_S3x192x128_S1x192x128_2_0_0 : ∀ a, (![2, 0, 0] : Fin 3 → Nat) a + S1x192x128.size a ≤ S3x192x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S432x128 : S1x128.Broadcasts S432x128
  shapeCasts_S432x128_S6x2x18x2x128 : S432x128.ShapeCasts S6x2x18x2x128
  reduces_S6x2x18x2x128_S6x2x18x128 : S6x2x18x2x128.Reduces [3] S6x2x18x128
  reduces_S6x2x18x128_S6x18x128 : S6x2x18x128.Reduces [1] S6x18x128
  inb_S1x6x18x128_S1x6x18x128_0_0_0_0 : ∀ a, (![0, 0, 0, 0] : Fin 4 → Nat) a + S1x6x18x128.size a ≤ S1x6x18x128.size a
  h_S1x6x18x128 : 0 < S1x6x18x128.numel
  shapeCasts_S1x6x18x128_S6x18x128 : S1x6x18x128.ShapeCasts S6x18x128
  shapeCasts_S6x18x128_S1x6x18x128 : S6x18x128.ShapeCasts S1x6x18x128
  shapeCasts_S256x18x18x128_S256x41472 : S256x18x18x128.ShapeCasts S256x41472
  bitsLt_bf16_f32 : FTy.bits .bf16 < FTy.bits .f32
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x4608_S256x4608_0_0 : ∀ a, (![0, 0] : Fin 2 → Nat) a + S256x4608.size a ≤ S256x4608.size a
  h_S256x4608 : 0 < S256x4608.numel
  shapeCasts_S256x4608_S256x4608 : S256x4608.ShapeCasts S256x4608
  inb_S4608x128_S4608x128_0_0 : ∀ a, (![0, 0] : Fin 2 → Nat) a + S4608x128.size a ≤ S4608x128.size a
  h_S4608x128 : 0 < S4608x128.numel
  shapeCasts_S1x128_S1x128 : S1x128.ShapeCasts S1x128
  broadcasts_S1x128_S256x128 : S1x128.Broadcasts S256x128
  inb_S128x3_S128x3_0_0 : ∀ a, (![0, 0] : Fin 2 → Nat) a + S128x3.size a ≤ S128x3.size a
  h_S128x3 : 0 < S128x3.numel
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  reducesTo_S2x256x3_S256x3_d0 : S2x256x3.ReducesTo [0] S256x3
  shapeCasts_S3_S1x3 : S3.ShapeCasts S1x3
  bcast_S1x3_S256x3_0_1 : S1x3.BroadcastsInDim S256x3 (![0, 1] : Fin 2 → Fin S256x3.rank)
  dot_S2304x9_S9x32_S2304x32_1_0_0_1_n_n_wf : DotDims.WF S2304x9 S9x32 S2304x32 [1] [0] [0] [1] [] []
  dot_S576x96_S96x64_S576x64_1_0_0_1_n_n_wf : DotDims.WF S576x96 S96x64 S576x64 [1] [0] [0] [1] [] []
  dot_S432x192_S192x128_S432x128_1_0_0_1_n_n_wf : DotDims.WF S432x192 S192x128 S432x128 [1] [0] [0] [1] [] []
  dot_S256x4608_S4608x128_S256x128_1_0_0_1_n_n_wf : DotDims.WF S256x4608 S4608x128 S256x128 [1] [0] [0] [1] [] []
  dot_S256x128_S128x3_S256x3_1_0_0_1_n_n_wf : DotDims.WF S256x128 S128x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x144x9.size a ≤ S256x144x144x9.size a
  hwx0_0 : ∀ i : grid0.Coords, EltTy.bits .f32 = 32 ∨ (Rect.block (s := S256x144x144x9) S1x16x144x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x9x32.size a ≤ S1x9x32.size a
  hwx0_1 : ∀ i : grid0.Coords, EltTy.bits .f32 = 32 ∨ (Rect.block (s := S1x9x32) S1x9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x2304.size a ≤ S256x72x2304.size a
  hwx0_3 : ∀ i : grid0.Coords, EltTy.bits .f32 = 32 ∨ (Rect.block (s := S256x72x2304) S1x8x2304.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x74x96.size a ≤ S256x72x74x96.size a
  hwx1_0 : ∀ i : grid1.Coords, EltTy.bits .f32 = 32 ∨ (Rect.block (s := S256x72x74x96) S1x8x74x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x96x64.size a ≤ S3x96x64.size a
  hwx1_1 : ∀ i : grid1.Coords, EltTy.bits .f32 = 32 ∨ (Rect.block (s := S3x96x64) S3x96x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x36x64.size a ≤ S256x36x36x64.size a
  hwx1_3 : ∀ i : grid1.Coords, EltTy.bits .f32 = 32 ∨ (Rect.block (s := S256x36x36x64) S1x4x36x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x12x38x192.size a ≤ S256x36x38x192.size a
  hwx2_0 : ∀ i : grid2.Coords, EltTy.bits .f32 = 32 ∨ (Rect.block (s := S256x36x38x192) S1x12x38x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x192x128.size a ≤ S3x192x128.size a
  hwx2_1 : ∀ i : grid2.Coords, EltTy.bits .f32 = 32 ∨ (Rect.block (s := S3x192x128) S3x192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x6x18x128.size a ≤ S256x18x18x128.size a
  hwx2_3 : ∀ i : grid2.Coords, EltTy.bits .f32 = 32 ∨ (Rect.block (s := S256x18x18x128) S1x6x18x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4608.size a ≤ S256x41472.size a
  hwx3_0 : ∀ i : grid3.Coords, EltTy.bits .bf16 = 32 ∨ (Rect.block (s := S256x41472) S256x4608.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4608x128.size a ≤ S41472x256.size a
  hwx3_1 : ∀ i : grid3.Coords, EltTy.bits .bf16 = 32 ∨ (Rect.block (s := S41472x256) S4608x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x256.size a
  hwx3_2 : ∀ i : grid3.Coords, EltTy.bits .f32 = 32 ∨ (Rect.block (s := S1x256) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x3.size a ≤ S256x3.size a
  hwx3_3 : ∀ i : grid3.Coords, EltTy.bits .bf16 = 32 ∨ (Rect.block (s := S256x3) S128x3.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x3.size a ≤ S2x256x3.size a
  hwx3_4 : ∀ i : grid3.Coords, EltTy.bits .f32 = 32 ∨ (Rect.block (s := S2x256x3) S1x256x3.size (cc3_transform_4 i) (hinb3_4 i)).WholeWords (EltTy.packing .f32)

variable [Facts₀]

def dot_S2304x9_S9x32_S2304x32_1_0_0_1_n_n : DotDims S2304x9 S9x32 S2304x32 where
  lhsContracting := [1]
  rhsContracting := [0]
  lhsNonContracting := [0]
  rhsNonContracting := [1]
  lhsBatch := []
  rhsBatch := []
  wf := dot_S2304x9_S9x32_S2304x32_1_0_0_1_n_n_wf
def dot_S576x96_S96x64_S576x64_1_0_0_1_n_n : DotDims S576x96 S96x64 S576x64 where
  lhsContracting := [1]
  rhsContracting := [0]
  lhsNonContracting := [0]
  rhsNonContracting := [1]
  lhsBatch := []
  rhsBatch := []
  wf := dot_S576x96_S96x64_S576x64_1_0_0_1_n_n_wf
def dot_S432x192_S192x128_S432x128_1_0_0_1_n_n : DotDims S432x192 S192x128 S432x128 where
  lhsContracting := [1]
  rhsContracting := [0]
  lhsNonContracting := [0]
  rhsNonContracting := [1]
  lhsBatch := []
  rhsBatch := []
  wf := dot_S432x192_S192x128_S432x128_1_0_0_1_n_n_wf
def dot_S256x4608_S4608x128_S256x128_1_0_0_1_n_n : DotDims S256x4608 S4608x128 S256x128 where
  lhsContracting := [1]
  rhsContracting := [0]
  lhsNonContracting := [0]
  rhsNonContracting := [1]
  lhsBatch := []
  rhsBatch := []
  wf := dot_S256x4608_S4608x128_S256x128_1_0_0_1_n_n_wf
def dot_S256x128_S128x3_S256x3_1_0_0_1_n_n : DotDims S256x128 S128x3 S256x3 where
  lhsContracting := [1]
  rhsContracting := [0]
  lhsNonContracting := [0]
  rhsNonContracting := [1]
  lhsBatch := []
  rhsBatch := []
  wf := dot_S256x128_S128x3_S256x3_1_0_0_1_n_n_wf

abbrev win0_0 : Pipeline.Window sig grid0 :=
  Pipeline.Window.ofSpec (Memref.whole main_v11) S1x16x144x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x8x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1x8x74x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S3x96x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x4x36x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S1x12x38x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S3x192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x6x18x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S256x4608.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S4608x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x3.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x256x3.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== Proof.KConv.lean ====
/-
  The fused convolution stack, one grid point per pair of images: the output block as a function of the seven input
  blocks (`stack0`), and the body's triple at every grid point.
-/
import proofs.«103448_g2000407080750749_pallasbulk_1140_2_alg».proof.Proof.Gen.Kernel.Launch
import proofs.«103448_g2000407080750749_pallasbulk_1140_2_alg».proof.Proof.Gen.Kernel.Skeleton
import proofs.«103448_g2000407080750749_pallasbulk_1140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S2x146x146 := Rect.unit (s := S2x146x146) ![0, 0, 0] S2x144x146.size inb_S2x146x146_S2x144x146_0_0_0
abbrev rx1 : Rect S2x146x146 := Rect.unit (s := S2x146x146) ![0, 1, 0] S2x144x146.size inb_S2x146x146_S2x144x146_0_1_0
abbrev rx2 : Rect S2x146x146 := Rect.unit (s := S2x146x146) ![0, 2, 0] S2x144x146.size inb_S2x146x146_S2x144x146_0_2_0
abbrev rb0 : Rect S3x146x4608 := Rect.unit (s := S3x146x4608) ![0, 0, 0] S1x146x4608.size inb_S3x146x4608_S1x146x4608_0_0_0
abbrev rb1 : Rect S3x146x4608 := Rect.unit (s := S3x146x4608) ![1, 0, 0] S1x146x4608.size inb_S3x146x4608_S1x146x4608_1_0_0
abbrev rb2 : Rect S3x146x4608 := Rect.unit (s := S3x146x4608) ![2, 0, 0] S1x146x4608.size inb_S3x146x4608_S1x146x4608_2_0_0
abbrev rbias1 : Rect S1x4608 := Rect.unit (s := S1x4608) ![0, 0] S1x4608.size inb_S1x4608_S1x4608_0_0
abbrev rw20 : Rect S3x96x64 := Rect.unit (s := S3x96x64) ![0, 0, 0] S1x96x64.size inb_S3x96x64_S1x96x64_0_0_0
abbrev rw21 : Rect S3x96x64 := Rect.unit (s := S3x96x64) ![1, 0, 0] S1x96x64.size inb_S3x96x64_S1x96x64_1_0_0
abbrev rw22 : Rect S3x96x64 := Rect.unit (s := S3x96x64) ![2, 0, 0] S1x96x64.size inb_S3x96x64_S1x96x64_2_0_0
abbrev rbias2 : Rect S1x64 := Rect.unit (s := S1x64) ![0, 0] S1x64.size inb_S1x64_S1x64_0_0
abbrev rw30 : Rect S3x192x128 := Rect.unit (s := S3x192x128) ![0, 0, 0] S1x192x128.size inb_S3x192x128_S1x192x128_0_0_0
abbrev rw31 : Rect S3x192x128 := Rect.unit (s := S3x192x128) ![1, 0, 0] S1x192x128.size inb_S3x192x128_S1x192x128_1_0_0
abbrev rw32 : Rect S3x192x128 := Rect.unit (s := S3x192x128) ![2, 0, 0] S1x192x128.size inb_S3x192x128_S1x192x128_2_0_0
abbrev rbias3 : Rect S1x128 := Rect.unit (s := S1x128) ![0, 0] S1x128.size inb_S1x128_S1x128_0_0
abbrev rout : Rect S2x18x2304 := Rect.unit (s := S2x18x2304) ![0, 0, 0] S2x18x2304.size inb_S2x18x2304_S2x18x2304_0_0_0

/-- The body's one stored value from the seven input blocks: the three layers composed. -/
def stack0 (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) : FVec F S2x18x2304 .bf16 :=
  k0_pay3
    (k0_pay2
      (k0_pay1 (View.ld x0 rx0) (View.ld x1 rb0) (View.ld x0 rx1) (View.ld x1 rb1) (View.ld x0 rx2) (View.ld x1 rb2) (View.ld x2 rbias1))
      (View.ld x3 rw20) (View.ld x3 rw21) (View.ld x3 rw22) (View.ld x4 rbias2))
    (View.ld x5 rw30) (View.ld x5 rw31) (View.ld x5 rw32) (View.ld x6 rbias3)

/-- The output window's buffer after the body: that value over the whole buffer. -/
def out0_7 (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) : Vec F S2x18x2304 .bf16 :=
  View.canon [⟨rout, stack0 x0 x1 x2 x3 x4 x5 x6⟩]

theorem cover0_7 (p0 : Vec F S2x18x2304 .bf16) (y : S2x18x2304.Idx) :
    ∃ pc ∈ ([⟨rout, p0⟩] : List (View.Piece (Elt F) S2x18x2304 .bf16)), y ∈ pc.1.set :=
  View.cover_of_tiled [⟨rout, p0⟩] S2x18x2304.size (by rfl) y

set_option maxHeartbeats 4000000 in
/-- The body on whole buffers keeps the inputs and leaves `out0_7` of them in the output's. -/
theorem sound_kernel0 (c : Dev nD) (E : Set ℕ) (i : grid0.Coords)
    (arg1 : Memref sig .tc .vmem S2x146x146 .bf16) (harg1 : arg1.IsWhole) (arg2 : Memref sig .tc .vmem S3x146x4608 .bf16) (harg2 : arg2.IsWhole)
    (arg3 : Memref sig .tc .vmem S1x4608 .f32) (harg3 : arg3.IsWhole) (arg4 : Memref sig .tc .vmem S3x96x64 .bf16) (harg4 : arg4.IsWhole)
    (arg5 : Memref sig .tc .vmem S1x64 .f32) (harg5 : arg5.IsWhole) (arg6 : Memref sig .tc .vmem S3x192x128 .bf16) (harg6 : arg6.IsWhole)
    (arg7 : Memref sig .tc .vmem S1x128 .f32) (harg7 : arg7.IsWhole) (arg8 : Memref sig .tc .vmem S2x18x2304 .bf16) (harg8 : arg8.IsWhole)
    (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__conv_stack_kernel i arg1 harg1 arg2 harg2 arg3 harg3 arg4 harg4 arg5 harg5 arg6 harg6 arg7 harg7 arg8 harg8) K := by
  simp only [cc0__conv_stack_kernel_eq_skeleton]; unfold cc0__conv_stack_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  exact View.read_writes_eq_canon _ _ _ (cover0_7 _)

/-- After the body each input's buffer holds its block and the output's holds `out0_7` of those blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

/-- Before the body, at every grid point, each input window's buffer holds that window's block. -/
theorem before0_in (c : Dev nD) (t : Fin cfg0.N) :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t)
    ∧ (∀ d, (dat0 V c).before 5 t d = iblk0 V c 5 t)
    ∧ (∀ d, (dat0 V c).before 6 t d = iblk0 V c 6 t) := by
  refine ⟨?_, ?_, ?_, ?_, ?_, ?_, ?_⟩ <;> exact fun d =>
    ((dat0 V c).before_in_eq_fetched _ rfl (fun _ => rfl) (fun _ _ _ => rfl)
      (fun t => by dsimp only [dat0]; unfold Dat.blockOf iblk0; try rfl) t d).trans
      (by unfold Dat.fetched Dat.blockOf iblk0; dsimp only [dat0]; try rfl)

/-- At every grid point the inputs' buffers hold their blocks, so the body's triple applies. -/
theorem body_obligation0 (c : Dev nD) : BodyObligation (dat0 (F := F) V c) (defs₀ (F := F)) Variants.none () Set.univ := fun t => by
  rw [bigSep_W0, bigSep_W0]
  show _ ⊢ wp frame _ _ (bodyAt0 t) _
  unfold bodyAt0
  obtain ⟨b0, b1, b2, b3, b4, b5, b6⟩ := before0_in V c t
  simp only [b0, b1, b2, b3, b4, b5, b6]
  rw [show (dat0 V c).Φ t.succ = (dat0 V c).Φ t.castSucc from rfl,
    show (dat0 V c).owesAt () t.succ = (dat0 V c).owesAt () t.castSucc from rfl, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem Phi0_first (c : Dev nD) : (dat0 V c).Φ 0 = Pipeline.ΦA spec0 c := rfl

theorem Phi0_last (c : Dev nD) : (dat0 V c).Φ (Fin.last cfg0.N) ⊢ Pipeline.ΦA spec0 c := .rfl

end Cert.Kernel.Hand

end
-- ==== Proof.KFc.lean ====
/-
  The fully connected head on a grid of two rows of four points. The scratch accumulates the products of a row's
  activation and weight blocks from zero; the row's last point stores the rectified sum times the second weights.
-/
import proofs.«103448_g2000407080750749_pallasbulk_1140_2_alg».proof.Proof.Gen.Kernel.Launch
import proofs.«103448_g2000407080750749_pallasbulk_1140_2_alg».proof.Proof.Gen.Kernel.Skeleton
import proofs.«103448_g2000407080750749_pallasbulk_1140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev fc1_racc : Rect S256x128 := Rect.unit (s := S256x128) ![0, 0] S256x128.size inb_S256x128_S256x128_0_0
abbrev fc1_rx : Rect S256x10368 := Rect.unit (s := S256x10368) ![0, 0] S256x10368.size inb_S256x10368_S256x10368_0_0
abbrev fc1_rw : Rect S10368x128 := Rect.unit (s := S10368x128) ![0, 0] S10368x128.size inb_S10368x128_S10368x128_0_0
abbrev fc1_rbias : Rect S1x128 := Rect.unit (s := S1x128) ![0, 0] S1x128.size inb_S1x128_S1x128_0_0
abbrev fc1_rw2 : Rect S128x3 := Rect.unit (s := S128x3) ![0, 0] S128x3.size inb_S128x3_S128x3_0_0
abbrev fc1_rhead : Rect S1x256x3 := Rect.unit (s := S1x256x3) ![0, 0, 0] S1x256x3.size inb_S1x256x3_S1x256x3_0_0_0

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The first condition holds at the first point of a row. -/
theorem hcond1_0 : ∀ t : Fin cfg1.N, cond1_0 (grid1.coords t) ↔ t.val % 4 = 0 := by decide +kernel

/-- The second excludes the first and marks the points where the output block is stored and kept. -/
theorem hcond1_1 : ∀ t : Fin cfg1.N, if cond1_1 (grid1.coords t) then ¬cond1_0 (grid1.coords t) ∧ cfg1.idle 4 (grid1.coords t) = false
    else cfg1.idle 4 (grid1.coords t) = true ∧ (cfg1.win 4).flush t = false := by decide +kernel

def accZero1 : Vec F S256x128 .f32 := View.canon [⟨fc1_racc, k1_pay1⟩]

def accStep1 (a : Vec F S256x128 .f32) (x : Vec F S256x10368 .bf16) (w : Vec F S10368x128 .bf16) : Vec F S256x128 .f32 :=
  View.canon [⟨fc1_racc, k1_pay2 (View.ld a fc1_racc) (View.ld x fc1_rx) (View.ld w fc1_rw)⟩]

def head1 (a : Vec F S256x128 .f32) (b : Vec F S1x128 .f32) (w : Vec F S128x3 .bf16) : Vec F S1x256x3 .f32 :=
  View.canon [⟨fc1_rhead, k1_pay3 (View.ld a fc1_racc) (View.ld b fc1_rbias) (View.ld w fc1_rw2)⟩]

/-- A newest piece that is the whole shape covers it, -/
theorem cover1 {s : Shape} {e : EltTy} {p : View.Piece (Elt F) s e} (h : p.whole = true) (L : List (View.Piece (Elt F) s e)) (y : s.Idx) :
    ∃ q ∈ p :: L, y ∈ q.1.set :=
  View.cover_of_wholeMem _ (View.Piece.wholeMem_here h) y

/-- and leaves nothing of the earlier pieces. -/
theorem canon_whole {s : Shape} {e : EltTy} (p : View.Piece (Elt F) s e) (h : p.whole = true) (L : List (View.Piece (Elt F) s e)) :
    View.canon (p :: L) = View.canon [p] := by
  funext y
  obtain ⟨q, hm, hy⟩ := cover1 h [] y
  obtain rfl := List.mem_singleton.mp hm
  obtain ⟨x, rfl⟩ := q.1.exists_idx_of_mem hy
  exact (View.canon_cons_emb q.1 q.2 _ x).trans (View.canon_cons_emb q.1 q.2 _ x).symm

theorem ld_accZero1 : View.ld (accZero1 (F := F)) fc1_racc = k1_pay1 := by
  funext x; exact View.canon_cons_emb fc1_racc _ [] x

theorem ld_accStep1 (a : Vec F S256x128 .f32) (x : Vec F S256x10368 .bf16) (w : Vec F S10368x128 .bf16) :
    View.ld (accStep1 a x w) fc1_racc = k1_pay2 (View.ld a fc1_racc) (View.ld x fc1_rx) (View.ld w fc1_rw) := by
  funext j; exact View.canon_cons_emb fc1_racc _ [] j

set_option maxHeartbeats 4000000 in
/-- One run of the body: the sum restarts from zero at a row's first point, and only a row's last point stores the output. -/
theorem sound_kernel1 (c : Dev nD) (E : Set ℕ) (i : grid1.Coords) (h01 : cond1_1 i → ¬cond1_0 i)
    (arg2 : Memref sig .tc .vmem S256x10368 .bf16) (harg2 : arg2.IsWhole) (arg3 : Memref sig .tc .vmem S10368x128 .bf16) (harg3 : arg3.IsWhole)
    (arg4 : Memref sig .tc .vmem S1x128 .f32) (harg4 : arg4.IsWhole) (arg5 : Memref sig .tc .vmem S128x3 .bf16) (harg5 : arg5.IsWhole)
    (arg6 : Memref sig .tc .vmem S1x256x3 .f32) (harg6 : arg6.IsWhole) (arg7 : Memref sig .tc .vmem S256x128 .f32) (harg7 : arg7.IsWhole)
    (x0 : Vec F S256x10368 .bf16) (x1 : Vec F S10368x128 .bf16) (x2 : Vec F S1x128 .f32) (x3 : Vec F S128x3 .bf16)
    (d : Vec F S1x256x3 .f32) (a a₀ : Vec F S256x128 .f32) (ha : a₀ = if cond1_0 i then accZero1 else a) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (if cond1_1 i then head1 (accStep1 a₀ x0 x1) x2 x3 else d)
            ∗ owns (c : Thread nD τ) arg7 fullShare (accStep1 a₀ x0 x1)) -∗ K ⟨⟩))
      ⊢ wp frame (wpE (defs₀ (F := F)) Variants.none c none) E
          (cc1__fc_kernel i arg2 harg2 arg3 harg3 arg4 harg4 arg5 harg5 arg6 harg6 arg7 harg7) K := by
  subst ha
  by_cases hc1 : cond1_1 i <;> by_cases hc0 : cond1_0 i
  · exact absurd hc0 (h01 hc1)
  all_goals
    first | rw [if_pos hc1] | rw [if_neg hc1]
    first | rw [if_pos hc0] | rw [if_neg hc0]
    simp only [cc1__fc_kernel_eq_skeleton]; unfold cc1__fc_kernel_skel owns
    iintro ⟨⟨%f0, %hf0, H0⟩, ⟨%f1, %hf1, H1⟩, ⟨%f2, %hf2, H2⟩, ⟨%f3, %hf3, H3⟩, ⟨%f4, %hf4, H4⟩, ⟨%fa, %hfa, HS⟩, Hk⟩
    subst hf0 hf1 hf2 hf3 hf4 hfa
    sl_exec (disch := first | exact hc0 | exact hc1)
    sl_step
    iapply Hk
    isplitl [H0]; swap; isplitl [H1]; swap; isplitl [H2]; swap; isplitl [H3]; swap; isplitl [H4]
    all_goals
      iexists _; isplitr; swap; · iassumption
      ipureintro
      first
      | (sl_unfold_words
         try rw [View.readCov_eq_canon_ld _ _ fc1_racc (cover1 (p := ⟨fc1_racc, _⟩) rfl _)]
         exact (View.read_writes_eq_canon _ _ _ (cover1 (by rfl) _)).trans (canon_whole _ (by rfl) _))
      | rfl

def accAt1 (c : Dev nD) : (n : ℕ) → n < cfg1.N → Vec F S256x128 .f32
  | 0, hn => accStep1 accZero1 (iblk1 V c 0 ⟨0, hn⟩) (iblk1 V c 1 ⟨0, hn⟩)
  | n + 1, hn =>
    accStep1 (if (n + 1) % 4 = 0 then accZero1 else accAt1 c n (Nat.lt_of_succ_lt hn))
      (iblk1 V c 0 ⟨n + 1, hn⟩) (iblk1 V c 1 ⟨n + 1, hn⟩)

theorem accAt1_first (c : Dev nD) (t : Fin cfg1.N) (h0 : t.val % 4 = 0) :
    accAt1 V c t.val t.isLt = accStep1 accZero1 (iblk1 V c 0 t) (iblk1 V c 1 t) := by
  obtain ⟨n, hn⟩ := t
  cases n with
  | zero => rfl
  | succ n => exact congrArg (fun a => accStep1 a (iblk1 V c 0 ⟨n + 1, hn⟩) (iblk1 V c 1 ⟨n + 1, hn⟩)) (if_pos h0)

theorem accAt1_step (c : Dev nD) (t : Fin cfg1.N) (h0 : ¬t.val % 4 = 0) :
    accAt1 V c t.val t.isLt
      = accStep1 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact congrArg (fun a => accStep1 a (iblk1 V c 0 ⟨n + 1, hn⟩) (iblk1 V c 1 ⟨n + 1, hn⟩)) (if_neg h0)

abbrev scM1 : Memref sig .tc .vmem S256x128 .f32 := Memref.whole cc1_scratch0

/-- The invariant with the scratch at `S`; whatever else the region owns rides along unnamed. -/
def PhiS1 (c : Dev nD) (S : sProp 𝕄) : sProp 𝕄 :=
  iprop((S ∗ Pipeline.scopedRestBut (Ix := Unit) (Name := ℕ) (U := UR sig nD τ) (Lvl := ℕ) (Val := Elt F) spec1 c [cc1_scratch0])
    ∗ ∃ r, prngReg c r)

theorem PhiA1_eq (c : Dev nD) :
    (Pipeline.ΦA spec1 c : sProp 𝕄) = PhiS1 c iprop(∃ d, owns (c : Thread nD τ) scM1 fullShare d) := by
  unfold Pipeline.ΦA PhiS1
  rw [Pipeline.scopedRest_split_of_list spec1 c [cc1_scratch0] (by decide) (by decide)]
  simp only [scM1, owns_whole]; try rfl

def Phi1 (c : Dev nD) : (n : ℕ) → n ≤ cfg1.N → sProp 𝕄
  | 0, _ => Pipeline.ΦA spec1 c
  | n + 1, hn => PhiS1 c (owns (c : Thread nD τ) scM1 fullShare (accAt1 V c n hn))

/-- Before any point the scratch is owned at some `a` from which the point's step yields `accAt1`. -/
theorem Phi1_open (c : Dev nD) (t : Fin cfg1.N) :
    Phi1 V c t.val (Nat.le_of_lt t.isLt) ⊢ iprop(∃ a, PhiS1 c (owns (c : Thread nD τ) scM1 fullShare a)
      ∗ ⌜accAt1 V c t.val t.isLt = accStep1 (if cond1_0 (grid1.coords t) then accZero1 else a) (iblk1 V c 0 t) (iblk1 V c 1 t)⌝) := by
  obtain ⟨n, hn⟩ := t
  cases n with
  | zero =>
    show Pipeline.ΦA spec1 c ⊢ _
    rw [PhiA1_eq]; unfold PhiS1
    iintro ⟨⟨⟨%a, HS⟩, HR⟩, Hg⟩
    iexists a; isplitl
    · iframe
    ipureintro; rw [if_pos ((hcond1_0 _).mpr rfl)]; rfl
  | succ n =>
    show PhiS1 c _ ⊢ _
    iintro H; iexists _; isplitl; · iexact H
    ipureintro; rw [if_congr (hcond1_0 ⟨n + 1, hn⟩) rfl rfl]; rfl

theorem Phi1_close (c : Dev nD) : ∀ n h, Phi1 V c n h ⊢ Pipeline.ΦA spec1 c
  | 0, _ => .rfl
  | n + 1, _ => by
    rw [PhiA1_eq]; unfold Phi1 PhiS1
    iintro ⟨⟨HS, HR⟩, Hg⟩; iframe; iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => head1 (accAt1 V c t.val t.isLt) (iblk1 V c 2 t) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = head1 (accAt1 V c t.val t.isLt) (iblk1 V c 2 t) (iblk1 V c 3 t) := by dsimp only [dat1]

/-- Each input is presented as its own block at every point. -/
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ ∀ d, (dat1 V c).before 3 t d = iblk1 V c 3 t := by
  refine ⟨?_, ?_, ?_, ?_⟩ <;> exact fun d =>
    ((dat1 V c).before_in_eq_fetched _ rfl (fun _ => rfl) (fun _ _ _ => rfl) (fun _ => rfl) t d).trans rfl

/-- The output block in both cases: the head of the finished sum at a row's last point, untouched elsewhere. -/
theorem leaves1_4 (c : Dev nD) (t : Fin cfg1.N) (d) :
    owns (c : Thread nD τ) (st1_4 t) fullShare (if cond1_1 (grid1.coords t)
      then head1 (accAt1 V c t.val t.isLt) (iblk1 V c 2 t) (iblk1 V c 3 t) else (dat1 V c).before 4 t d)
      ⊢ (dat1 V c).leavesExact 4 t := by
  have h := hcond1_1 t
  by_cases h1 : cond1_1 (grid1.coords t)
  · rw [if_pos h1] at h ⊢; unfold Dat.leavesExact; rw [h.2]; exact .rfl
  · rw [if_neg h1] at h ⊢; rw [Dat.leavesExact_idle (dat1 V c) 4 t h.1 h.2]
    iintro H; iexists d; iexact H

set_option maxHeartbeats 4000000 in
/-- The body at any grid point: the invariant lends the scratch, the body runs once, and every buffer comes back as named. -/
theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ ∗ bigSep Finset.univ fun w : Fin cfg1.W => (dat1 V c).leavesExact w t) := by
  rw [bigSep_W1, bigSep_W1]
  obtain ⟨b0, b1, b2, b3⟩ := before1 V c t
  simp only [b0, b1, b2, b3]
  refine (sep_mono_left (Phi1_open V c t)).trans ?_
  rw [show (dat1 V c).Φ t.succ = PhiS1 c (owns (c : Thread nD τ) scM1 fullShare (accAt1 V c t.val t.isLt)) from rfl]
  unfold PhiS1
  iintro ⟨⟨%a, ⟨⟨HS, HR⟩, Hg⟩, %ha⟩, Ho, ⟨%d0, H0⟩, ⟨%d1, H1⟩, ⟨%d2, H2⟩, ⟨%d3, H3⟩, ⟨%d4, H4⟩⟩
  have h1 := hcond1_1 t
  iapply (sound_kernel1 c Set.univ _ (fun h => by rw [if_pos h] at h1; exact h1.1) _ _ _ _ _ _ _ _ _ _ _ _
    (iblk1 V c 0 t) (iblk1 V c 1 t) (iblk1 V c 2 t) (iblk1 V c 3 t) ((dat1 V c).before 4 t d4) a _ rfl _)
  iframe H0 H1 H2 H3 H4 HS
  iintro ⟨H0, H1, H2, H3, H4, HS⟩
  rw [← ha]
  iframe HS HR Hg
  isplitl [Ho]; · iexact Ho
  isplitl [H0]; · iexact H0
  isplitl [H1]; · iexact H1
  isplitl [H2]; · iexact H2
  isplitl [H3]; · iexact H3
  iapply (leaves1_4 V c t d4); iexact H4

theorem body_obligation1 (c : Dev nD) : BodyObligation (dat1 (F := F) V c) (defs₀ (F := F)) Variants.none () Set.univ :=
  sound_body1 V c

theorem Phi1_first (c : Dev nD) : (dat1 V c).Φ 0 = Pipeline.ΦA spec1 c := rfl

theorem Phi1_last (c : Dev nD) : (dat1 V c).Φ (Fin.last cfg1.N) ⊢ Pipeline.ΦA spec1 c := Phi1_close V c _ le_rfl

end Cert.Kernel.Hand

end
-- ==== Proof.LibRegion.lean ====
/-
  A program's @main as items between valuations of a core's unscoped buffers. A host stretch takes the valuation `W` to
  `StableHlo.after ops W`; a kernel region takes it to `W` with the region's arrays at the contents after the last grid
  point.
-/
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Λ₀ : Idealize.SL.Sem.Labels} {P : Type} [Fintype P] {U : Type} [URA U]
variable {F : FTy → Type} [FloatOps F]

local notation "𝕄" => MT nD τ sig Unit (Elt F) ℕ U ℕ

abbrev L : GSem nD τ sig → Finset Unit := fun _ => ∅
abbrev lv : GSem nD τ sig → Unit → ℕ := fun _ _ => 0
/-- What every item carries unchanged beside the buffers. -/
abbrev rest (c : Dev nD) : sProp 𝕄 := iprop((∃ r, prngReg c r) ∗ ∃ W, owes (c : Thread nD τ) (0 : CellTallies nD τ sig Unit) W)
/-- The thread state between items: every unscoped buffer at `W`. -/
abbrev bufsAt (W : Dev nD → Valuation τ sig (Elt F)) (c : Dev nD) : sProp 𝕄 :=
  iprop(StableHlo.held (c : Thread nD τ) (Pipeline.ucRefs τ sig) (W c) ∗ rest c)
/-- A valuation read at the TensorCore's references. -/
abbrev tc (W : Dev nD → Valuation τ sig (Elt F)) : (c : Dev nD) → (b : Ref sig .tc) → Buf (Elt F) ((c : Thread nD τ).loc b) := fun c b => W c b

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (cfgs : P → Cfg sig Λ₀) (defs₀ : Defs nD τ sig (Elt F) Λ₀)

/-- A host stretch takes every unscoped buffer from `W` to `StableHlo.after ops (W c)`. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := U) (fun q => (cfgs q).toPCfg (Val := Elt F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

variable (pdats : (p : P) → (c : Dev nD) → Dat τ (Elt F) Unit ℕ U ℕ (Pipeline.pin (fun q => (cfgs q).toPCfg (Val := Elt F)) (fun q => (cfgs q).toPCfg_adm) p) c)

/-- What region `p` leaves: its arrays at the contents after the last grid point, every other buffer as entered. -/
abbrev out (p : P) (W : Dev nD → Valuation τ sig (Elt F)) (c : Dev nD) : Valuation τ sig (Elt F) :=
  Pipeline.withArrays (cfgs p).spec c (W c) fun w => (pdats p c).arrAt w (cfgs p).N

set_option backward.isDefEq.respectTransparency.types false in
/-- A kernel region as an item: its arrays leave the unscoped buffers at `W` and rejoin them at `out`; nothing else moves. -/
def region (p : P) (lf : Pipeline.LaunchFacts (nD := nD) (τ := τ) cfgs p) (W : Dev nD → Valuation τ sig (Elt F))
    (hbody : ∀ c, BodyObligation (pdats p c) defs₀ Variants.none () Set.univ)
    (hq : ∀ c w, (pdats p c).q w = fullShare) (howed : ∀ c t, (pdats p c).owed t = 0) (hrec : ∀ c, (pdats p c).recorded 0 = Set.univ)
    (hA : ∀ c w, (pdats p c).A w = tc W c (Pipeline.arrRef (cfgs p).spec w))
    (hΦ0 : ∀ c, (pdats p c).Φ 0 = Pipeline.ΦA (cfgs p).spec c)
    (hΦN : ∀ c, (pdats p c).Φ (Fin.last (cfgs p).N) ⊢ Pipeline.ΦA (cfgs p).spec c) :
    Pipeline.RegionSeg (fun q => (cfgs q).toPCfg (Val := Elt F)) (fun q => (cfgs q).toPCfg_adm) pdats () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := bufsAt W
  post := bufsAt (out cfgs pdats p W)
  X c := iprop(∃ r, prngReg c r)
  Y c := iprop(∃ r, prngReg c r)
  Z c := Pipeline.unscopedRest (Ix := Unit) (Name := ℕ) (U := U) (Lvl := ℕ) (cfgs p).spec c (tc W c)
  hentry c := by
    rw [Pipeline.ownSems0_none]
    have hsplit := Pipeline.arrays_of_unscopedBufs (p := p) (fun q => (cfgs q).toPCfg (Val := Elt F)) (fun q => (cfgs q).toPCfg_adm) pdats
      lf.win lf.arr_whole c ((pdats p c).share_full (hq c)) (tc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (hrec c ▸ trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (fun q => (cfgs q).toPCfg (Val := Elt F)) (fun q => (cfgs q).toPCfg_adm)
      (Ix := Unit) (Name := ℕ) (U := U) (Lvl := ℕ) lf.win lf.arr_whole c pdats ((pdats p c).share_full (hq c)) (tc W c)
      (tc (out cfgs pdats p W) c) ((pdats p c).arrAt · (cfgs p).N)
      (fun w => (Pipeline.withArrays_arr (cfgs p).spec lf.win.arr_inj c (W c) (fun w => (pdats p c).arrAt w (cfgs p).N) w).symm)
      fun b hb => Pipeline.withArrays_of_ne (cfgs p).spec c (W c) _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

variable {cfgs defs₀ pdats} in
/-- A chain of thread states may end at anything its last state entails. -/
theorem chains_mono : ∀ {T : Dev nD → sProp 𝕄}
    {l : List (Pipeline.Seg (fun q => (cfgs q).toPCfg (Val := Elt F)) (fun q => (cfgs q).toPCfg_adm) pdats () defs₀ Variants.none L lv)}
    {T' T'' : Dev nD → sProp 𝕄}, Pipeline.Seg.Chains T l T' → (∀ c, T' c ⊢ T'' c) → Pipeline.Seg.Chains T l T''
  | _, [], _, _, h, h' => fun c => (h c).trans (h' c)
  | _, _ :: _, _, _, ⟨h, hl⟩, h' => ⟨h, chains_mono hl h'⟩

end Cert.Run

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Λ₀ : Idealize.SL.Sem.Labels} {P : Type} [Fintype P] [DecidableEq P]
variable {F : FTy → Type} [FloatOps F]

local notation "𝕄" => MT nD τ sig Unit (Elt F) ℕ (UR sig nD τ) ℕ

set_option backward.isDefEq.respectTransparency.types false in
/-- If the items' thread states chain from the launch memory `m` to `Wn`, every weakly fair run of their @main ends with each unscoped buffer at `Wn`. -/
theorem run (cfgs : P → Cfg sig Λ₀) (defs₀ : Defs nD τ sig (Elt F) Λ₀) (hinj : Function.Injective (cellOf (nD := nD) (τ := τ) cfgs))
    (pdats : (p : P) → (c : Dev nD) → Dat τ (Elt F) Unit ℕ (UR sig nD τ) ℕ (Pipeline.pin (fun q => (cfgs q).toPCfg (Val := Elt F)) (fun q => (cfgs q).toPCfg_adm) p) c)
    (m : (ℓ : Loc nD τ sig) → Buf (Elt F) ℓ) (ρ : Dev nD → PrngReg)
    (main : Dev nD → Prog (TpuEff nD τ sig (Elt F) (Pipeline.Sig Λ₀ P fun p => ((cfgs p).toPCfg (Val := Elt F)).Adm) .tc) PUnit)
    (items : List (Pipeline.Seg (fun q => (cfgs q).toPCfg (Val := Elt F)) (fun q => (cfgs q).toPCfg_adm) pdats () defs₀ Variants.none L lv))
    (hmain : ∀ c, main c = Pipeline.Seg.run items) (hnd : (Pipeline.Seg.pipes items).Nodup)
    (Wn : Dev nD → Valuation τ sig (Elt F)) (hch : Pipeline.Seg.Chains (bufsAt fun c b => m (c, b)) items (bufsAt Wn)) :
    θ_run (Pipeline.defs (fun q => (cfgs q).toPCfg (Val := Elt F)) defs₀) (onTc (τ := τ) main) ⟨m, fun _ => 0, ρ⟩
      (fun r => ∀ c : Dev nD, ∀ b ∈ Pipeline.ucRefs τ sig, r.2.mem ((c : Thread nD τ).1, b) = Wn c b) :=
  Pipeline.θ_run_regions_kit (fun q => (cfgs q).toPCfg (Val := Elt F)) (fun q => (cfgs q).toPCfg_adm) pdats () hinj emb₁ defs₀ Variants.none L lv m ρ main items
    (fun c Q => by rw [hmain c]) hnd
    (O₀ := 0) (hL := fun _ _ => rfl) (G := fun _ => iprop(emp))
    (u₀ := initOf (Pipeline.cells cfgs hinj) (Pipeline.launchToks cfgs hinj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (T₀ := bufsAt fun c b => m (c, b))
    (Tₙ := fun c => iprop(StableHlo.held (c : Thread nD τ) (Pipeline.ucRefs τ sig) (Wn c) ∗ ∃ r, prngReg c r))
    (hch := chains_mono hch fun c => by
      iintro ⟨Hh, Hp, HO⟩
      isplitl [Hh Hp]
      · isplitl [Hh] <;> iassumption
      iexact HO)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c fun b => m (c, b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h => h)

end Cert.Run

end
-- ==== Proof.KRun.lean ====
/-
  The kernel program's @main is seven items, host stretches and two kernel regions. From the launch memory every weakly
  fair run ends with each unscoped buffer at the fold of the items: `W0` at launch, `W7` at the end.
-/
import proofs.«103448_g2000407080750749_pallasbulk_1140_2_alg».proof.Proof.Gen.Kernel.Regions
import proofs.«103448_g2000407080750749_pallasbulk_1140_2_alg».proof.Proof.KConv
import proofs.«103448_g2000407080750749_pallasbulk_1140_2_alg».proof.Proof.KFc
import proofs.«103448_g2000407080750749_pallasbulk_1140_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents between items: a host stretch applies its operations, a region replaces its arrays. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev W5 : Dev nD → Valuation τ sig (Elt F) := fun c => StableHlo.after hostOps1 (W4 m c)
abbrev B5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev W7 : Dev nD → Valuation τ sig (Elt F) := fun c => StableHlo.after hostOps2 (W6 m c)

/-- The last region changes only its output arrays. -/
theorem W6_keeps (c : Dev nD) (r : Ref sig .tc) (h : ∀ w, Pipeline.arrRef spec1 w = r → (cfg1.win w).isOut = false) :
    W6 m c (Proc.devRef .tc r) = W5 m c (Proc.devRef .tc r) := by
  by_cases hw : ∃ w, Pipeline.arrRef spec1 w = r
  · obtain ⟨w, rfl⟩ := hw
    exact (W6_arr m c w).trans (((dat1 (B5 m) c).arrAt_in w (h w rfl) _).trans (A_eq1 (B5 m) c w))
  · exact W6_of_ne m c r fun w e => hw ⟨w, e⟩

/-- An unscoped buffer that no item writes holds, in a memory that agrees with `W7`, what it held at launch. -/
theorem arg_kept (c : Dev nD) (r : Ref sig .tc)
    (h : ¬ (Proc.devRef .tc r : DevRef τ sig).isScoped ∧ r ∉ hostOps0_W ∧ r ∉ hostOps0_1_W ∧ r ∉ hostOps0_2_W
      ∧ (∀ w, Pipeline.arrRef spec0 w ≠ r) ∧ r ∉ hostOps1_W
      ∧ (∀ w, Pipeline.arrRef spec1 w = r → (cfg1.win w).isOut = false) ∧ r ∉ hostOps2_W)
    (s : MemSt nD τ sig (Elt F)) (hs : ∀ b ∈ Pipeline.ucRefs τ sig, s.mem ((c : Thread nD τ).1, b) = W7 m c b) :
    s.mem ((c : Thread nD τ).loc r) = m ((c : Thread nD τ).loc r) := by
  obtain ⟨hu, h0, h1, h2, h3, h4, h5, h6⟩ := h
  calc s.mem ((c : Thread nD τ).loc r)
    _ = W7 m c (Proc.devRef .tc r) := hs _ (Run.mem_uc r hu)
    _ = W6 m c (Proc.devRef .tc r) := StableHlo.after_of_writes_sub hostOps2 _ hostOps2_writes h6
    _ = W5 m c (Proc.devRef .tc r) := W6_keeps m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = m ((c : Thread nD τ).loc r) := StableHlo.after_of_writes_sub hostOps0 _ hostOps0_writes h0

/-- For each region, its `dat` at the valuation before it. -/
def pdats : (p : Fin 2) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B5 m) c

set_option backward.isDefEq.respectTransparency.types false in
/-- @main's seven items in order: a host item per stretch from the valuation before it, a region per kernel call. -/
abbrev items : List (Pipeline.Seg (pcfgs (F := F)) adm (pdats m) () defs₀ Variants.none Run.L Run.lv) :=
  [ .host (Run.host cfgs defs₀ hostOps0 hostOps0_sub hostOps0_fresh (W0 m)),
    .host (Run.host cfgs defs₀ hostOps0_1 hostOps0_1_sub hostOps0_1_fresh (W1 m)),
    .host (Run.host cfgs defs₀ hostOps0_2 hostOps0_2_sub hostOps0_2_fresh (W2 m)),
    .region (Run.region cfgs defs₀ (pdats m) 0 launch0 (W3 m) (body_obligation0 _) (fun _ _ => rfl) (fun _ _ => rfl) (fun _ => rfl)
      (A_eq0 _) (Phi0_first _) (Phi0_last _)),
    .host (Run.host cfgs defs₀ hostOps1 hostOps1_sub hostOps1_fresh (W4 m)),
    .region (Run.region cfgs defs₀ (pdats m) 1 launch1 (W5 m) (body_obligation1 _) (fun _ _ => rfl) (fun _ _ => rfl) (fun _ => rfl)
      (A_eq1 _) (Phi1_first _) (Phi1_last _)),
    .host (Run.host cfgs defs₀ hostOps2 hostOps2_sub hostOps2_fresh (W6 m)) ]
theorem main_run (c : Dev nD) : main (F := F) c = Pipeline.Seg.run (items m) := (main_chain c).trans (by chain_rfl)

set_option backward.isDefEq.respectTransparency.types false in
/-- Every weakly fair run of @main from the launch memory ends, with each unscoped buffer at `W7`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Run.run cfgs defs₀ cellOf_inj (pdats m) m ρ main (items m) (main_run m)
    (by simp only [items, Pipeline.Seg.pipes_host, Pipeline.Seg.pipes_region, Pipeline.Seg.pipes_nil]; decide) (W7 m)
    ⟨fun _ => .rfl, fun _ => .rfl, fun _ => .rfl, fun _ => .rfl, fun _ => .rfl, fun _ => .rfl, fun _ => .rfl, fun _ => .rfl⟩

/-- The result array ends at what the fold leaves in it, and every argument array at its launch contents. -/
theorem value_all (ρ : Dev nD → PrngReg) :
    θ_run defs (onTc (τ := τ) (main (F := F))) ⟨m, fun _ => 0, ρ⟩ (fun r => ∀ c : Dev nD,
      r.2.mem ((c.tc : Thread nD τ).loc main_v67) = W7 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun x h c =>
    ⟨h c _ (Run.mem_uc main_v67 (by decide)), arg_kept m c main_arg0 (by decide) x.2 (h c),
     arg_kept m c main_arg1 (by decide) x.2 (h c),
     arg_kept m c main_arg2 (by decide) x.2 (h c),
     arg_kept m c main_arg3 (by decide) x.2 (h c),
     arg_kept m c main_arg4 (by decide) x.2 (h c),
     arg_kept m c main_arg5 (by decide) x.2 (h c),
     arg_kept m c main_arg6 (by decide) x.2 (h c),
     arg_kept m c main_arg7 (by decide) x.2 (h c),
     arg_kept m c main_arg8 (by decide) x.2 (h c),
     arg_kept m c main_arg9 (by decide) x.2 (h c),
     arg_kept m c main_arg10 (by decide) x.2 (h c)⟩) (run_all m ρ)

/-- Every argument array ends holding its launch contents. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (value_all m ρ)

end Cert.Kernel.Hand

end
-- ==== Proof.KiConv.lean ====
/-
  The fused convolution stack, one grid point per pair of images: the output block as a function of the seven input
  blocks (`stack0`), and the body's triple at every grid point.
-/
import proofs.«103448_g2000407080750749_pallasbulk_1140_2_alg».proof.Proof.Gen.KernelIdeal.Launch
import proofs.«103448_g2000407080750749_pallasbulk_1140_2_alg».proof.Proof.Gen.KernelIdeal.Skeleton
import proofs.«103448_g2000407080750749_pallasbulk_1140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S2x146x146 := Rect.unit (s := S2x146x146) ![0, 0, 0] S2x144x146.size inb_S2x146x146_S2x144x146_0_0_0
abbrev rx1 : Rect S2x146x146 := Rect.unit (s := S2x146x146) ![0, 1, 0] S2x144x146.size inb_S2x146x146_S2x144x146_0_1_0
abbrev rx2 : Rect S2x146x146 := Rect.unit (s := S2x146x146) ![0, 2, 0] S2x144x146.size inb_S2x146x146_S2x144x146_0_2_0
abbrev rb0 : Rect S3x146x4608 := Rect.unit (s := S3x146x4608) ![0, 0, 0] S1x146x4608.size inb_S3x146x4608_S1x146x4608_0_0_0
abbrev rb1 : Rect S3x146x4608 := Rect.unit (s := S3x146x4608) ![1, 0, 0] S1x146x4608.size inb_S3x146x4608_S1x146x4608_1_0_0
abbrev rb2 : Rect S3x146x4608 := Rect.unit (s := S3x146x4608) ![2, 0, 0] S1x146x4608.size inb_S3x146x4608_S1x146x4608_2_0_0
abbrev rbias1 : Rect S1x4608 := Rect.unit (s := S1x4608) ![0, 0] S1x4608.size inb_S1x4608_S1x4608_0_0
abbrev rw20 : Rect S3x96x64 := Rect.unit (s := S3x96x64) ![0, 0, 0] S1x96x64.size inb_S3x96x64_S1x96x64_0_0_0
abbrev rw21 : Rect S3x96x64 := Rect.unit (s := S3x96x64) ![1, 0, 0] S1x96x64.size inb_S3x96x64_S1x96x64_1_0_0
abbrev rw22 : Rect S3x96x64 := Rect.unit (s := S3x96x64) ![2, 0, 0] S1x96x64.size inb_S3x96x64_S1x96x64_2_0_0
abbrev rbias2 : Rect S1x64 := Rect.unit (s := S1x64) ![0, 0] S1x64.size inb_S1x64_S1x64_0_0
abbrev rw30 : Rect S3x192x128 := Rect.unit (s := S3x192x128) ![0, 0, 0] S1x192x128.size inb_S3x192x128_S1x192x128_0_0_0
abbrev rw31 : Rect S3x192x128 := Rect.unit (s := S3x192x128) ![1, 0, 0] S1x192x128.size inb_S3x192x128_S1x192x128_1_0_0
abbrev rw32 : Rect S3x192x128 := Rect.unit (s := S3x192x128) ![2, 0, 0] S1x192x128.size inb_S3x192x128_S1x192x128_2_0_0
abbrev rbias3 : Rect S1x128 := Rect.unit (s := S1x128) ![0, 0] S1x128.size inb_S1x128_S1x128_0_0
abbrev rout : Rect S2x18x2304 := Rect.unit (s := S2x18x2304) ![0, 0, 0] S2x18x2304.size inb_S2x18x2304_S2x18x2304_0_0_0

/-- The body's one stored value from the seven input blocks: the three layers composed. -/
def stack0 (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) : FVec F S2x18x2304 .bf16 :=
  k0_pay3
    (k0_pay2
      (k0_pay1 (View.ld x0 rx0) (View.ld x1 rb0) (View.ld x0 rx1) (View.ld x1 rb1) (View.ld x0 rx2) (View.ld x1 rb2) (View.ld x2 rbias1))
      (View.ld x3 rw20) (View.ld x3 rw21) (View.ld x3 rw22) (View.ld x4 rbias2))
    (View.ld x5 rw30) (View.ld x5 rw31) (View.ld x5 rw32) (View.ld x6 rbias3)

/-- The output window's buffer after the body: that value over the whole buffer. -/
def out0_7 (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) : Vec F S2x18x2304 .bf16 :=
  View.canon [⟨rout, stack0 x0 x1 x2 x3 x4 x5 x6⟩]

theorem cover0_7 (p0 : Vec F S2x18x2304 .bf16) (y : S2x18x2304.Idx) :
    ∃ pc ∈ ([⟨rout, p0⟩] : List (View.Piece (Elt F) S2x18x2304 .bf16)), y ∈ pc.1.set :=
  View.cover_of_tiled [⟨rout, p0⟩] S2x18x2304.size (by rfl) y

set_option maxHeartbeats 4000000 in
/-- The body on whole buffers keeps the inputs and leaves `out0_7` of them in the output's. -/
theorem sound_kernel0 (c : Dev nD) (E : Set ℕ) (i : grid0.Coords)
    (arg1 : Memref sig .tc .vmem S2x146x146 .bf16) (harg1 : arg1.IsWhole) (arg2 : Memref sig .tc .vmem S3x146x4608 .bf16) (harg2 : arg2.IsWhole)
    (arg3 : Memref sig .tc .vmem S1x4608 .f32) (harg3 : arg3.IsWhole) (arg4 : Memref sig .tc .vmem S3x96x64 .bf16) (harg4 : arg4.IsWhole)
    (arg5 : Memref sig .tc .vmem S1x64 .f32) (harg5 : arg5.IsWhole) (arg6 : Memref sig .tc .vmem S3x192x128 .bf16) (harg6 : arg6.IsWhole)
    (arg7 : Memref sig .tc .vmem S1x128 .f32) (harg7 : arg7.IsWhole) (arg8 : Memref sig .tc .vmem S2x18x2304 .bf16) (harg8 : arg8.IsWhole)
    (x0 : Vec F S2x146x146 .bf16) (x1 : Vec F S3x146x4608 .bf16) (x2 : Vec F S1x4608 .f32) (x3 : Vec F S3x96x64 .bf16)
    (x4 : Vec F S1x64 .f32) (x5 : Vec F S3x192x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__conv_stack_kernel i arg1 harg1 arg2 harg2 arg3 harg3 arg4 harg4 arg5 harg5 arg6 harg6 arg7 harg7 arg8 harg8) K := by
  simp only [cc0__conv_stack_kernel_eq_skeleton]; unfold cc0__conv_stack_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  exact View.read_writes_eq_canon _ _ _ (cover0_7 _)

/-- After the body each input's buffer holds its block and the output's holds `out0_7` of those blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

/-- Before the body, at every grid point, each input window's buffer holds that window's block. -/
theorem before0_in (c : Dev nD) (t : Fin cfg0.N) :
    (∀ d, (dat0 V c).before 0 t d = iblk0 V c 0 t)
    ∧ (∀ d, (dat0 V c).before 1 t d = iblk0 V c 1 t)
    ∧ (∀ d, (dat0 V c).before 2 t d = iblk0 V c 2 t)
    ∧ (∀ d, (dat0 V c).before 3 t d = iblk0 V c 3 t)
    ∧ (∀ d, (dat0 V c).before 4 t d = iblk0 V c 4 t)
    ∧ (∀ d, (dat0 V c).before 5 t d = iblk0 V c 5 t)
    ∧ (∀ d, (dat0 V c).before 6 t d = iblk0 V c 6 t) := by
  refine ⟨?_, ?_, ?_, ?_, ?_, ?_, ?_⟩ <;> exact fun d =>
    ((dat0 V c).before_in_eq_fetched _ rfl (fun _ => rfl) (fun _ _ _ => rfl)
      (fun t => by dsimp only [dat0]; unfold Dat.blockOf iblk0; try rfl) t d).trans
      (by unfold Dat.fetched Dat.blockOf iblk0; dsimp only [dat0]; try rfl)

/-- At every grid point the inputs' buffers hold their blocks, so the body's triple applies. -/
theorem body_obligation0 (c : Dev nD) : BodyObligation (dat0 (F := F) V c) (defs₀ (F := F)) Variants.none () Set.univ := fun t => by
  rw [bigSep_W0, bigSep_W0]
  show _ ⊢ wp frame _ _ (bodyAt0 t) _
  unfold bodyAt0
  obtain ⟨b0, b1, b2, b3, b4, b5, b6⟩ := before0_in V c t
  simp only [b0, b1, b2, b3, b4, b5, b6]
  rw [show (dat0 V c).Φ t.succ = (dat0 V c).Φ t.castSucc from rfl,
    show (dat0 V c).owesAt () t.succ = (dat0 V c).owesAt () t.castSucc from rfl, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem Phi0_first (c : Dev nD) : (dat0 V c).Φ 0 = Pipeline.ΦA spec0 c := rfl

theorem Phi0_last (c : Dev nD) : (dat0 V c).Φ (Fin.last cfg0.N) ⊢ Pipeline.ΦA spec0 c := .rfl

end Cert.KernelIdeal.Hand

end
-- ==== Proof.KiFc.lean ====
/-
  The fully connected head on a grid of two rows of four points. The scratch accumulates the products of a row's
  activation and weight blocks from zero; the row's last point stores the rectified sum times the second weights.
-/
import proofs.«103448_g2000407080750749_pallasbulk_1140_2_alg».proof.Proof.Gen.KernelIdeal.Launch
import proofs.«103448_g2000407080750749_pallasbulk_1140_2_alg».proof.Proof.Gen.KernelIdeal.Skeleton
import proofs.«103448_g2000407080750749_pallasbulk_1140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev fc1_racc : Rect S256x128 := Rect.unit (s := S256x128) ![0, 0] S256x128.size inb_S256x128_S256x128_0_0
abbrev fc1_rx : Rect S256x10368 := Rect.unit (s := S256x10368) ![0, 0] S256x10368.size inb_S256x10368_S256x10368_0_0
abbrev fc1_rw : Rect S10368x128 := Rect.unit (s := S10368x128) ![0, 0] S10368x128.size inb_S10368x128_S10368x128_0_0
abbrev fc1_rbias : Rect S1x128 := Rect.unit (s := S1x128) ![0, 0] S1x128.size inb_S1x128_S1x128_0_0
abbrev fc1_rw2 : Rect S128x3 := Rect.unit (s := S128x3) ![0, 0] S128x3.size inb_S128x3_S128x3_0_0
abbrev fc1_rhead : Rect S1x256x3 := Rect.unit (s := S1x256x3) ![0, 0, 0] S1x256x3.size inb_S1x256x3_S1x256x3_0_0_0

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The first condition holds at the first point of a row. -/
theorem hcond1_0 : ∀ t : Fin cfg1.N, cond1_0 (grid1.coords t) ↔ t.val % 4 = 0 := by decide +kernel

/-- The second excludes the first and marks the points where the output block is stored and kept. -/
theorem hcond1_1 : ∀ t : Fin cfg1.N, if cond1_1 (grid1.coords t) then ¬cond1_0 (grid1.coords t) ∧ cfg1.idle 4 (grid1.coords t) = false
    else cfg1.idle 4 (grid1.coords t) = true ∧ (cfg1.win 4).flush t = false := by decide +kernel

def accZero1 : Vec F S256x128 .f32 := View.canon [⟨fc1_racc, k1_pay1⟩]

def accStep1 (a : Vec F S256x128 .f32) (x : Vec F S256x10368 .bf16) (w : Vec F S10368x128 .bf16) : Vec F S256x128 .f32 :=
  View.canon [⟨fc1_racc, k1_pay2 (View.ld a fc1_racc) (View.ld x fc1_rx) (View.ld w fc1_rw)⟩]

def head1 (a : Vec F S256x128 .f32) (b : Vec F S1x128 .f32) (w : Vec F S128x3 .bf16) : Vec F S1x256x3 .f32 :=
  View.canon [⟨fc1_rhead, k1_pay3 (View.ld a fc1_racc) (View.ld b fc1_rbias) (View.ld w fc1_rw2)⟩]

/-- A newest piece that is the whole shape covers it, -/
theorem cover1 {s : Shape} {e : EltTy} {p : View.Piece (Elt F) s e} (h : p.whole = true) (L : List (View.Piece (Elt F) s e)) (y : s.Idx) :
    ∃ q ∈ p :: L, y ∈ q.1.set :=
  View.cover_of_wholeMem _ (View.Piece.wholeMem_here h) y

/-- and leaves nothing of the earlier pieces. -/
theorem canon_whole {s : Shape} {e : EltTy} (p : View.Piece (Elt F) s e) (h : p.whole = true) (L : List (View.Piece (Elt F) s e)) :
    View.canon (p :: L) = View.canon [p] := by
  funext y
  obtain ⟨q, hm, hy⟩ := cover1 h [] y
  obtain rfl := List.mem_singleton.mp hm
  obtain ⟨x, rfl⟩ := q.1.exists_idx_of_mem hy
  exact (View.canon_cons_emb q.1 q.2 _ x).trans (View.canon_cons_emb q.1 q.2 _ x).symm

theorem ld_accZero1 : View.ld (accZero1 (F := F)) fc1_racc = k1_pay1 := by
  funext x; exact View.canon_cons_emb fc1_racc _ [] x

theorem ld_accStep1 (a : Vec F S256x128 .f32) (x : Vec F S256x10368 .bf16) (w : Vec F S10368x128 .bf16) :
    View.ld (accStep1 a x w) fc1_racc = k1_pay2 (View.ld a fc1_racc) (View.ld x fc1_rx) (View.ld w fc1_rw) := by
  funext j; exact View.canon_cons_emb fc1_racc _ [] j

set_option maxHeartbeats 4000000 in
/-- One run of the body: the sum restarts from zero at a row's first point, and only a row's last point stores the output. -/
theorem sound_kernel1 (c : Dev nD) (E : Set ℕ) (i : grid1.Coords) (h01 : cond1_1 i → ¬cond1_0 i)
    (arg2 : Memref sig .tc .vmem S256x10368 .bf16) (harg2 : arg2.IsWhole) (arg3 : Memref sig .tc .vmem S10368x128 .bf16) (harg3 : arg3.IsWhole)
    (arg4 : Memref sig .tc .vmem S1x128 .f32) (harg4 : arg4.IsWhole) (arg5 : Memref sig .tc .vmem S128x3 .bf16) (harg5 : arg5.IsWhole)
    (arg6 : Memref sig .tc .vmem S1x256x3 .f32) (harg6 : arg6.IsWhole) (arg7 : Memref sig .tc .vmem S256x128 .f32) (harg7 : arg7.IsWhole)
    (x0 : Vec F S256x10368 .bf16) (x1 : Vec F S10368x128 .bf16) (x2 : Vec F S1x128 .f32) (x3 : Vec F S128x3 .bf16)
    (d : Vec F S1x256x3 .f32) (a a₀ : Vec F S256x128 .f32) (ha : a₀ = if cond1_0 i then accZero1 else a) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (if cond1_1 i then head1 (accStep1 a₀ x0 x1) x2 x3 else d)
            ∗ owns (c : Thread nD τ) arg7 fullShare (accStep1 a₀ x0 x1)) -∗ K ⟨⟩))
      ⊢ wp frame (wpE (defs₀ (F := F)) Variants.none c none) E
          (cc1__fc_kernel i arg2 harg2 arg3 harg3 arg4 harg4 arg5 harg5 arg6 harg6 arg7 harg7) K := by
  subst ha
  by_cases hc1 : cond1_1 i <;> by_cases hc0 : cond1_0 i
  · exact absurd hc0 (h01 hc1)
  all_goals
    first | rw [if_pos hc1] | rw [if_neg hc1]
    first | rw [if_pos hc0] | rw [if_neg hc0]
    simp only [cc1__fc_kernel_eq_skeleton]; unfold cc1__fc_kernel_skel owns
    iintro ⟨⟨%f0, %hf0, H0⟩, ⟨%f1, %hf1, H1⟩, ⟨%f2, %hf2, H2⟩, ⟨%f3, %hf3, H3⟩, ⟨%f4, %hf4, H4⟩, ⟨%fa, %hfa, HS⟩, Hk⟩
    subst hf0 hf1 hf2 hf3 hf4 hfa
    sl_exec (disch := first | exact hc0 | exact hc1)
    sl_step
    iapply Hk
    isplitl [H0]; swap; isplitl [H1]; swap; isplitl [H2]; swap; isplitl [H3]; swap; isplitl [H4]
    all_goals
      iexists _; isplitr; swap; · iassumption
      ipureintro
      first
      | (sl_unfold_words
         try rw [View.readCov_eq_canon_ld _ _ fc1_racc (cover1 (p := ⟨fc1_racc, _⟩) rfl _)]
         exact (View.read_writes_eq_canon _ _ _ (cover1 (by rfl) _)).trans (canon_whole _ (by rfl) _))
      | rfl

def accAt1 (c : Dev nD) : (n : ℕ) → n < cfg1.N → Vec F S256x128 .f32
  | 0, hn => accStep1 accZero1 (iblk1 V c 0 ⟨0, hn⟩) (iblk1 V c 1 ⟨0, hn⟩)
  | n + 1, hn =>
    accStep1 (if (n + 1) % 4 = 0 then accZero1 else accAt1 c n (Nat.lt_of_succ_lt hn))
      (iblk1 V c 0 ⟨n + 1, hn⟩) (iblk1 V c 1 ⟨n + 1, hn⟩)

theorem accAt1_first (c : Dev nD) (t : Fin cfg1.N) (h0 : t.val % 4 = 0) :
    accAt1 V c t.val t.isLt = accStep1 accZero1 (iblk1 V c 0 t) (iblk1 V c 1 t) := by
  obtain ⟨n, hn⟩ := t
  cases n with
  | zero => rfl
  | succ n => exact congrArg (fun a => accStep1 a (iblk1 V c 0 ⟨n + 1, hn⟩) (iblk1 V c 1 ⟨n + 1, hn⟩)) (if_pos h0)

theorem accAt1_step (c : Dev nD) (t : Fin cfg1.N) (h0 : ¬t.val % 4 = 0) :
    accAt1 V c t.val t.isLt
      = accStep1 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact congrArg (fun a => accStep1 a (iblk1 V c 0 ⟨n + 1, hn⟩) (iblk1 V c 1 ⟨n + 1, hn⟩)) (if_neg h0)

abbrev scM1 : Memref sig .tc .vmem S256x128 .f32 := Memref.whole cc1_scratch0

/-- The invariant with the scratch at `S`; whatever else the region owns rides along unnamed. -/
def PhiS1 (c : Dev nD) (S : sProp 𝕄) : sProp 𝕄 :=
  iprop((S ∗ Pipeline.scopedRestBut (Ix := Unit) (Name := ℕ) (U := UR sig nD τ) (Lvl := ℕ) (Val := Elt F) spec1 c [cc1_scratch0])
    ∗ ∃ r, prngReg c r)

theorem PhiA1_eq (c : Dev nD) :
    (Pipeline.ΦA spec1 c : sProp 𝕄) = PhiS1 c iprop(∃ d, owns (c : Thread nD τ) scM1 fullShare d) := by
  unfold Pipeline.ΦA PhiS1
  rw [Pipeline.scopedRest_split_of_list spec1 c [cc1_scratch0] (by decide) (by decide)]
  simp only [scM1, owns_whole]; try rfl

def Phi1 (c : Dev nD) : (n : ℕ) → n ≤ cfg1.N → sProp 𝕄
  | 0, _ => Pipeline.ΦA spec1 c
  | n + 1, hn => PhiS1 c (owns (c : Thread nD τ) scM1 fullShare (accAt1 V c n hn))

/-- Before any point the scratch is owned at some `a` from which the point's step yields `accAt1`. -/
theorem Phi1_open (c : Dev nD) (t : Fin cfg1.N) :
    Phi1 V c t.val (Nat.le_of_lt t.isLt) ⊢ iprop(∃ a, PhiS1 c (owns (c : Thread nD τ) scM1 fullShare a)
      ∗ ⌜accAt1 V c t.val t.isLt = accStep1 (if cond1_0 (grid1.coords t) then accZero1 else a) (iblk1 V c 0 t) (iblk1 V c 1 t)⌝) := by
  obtain ⟨n, hn⟩ := t
  cases n with
  | zero =>
    show Pipeline.ΦA spec1 c ⊢ _
    rw [PhiA1_eq]; unfold PhiS1
    iintro ⟨⟨⟨%a, HS⟩, HR⟩, Hg⟩
    iexists a; isplitl
    · iframe
    ipureintro; rw [if_pos ((hcond1_0 _).mpr rfl)]; rfl
  | succ n =>
    show PhiS1 c _ ⊢ _
    iintro H; iexists _; isplitl; · iexact H
    ipureintro; rw [if_congr (hcond1_0 ⟨n + 1, hn⟩) rfl rfl]; rfl

theorem Phi1_close (c : Dev nD) : ∀ n h, Phi1 V c n h ⊢ Pipeline.ΦA spec1 c
  | 0, _ => .rfl
  | n + 1, _ => by
    rw [PhiA1_eq]; unfold Phi1 PhiS1
    iintro ⟨⟨HS, HR⟩, Hg⟩; iframe; iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => head1 (accAt1 V c t.val t.isLt) (iblk1 V c 2 t) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = head1 (accAt1 V c t.val t.isLt) (iblk1 V c 2 t) (iblk1 V c 3 t) := by dsimp only [dat1]

/-- Each input is presented as its own block at every point. -/
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ ∀ d, (dat1 V c).before 3 t d = iblk1 V c 3 t := by
  refine ⟨?_, ?_, ?_, ?_⟩ <;> exact fun d =>
    ((dat1 V c).before_in_eq_fetched _ rfl (fun _ => rfl) (fun _ _ _ => rfl) (fun _ => rfl) t d).trans rfl

/-- The output block in both cases: the head of the finished sum at a row's last point, untouched elsewhere. -/
theorem leaves1_4 (c : Dev nD) (t : Fin cfg1.N) (d) :
    owns (c : Thread nD τ) (st1_4 t) fullShare (if cond1_1 (grid1.coords t)
      then head1 (accAt1 V c t.val t.isLt) (iblk1 V c 2 t) (iblk1 V c 3 t) else (dat1 V c).before 4 t d)
      ⊢ (dat1 V c).leavesExact 4 t := by
  have h := hcond1_1 t
  by_cases h1 : cond1_1 (grid1.coords t)
  · rw [if_pos h1] at h ⊢; unfold Dat.leavesExact; rw [h.2]; exact .rfl
  · rw [if_neg h1] at h ⊢; rw [Dat.leavesExact_idle (dat1 V c) 4 t h.1 h.2]
    iintro H; iexists d; iexact H

set_option maxHeartbeats 4000000 in
/-- The body at any grid point: the invariant lends the scratch, the body runs once, and every buffer comes back as named. -/
theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ ∗ bigSep Finset.univ fun w : Fin cfg1.W => (dat1 V c).leavesExact w t) := by
  rw [bigSep_W1, bigSep_W1]
  obtain ⟨b0, b1, b2, b3⟩ := before1 V c t
  simp only [b0, b1, b2, b3]
  refine (sep_mono_left (Phi1_open V c t)).trans ?_
  rw [show (dat1 V c).Φ t.succ = PhiS1 c (owns (c : Thread nD τ) scM1 fullShare (accAt1 V c t.val t.isLt)) from rfl]
  unfold PhiS1
  iintro ⟨⟨%a, ⟨⟨HS, HR⟩, Hg⟩, %ha⟩, Ho, ⟨%d0, H0⟩, ⟨%d1, H1⟩, ⟨%d2, H2⟩, ⟨%d3, H3⟩, ⟨%d4, H4⟩⟩
  have h1 := hcond1_1 t
  iapply (sound_kernel1 c Set.univ _ (fun h => by rw [if_pos h] at h1; exact h1.1) _ _ _ _ _ _ _ _ _ _ _ _
    (iblk1 V c 0 t) (iblk1 V c 1 t) (iblk1 V c 2 t) (iblk1 V c 3 t) ((dat1 V c).before 4 t d4) a _ rfl _)
  iframe H0 H1 H2 H3 H4 HS
  iintro ⟨H0, H1, H2, H3, H4, HS⟩
  rw [← ha]
  iframe HS HR Hg
  isplitl [Ho]; · iexact Ho
  isplitl [H0]; · iexact H0
  isplitl [H1]; · iexact H1
  isplitl [H2]; · iexact H2
  isplitl [H3]; · iexact H3
  iapply (leaves1_4 V c t d4); iexact H4

theorem body_obligation1 (c : Dev nD) : BodyObligation (dat1 (F := F) V c) (defs₀ (F := F)) Variants.none () Set.univ :=
  sound_body1 V c

theorem Phi1_first (c : Dev nD) : (dat1 V c).Φ 0 = Pipeline.ΦA spec1 c := rfl

theorem Phi1_last (c : Dev nD) : (dat1 V c).Φ (Fin.last cfg1.N) ⊢ Pipeline.ΦA spec1 c := Phi1_close V c _ le_rfl

end Cert.KernelIdeal.Hand

end
-- ==== Proof.KiRun.lean ====
/-
  The kernel program's @main is seven items, host stretches and two kernel regions. From the launch memory every weakly
  fair run ends with each unscoped buffer at the fold of the items: `W0` at launch, `W7` at the end.
-/
import proofs.«103448_g2000407080750749_pallasbulk_1140_2_alg».proof.Proof.Gen.KernelIdeal.Regions
import proofs.«103448_g2000407080750749_pallasbulk_1140_2_alg».proof.Proof.KiConv
import proofs.«103448_g2000407080750749_pallasbulk_1140_2_alg».proof.Proof.KiFc
import proofs.«103448_g2000407080750749_pallasbulk_1140_2_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents between items: a host stretch applies its operations, a region replaces its arrays. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev W5 : Dev nD → Valuation τ sig (Elt F) := fun c => StableHlo.after hostOps1 (W4 m c)
abbrev B5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev W7 : Dev nD → Valuation τ sig (Elt F) := fun c => StableHlo.after hostOps2 (W6 m c)

/-- The last region changes only its output arrays. -/
theorem W6_keeps (c : Dev nD) (r : Ref sig .tc) (h : ∀ w, Pipeline.arrRef spec1 w = r → (cfg1.win w).isOut = false) :
    W6 m c (Proc.devRef .tc r) = W5 m c (Proc.devRef .tc r) := by
  by_cases hw : ∃ w, Pipeline.arrRef spec1 w = r
  · obtain ⟨w, rfl⟩ := hw
    exact (W6_arr m c w).trans (((dat1 (B5 m) c).arrAt_in w (h w rfl) _).trans (A_eq1 (B5 m) c w))
  · exact W6_of_ne m c r fun w e => hw ⟨w, e⟩

/-- An unscoped buffer that no item writes holds, in a memory that agrees with `W7`, what it held at launch. -/
theorem arg_kept (c : Dev nD) (r : Ref sig .tc)
    (h : ¬ (Proc.devRef .tc r : DevRef τ sig).isScoped ∧ r ∉ hostOps0_W ∧ r ∉ hostOps0_1_W ∧ r ∉ hostOps0_2_W
      ∧ (∀ w, Pipeline.arrRef spec0 w ≠ r) ∧ r ∉ hostOps1_W
      ∧ (∀ w, Pipeline.arrRef spec1 w = r → (cfg1.win w).isOut = false) ∧ r ∉ hostOps2_W)
    (s : MemSt nD τ sig (Elt F)) (hs : ∀ b ∈ Pipeline.ucRefs τ sig, s.mem ((c : Thread nD τ).1, b) = W7 m c b) :
    s.mem ((c : Thread nD τ).loc r) = m ((c : Thread nD τ).loc r) := by
  obtain ⟨hu, h0, h1, h2, h3, h4, h5, h6⟩ := h
  calc s.mem ((c : Thread nD τ).loc r)
    _ = W7 m c (Proc.devRef .tc r) := hs _ (Run.mem_uc r hu)
    _ = W6 m c (Proc.devRef .tc r) := StableHlo.after_of_writes_sub hostOps2 _ hostOps2_writes h6
    _ = W5 m c (Proc.devRef .tc r) := W6_keeps m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = m ((c : Thread nD τ).loc r) := StableHlo.after_of_writes_sub hostOps0 _ hostOps0_writes h0

/-- For each region, its `dat` at the valuation before it. -/
def pdats : (p : Fin 2) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B5 m) c

set_option backward.isDefEq.respectTransparency.types false in
/-- @main's seven items in order: a host item per stretch from the valuation before it, a region per kernel call. -/
abbrev items : List (Pipeline.Seg (pcfgs (F := F)) adm (pdats m) () defs₀ Variants.none Run.L Run.lv) :=
  [ .host (Run.host cfgs defs₀ hostOps0 hostOps0_sub hostOps0_fresh (W0 m)),
    .host (Run.host cfgs defs₀ hostOps0_1 hostOps0_1_sub hostOps0_1_fresh (W1 m)),
    .host (Run.host cfgs defs₀ hostOps0_2 hostOps0_2_sub hostOps0_2_fresh (W2 m)),
    .region (Run.region cfgs defs₀ (pdats m) 0 launch0 (W3 m) (body_obligation0 _) (fun _ _ => rfl) (fun _ _ => rfl) (fun _ => rfl)
      (A_eq0 _) (Phi0_first _) (Phi0_last _)),
    .host (Run.host cfgs defs₀ hostOps1 hostOps1_sub hostOps1_fresh (W4 m)),
    .region (Run.region cfgs defs₀ (pdats m) 1 launch1 (W5 m) (body_obligation1 _) (fun _ _ => rfl) (fun _ _ => rfl) (fun _ => rfl)
      (A_eq1 _) (Phi1_first _) (Phi1_last _)),
    .host (Run.host cfgs defs₀ hostOps2 hostOps2_sub hostOps2_fresh (W6 m)) ]
theorem main_run (c : Dev nD) : main (F := F) c = Pipeline.Seg.run (items m) := (main_chain c).trans (by chain_rfl)

set_option backward.isDefEq.respectTransparency.types false in
/-- Every weakly fair run of @main from the launch memory ends, with each unscoped buffer at `W7`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Run.run cfgs defs₀ cellOf_inj (pdats m) m ρ main (items m) (main_run m)
    (by simp only [items, Pipeline.Seg.pipes_host, Pipeline.Seg.pipes_region, Pipeline.Seg.pipes_nil]; decide) (W7 m)
    ⟨fun _ => .rfl, fun _ => .rfl, fun _ => .rfl, fun _ => .rfl, fun _ => .rfl, fun _ => .rfl, fun _ => .rfl, fun _ => .rfl⟩

/-- The result array ends at what the fold leaves in it, and every argument array at its launch contents. -/
theorem value_all (ρ : Dev nD → PrngReg) :
    θ_run defs (onTc (τ := τ) (main (F := F))) ⟨m, fun _ => 0, ρ⟩ (fun r => ∀ c : Dev nD,
      r.2.mem ((c.tc : Thread nD τ).loc main_v67) = W7 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun x h c =>
    ⟨h c _ (Run.mem_uc main_v67 (by decide)), arg_kept m c main_arg0 (by decide) x.2 (h c),
     arg_kept m c main_arg1 (by decide) x.2 (h c),
     arg_kept m c main_arg2 (by decide) x.2 (h c),
     arg_kept m c main_arg3 (by decide) x.2 (h c),
     arg_kept m c main_arg4 (by decide) x.2 (h c),
     arg_kept m c main_arg5 (by decide) x.2 (h c),
     arg_kept m c main_arg6 (by decide) x.2 (h c),
     arg_kept m c main_arg7 (by decide) x.2 (h c),
     arg_kept m c main_arg8 (by decide) x.2 (h c),
     arg_kept m c main_arg9 (by decide) x.2 (h c),
     arg_kept m c main_arg10 (by decide) x.2 (h c)⟩) (run_all m ρ)

/-- Every argument array ends holding its launch contents. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (value_all m ρ)

end Cert.KernelIdeal.Hand

end
-- ==== Proof.Spec.lean ====
/-
  The network both programs compute, over the extended reals and indexed by naturals: an array is read totally (zero
  outside its bounds); a layer is a 3x3 convolution with a zero border, bias, rectifier and 2x2 maximum; the head is two dense layers.
-/
import Idealize.ShloMosaic.PureOps.Ideal
import Idealize.ShloMosaic.Lib.ValueIdx

noncomputable section

namespace Cert.Spec

open Idealize.ShloMosaic Idealize.ShloMosaic.ValueIdx
open scoped BigOperators

def rd1 {n0 : ℕ} (x : (⟨1, ![n0]⟩ : Shape).Idx → EReal) (a : ℕ) : EReal :=
  if h : a < n0 then x (ix1 ⟨a, h⟩) else 0
def rd2 {n0 n1 : ℕ} (x : (⟨2, ![n0, n1]⟩ : Shape).Idx → EReal) (a b : ℕ) : EReal :=
  if h : a < n0 ∧ b < n1 then x (ix2 ⟨a, h.1⟩ ⟨b, h.2⟩) else 0
def rd3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0
def rd4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem rd1_fin {n0 : ℕ} (x : (⟨1, ![n0]⟩ : Shape).Idx → EReal) (a : Fin n0) : rd1 x a.val = x (ix1 a) := by
  unfold rd1; rw [dif_pos a.isLt]
theorem rd2_fin {n0 n1 : ℕ} (x : (⟨2, ![n0, n1]⟩ : Shape).Idx → EReal) (a : Fin n0) (b : Fin n1) :
    rd2 x a.val b.val = x (ix2 a b) := by
  unfold rd2; rw [dif_pos ⟨a.isLt, b.isLt⟩]
theorem rd3_fin {n0 n1 n2 : ℕ} (x : (⟨3, ![n0, n1, n2]⟩ : Shape).Idx → EReal) (a : Fin n0) (b : Fin n1) (c : Fin n2) :
    rd3 x a.val b.val c.val = x (ix3 a b c) := by
  unfold rd3; rw [dif_pos ⟨a.isLt, b.isLt, c.isLt⟩]
theorem rd4_fin {n0 n1 n2 n3 : ℕ} (x : (⟨4, ![n0, n1, n2, n3]⟩ : Shape).Idx → EReal) (a : Fin n0) (b : Fin n1) (c : Fin n2)
    (d : Fin n3) : rd4 x a.val b.val c.val d.val = x (ix4 a b c d) := by
  unfold rd4; rw [dif_pos ⟨a.isLt, b.isLt, c.isLt, d.isLt⟩]

abbrev Act : Type := ℕ → ℕ → ℕ → ℕ → EReal

abbrev Ker : Type := ℕ → ℕ → ℕ → ℕ → EReal

-- Entry `(h, w)` of the bordered image is entry `(h - 1, w - 1)` of the image, and zero on the border.
def padded (H W : ℕ) (a : Act) : Act := fun n h w c =>
  if (0 < h ∧ h ≤ H) ∧ (0 < w ∧ w ≤ W) then a n (h - 1) (w - 1) c else 0

def convP (C : ℕ) (p : Act) (k : Ker) (b : ℕ → EReal) : Act := fun n h w d =>
  (∑ dy ∈ Finset.range 3, ∑ dx ∈ Finset.range 3, ∑ ci ∈ Finset.range C, p n (h + dy) (w + dx) ci * k dy dx ci d) + b d

def relu (x : EReal) : EReal := max x 0

def pool (y : Act) : Act := fun n h w d =>
  max (max (y n (2 * h) (2 * w) d) (y n (2 * h) (2 * w + 1) d)) (max (y n (2 * h + 1) (2 * w) d) (y n (2 * h + 1) (2 * w + 1) d))

def act (H W C : ℕ) (a : Act) (k : Ker) (b : ℕ → EReal) : Act := fun n h w d => relu (convP C (padded H W a) k b n h w d)

def layer (H W C : ℕ) (a : Act) (k : Ker) (b : ℕ → EReal) : Act := pool (act H W C a k b)

def layerP (C : ℕ) (p : Act) (k : Ker) (b : ℕ → EReal) : Act := pool (fun n h w d => relu (convP C p k b n h w d))

theorem layer_eq (H W C : ℕ) (a : Act) (k : Ker) (b : ℕ → EReal) : layer H W C a k b = layerP C (padded H W a) k b := rfl

-- The first filter as a banded matrix over the bordered row: lane `32 w + c` meets column `w'` with tap `w' - w` in `0, 1, 2`.
def band (k : Ker) (dy w' l : ℕ) : EReal := if l / 32 ≤ w' ∧ w' ≤ l / 32 + 2 then k dy (w' - l / 32) 0 (l % 32) else 0

-- Row-major flattening of an 18 x 18 x 128 image.
def flat (a : Act) (n k : ℕ) : EReal := a n (k / 2304) (k / 128 % 18) (k % 128)

def hidden (a : Act) (w1 : ℕ → ℕ → EReal) (b1 : ℕ → EReal) (n j : ℕ) : EReal :=
  relu ((∑ k ∈ Finset.range 41472, flat a n k * w1 k j) + b1 j)

def hiddenF (fl : ℕ → ℕ → EReal) (w1 : ℕ → ℕ → EReal) (b1 : ℕ → EReal) (n j : ℕ) : EReal :=
  relu ((∑ k ∈ Finset.range 41472, fl n k * w1 k j) + b1 j)

theorem hidden_eq (a : Act) (w1 : ℕ → ℕ → EReal) (b1 : ℕ → EReal) : hidden a w1 b1 = hiddenF (flat a) w1 b1 := rfl

-- The share of hidden units `128 h … 128 h + 127` in the second dense layer.
def half (hid : ℕ → ℕ → EReal) (w2 : ℕ → ℕ → EReal) (h n q : ℕ) : EReal :=
  ∑ j ∈ Finset.range 128, hid n (h * 128 + j) * w2 (h * 128 + j) q

def logits (hid : ℕ → ℕ → EReal) (w2 : ℕ → ℕ → EReal) (b2 : ℕ → EReal) (n q : ℕ) : EReal :=
  (half hid w2 0 n q + half hid w2 1 n q) + b2 q

section Net

variable (a0 : (⟨4, ![3, 3, 1, 32]⟩ : Shape).Idx → EReal) (a1 : (⟨1, ![32]⟩ : Shape).Idx → EReal)
  (a2 : (⟨4, ![3, 3, 32, 64]⟩ : Shape).Idx → EReal) (a3 : (⟨1, ![64]⟩ : Shape).Idx → EReal)
  (a4 : (⟨4, ![3, 3, 64, 128]⟩ : Shape).Idx → EReal) (a5 : (⟨1, ![128]⟩ : Shape).Idx → EReal)
  (a6 : (⟨2, ![41472, 256]⟩ : Shape).Idx → EReal) (a7 : (⟨1, ![256]⟩ : Shape).Idx → EReal)
  (a8 : (⟨2, ![256, 3]⟩ : Shape).Idx → EReal) (a9 : (⟨1, ![3]⟩ : Shape).Idx → EReal)
  (a10 : (⟨4, ![256, 1, 144, 144]⟩ : Shape).Idx → EReal)

def X : Act := fun n h w _ => rd4 a10 n 0 h w

def A1 : Act := layer 144 144 1 (X a10) (rd4 a0) (rd1 a1)
def A2 : Act := layer 72 72 32 (A1 a0 a1 a10) (rd4 a2) (rd1 a3)
def A3 : Act := layer 36 36 64 (A2 a0 a1 a2 a3 a10) (rd4 a4) (rd1 a5)

def Hid : ℕ → ℕ → EReal := hidden (A3 a0 a1 a2 a3 a4 a5 a10) (rd2 a6) (rd1 a7)
def Out : (⟨2, ![256, 3]⟩ : Shape).Idx → EReal := fun i =>
  logits (Hid a0 a1 a2 a3 a4 a5 a6 a7 a10) (rd2 a8) (rd1 a9) (i 0).val (i 1).val

end Net

end Cert.Spec

end
-- ==== Proof.Algebra.lean ====
/-
  Regroupings of the sums both programs compute. Addition of extended reals is commutative and associative and zero
  annihilates, so none of them needs finiteness.
-/
import proofs.«103448_g2000407080750749_pallasbulk_1140_2_alg».proof.Proof.Spec
import Mathlib.Algebra.BigOperators.Intervals
import Mathlib.Algebra.BigOperators.Ring.Finset

noncomputable section

namespace Cert.Spec

open scoped BigOperators

-- A sum over `n * b` positions is `n` consecutive runs of `b`.
theorem chunk_sum (n b : ℕ) (f : ℕ → EReal) :
    (∑ k ∈ Finset.range (n * b), f k) = ∑ j ∈ Finset.range n, ∑ i ∈ Finset.range b, f (j * b + i) := by
  induction n with
  | zero => simp
  | succ m ih => rw [Nat.succ_mul, Finset.sum_range_add, ih, Finset.sum_range_succ]

theorem max4_comm (a b c d : EReal) : max (max a c) (max b d) = max (max a b) (max c d) :=
  max_max_max_comm a c b d

theorem stacked_one (C : ℕ) (hC : 0 < C) (g : ℕ → ℕ → EReal) :
    (∑ r ∈ Finset.range (3 * C), g (r / C) (r % C)) = ∑ dy ∈ Finset.range 3, ∑ ci ∈ Finset.range C, g dy ci := by
  rw [chunk_sum 3 C (fun r => g (r / C) (r % C))]
  refine Finset.sum_congr rfl (fun j _ => Finset.sum_congr rfl (fun i hi => ?_))
  have hi' : i < C := Finset.mem_range.mp hi
  have hq : (j * C + i) / C = j := by
    rw [Nat.add_comm, Nat.add_mul_div_right _ _ hC, Nat.div_eq_of_lt hi', Nat.zero_add]
  have hr : (j * C + i) % C = i := by
    rw [Nat.add_comm, Nat.add_mul_mod_self_right, Nat.mod_eq_of_lt hi']
  show g ((j * C + i) / C) ((j * C + i) % C) = g j i
  rw [hq, hr]

-- Three column taps, each over the three row taps stacked on `C` channels, are the nine taps.
theorem stacked_sum (C : ℕ) (hC : 0 < C) (P : Act) (K : Ker) (n h w d : ℕ) :
    (∑ r ∈ Finset.range (3 * C), P n (h + r / C) (w + 0) (r % C) * K (r / C) 0 (r % C) d)
      + (∑ r ∈ Finset.range (3 * C), P n (h + r / C) (w + 1) (r % C) * K (r / C) 1 (r % C) d)
      + (∑ r ∈ Finset.range (3 * C), P n (h + r / C) (w + 2) (r % C) * K (r / C) 2 (r % C) d)
    = ∑ dy ∈ Finset.range 3, ∑ dx ∈ Finset.range 3, ∑ ci ∈ Finset.range C, P n (h + dy) (w + dx) ci * K dy dx ci d := by
  have e0 := stacked_one C hC (fun dy ci => P n (h + dy) (w + 0) ci * K dy 0 ci d)
  have e1 := stacked_one C hC (fun dy ci => P n (h + dy) (w + 1) ci * K dy 1 ci d)
  have e2 := stacked_one C hC (fun dy ci => P n (h + dy) (w + 2) ci * K dy 2 ci d)
  beta_reduce at e0 e1 e2
  rw [e0, e1, e2]
  simp only [Finset.sum_range_succ, Finset.sum_range_zero, zero_add]
  ac_rfl

theorem taps9_sum (P : Act) (K : Ker) (n h w d : ℕ) :
    (∑ q ∈ Finset.range 9, P n (h + q / 3) (w + q % 3) 0 * K (q / 3) (q % 3) 0 d)
    = ∑ dy ∈ Finset.range 3, ∑ dx ∈ Finset.range 3, ∑ ci ∈ Finset.range 1, P n (h + dy) (w + dx) ci * K dy dx ci d := by
  simp only [Finset.sum_range_succ, Finset.sum_range_zero, zero_add, Nat.reduceDiv, Nat.reduceMod]
  ac_rfl

-- A sum whose terms vanish outside `w, w+1, w+2` is the sum of those three terms.
theorem window3_sum (w m : ℕ) (F : ℕ → EReal) (hz : ∀ x, x < w ∨ w + 3 ≤ x → F x = 0) :
    (∑ x ∈ Finset.range (w + (3 + m)), F x) = ∑ dx ∈ Finset.range 3, F (w + dx) := by
  rw [Finset.sum_range_add, Finset.sum_range_add]
  have h1 : (∑ x ∈ Finset.range w, F x) = 0 :=
    Finset.sum_eq_zero (fun x hx => hz x (Or.inl (Finset.mem_range.mp hx)))
  have h3 : (∑ x ∈ Finset.range m, F (w + (3 + x))) = 0 :=
    Finset.sum_eq_zero (fun x _ => hz _ (Or.inr (by omega)))
  rw [h1, h3, zero_add, add_zero]

theorem band_row (f : ℕ → EReal) (K : Ker) (dy w c : ℕ) (hw : w < 144) (hc : c < 32) :
    (∑ w' ∈ Finset.range 146, f w' * band K dy w' (w * 32 + c))
      = ∑ dx ∈ Finset.range 3, f (w + dx) * K dy dx 0 c := by
  have hq : (w * 32 + c) / 32 = w := by omega
  have hr : (w * 32 + c) % 32 = c := by omega
  have h146 : 146 = w + (3 + (143 - w)) := by omega
  have hband : ∀ x, band K dy x (w * 32 + c) = if w ≤ x ∧ x ≤ w + 2 then K dy (x - w) 0 c else 0 := by
    intro x; unfold band; rw [hq, hr]
  rw [h146, window3_sum w (143 - w) (fun x => f x * band K dy x (w * 32 + c))]
  · refine Finset.sum_congr rfl (fun dx hdx => ?_)
    have hdx' : dx < 3 := Finset.mem_range.mp hdx
    show f (w + dx) * band K dy (w + dx) (w * 32 + c) = f (w + dx) * K dy dx 0 c
    rw [hband, if_pos (by omega), Nat.add_sub_cancel_left]
  · intro x hx
    show f x * band K dy x (w * 32 + c) = 0
    rw [hband, if_neg (by omega), mul_zero]

-- Against the banded filter only the columns `w, w+1, w+2` of a bordered row contribute: the nine taps again.
theorem band_sum (P : Act) (K : Ker) (n h w c : ℕ) (hw : w < 144) (hc : c < 32) :
    (∑ w' ∈ Finset.range 146, P n (h + 0) w' 0 * band K 0 w' (w * 32 + c))
      + (∑ w' ∈ Finset.range 146, P n (h + 1) w' 0 * band K 1 w' (w * 32 + c))
      + (∑ w' ∈ Finset.range 146, P n (h + 2) w' 0 * band K 2 w' (w * 32 + c))
    = ∑ dy ∈ Finset.range 3, ∑ dx ∈ Finset.range 3, ∑ ci ∈ Finset.range 1, P n (h + dy) (w + dx) ci * K dy dx ci c := by
  have e0 := band_row (fun w' => P n (h + 0) w' 0) K 0 w c hw hc
  have e1 := band_row (fun w' => P n (h + 1) w' 0) K 1 w c hw hc
  have e2 := band_row (fun w' => P n (h + 2) w' 0) K 2 w c hw hc
  beta_reduce at e0 e1 e2
  rw [e0, e1, e2]
  simp only [Finset.sum_range_succ, Finset.sum_range_zero, zero_add]

end Cert.Spec

end
-- ==== Proof.Layout.lean ====
/-
  Layout facts both programs use outside their regions: an image given a zero border, three row-shifted copies
  stacked on channels, a filter's row taps folded into its channels, two halves added to a bias row.
-/
import proofs.«103448_g2000407080750749_pallasbulk_1140_2_alg».proof.Proof.Spec
import Idealize.ShloMosaic.Lib.Pipeline.Value
import Idealize.ShloMosaic.Lib.ValueLayout
import Idealize.ShloMosaic.Lib.KernelVsHost
import Idealize.ShloMosaic.PureOps.Ideal.Laws
import Idealize.ShloMosaic.Lib.IdealHost

noncomputable section

namespace Cert.Spec

open Idealize.ShloMosaic Idealize.ShloMosaic.TcCoe Idealize.ShloMosaic.ValueIdx
open scoped BigOperators

theorem zero_word (i : (⟨0, ![]⟩ : Shape).Idx) :
    (sitofp .f32 (constantI ⟨0, ![]⟩ 32 0#32) : FVec Ideal ⟨0, ![]⟩ .f32) i = 0 := by
  show (((0#32 : BitVec 32).toInt : ℝ) : EReal) = 0
  simp

section
variable {N H H' W W' C D R : ℕ}

/-- A vector made a row reads the vector. -/
theorem row_apply (b : (⟨1, ![N]⟩ : Shape).Idx → EReal) (h : (⟨1, ![N]⟩ : Shape).ShapeCasts ⟨2, ![1, N]⟩) (d : Fin N) :
    shapeCast ⟨2, ![1, N]⟩ b h (ix2 0 d) = rd1 b d.val :=
  (shapeCast_a_1a_apply b h 0 d).trans (rd1_fin b d).symm

/-- A border of width one on rows and columns holding zero is the specification's bordered image. -/
theorem border_apply (X : (⟨4, ![N, H, W, C]⟩ : Shape).Idx → EReal) (v : (⟨0, ![]⟩ : Shape).Idx → EReal)
    (hp : (⟨4, ![N, H, W, C]⟩ : Shape).Pads ![0, 1, 1, 0] ![0, 1, 1, 0] ![0, 0, 0, 0] ⟨4, ![N, H', W', C]⟩)
    (hu : 0 < (⟨0, ![]⟩ : Shape).numel) (hv : ∀ i, v i = 0) (a : Act)
    (ha : ∀ (n : Fin N) (h : Fin H) (w : Fin W) (c : Fin C), X (ix4 n h w c) = a n.val h.val w.val c.val)
    (n : Fin N) (hh : Fin H') (ww : Fin W') (c : Fin C) :
    pad ⟨4, ![N, H', W', C]⟩ ![0, 1, 1, 0] ![0, 1, 1, 0] ![0, 0, 0, 0] X v hp hu (ix4 n hh ww c)
      = padded H W a n.val hh.val ww.val c.val := by
  unfold padded
  by_cases hin : (0 < hh.val ∧ hh.val ≤ H) ∧ (0 < ww.val ∧ ww.val ≤ W)
  · have h1 : hh.val - 1 < H := by omega
    have h2 : ww.val - 1 < W := by omega
    rw [if_pos hin, pad_apply_of_inside _ _ _ X v hp hu (ix4 n hh ww c) (ix4 n ⟨hh.val - 1, h1⟩ ⟨ww.val - 1, h2⟩ c) (fun ax => by
      match ax with
      | ⟨0, _⟩ => show n.val = 0 + n.val * (0 + 1); omega
      | ⟨1, _⟩ => show hh.val = 1 + (hh.val - 1) * (0 + 1); omega
      | ⟨2, _⟩ => show ww.val = 1 + (ww.val - 1) * (0 + 1); omega
      | ⟨3, _⟩ => show c.val = 0 + c.val * (0 + 1); omega)]
    exact ha n ⟨_, h1⟩ ⟨_, h2⟩ c
  · rw [if_neg hin]
    by_cases hrow : 0 < hh.val ∧ hh.val ≤ H
    · rw [pad_apply_of_not_inside _ _ _ X v hp hu (ix4 n hh ww c) (2 : Fin 4) (by
        show ¬(1 ≤ ww.val ∧ (ww.val - 1) % (0 + 1) = 0 ∧ (ww.val - 1) / (0 + 1) < W); omega)]
      exact hv _
    · rw [pad_apply_of_not_inside _ _ _ X v hp hu (ix4 n hh ww c) (1 : Fin 4) (by
        show ¬(1 ≤ hh.val ∧ (hh.val - 1) % (0 + 1) = 0 ∧ (hh.val - 1) / (0 + 1) < H); omega)]
      exact hv _

/-- Three copies shifted by 0, 1, 2 rows and stacked on the last axis: entry r at row h is entry r % C at row h + r / C. -/
theorem stack3_apply (hR : R = 3 * C) (hH : H + 2 ≤ H') (P : (⟨4, ![N, H', W, C]⟩ : Shape).Idx → EReal)
    (s0 : (⟨4, ![N, H', W, C]⟩ : Shape).Slices ![0, 0, 0, 0] ⟨4, ![N, H, W, C]⟩)
    (s1 : (⟨4, ![N, H', W, C]⟩ : Shape).Slices ![0, 1, 0, 0] ⟨4, ![N, H, W, C]⟩)
    (s2 : (⟨4, ![N, H', W, C]⟩ : Shape).Slices ![0, 2, 0, 0] ⟨4, ![N, H, W, C]⟩)
    (hc : Shape.Concatenates [(⟨4, ![N, H, W, C]⟩ : Shape), ⟨4, ![N, H, W, C]⟩, ⟨4, ![N, H, W, C]⟩] ⟨4, ![N, H, W, R]⟩ 3)
    (f : Act) (hP : ∀ (n : Fin N) (hh : Fin H') (w : Fin W) (c : Fin C), P (ix4 n hh w c) = f n.val hh.val w.val c.val)
    (n : Fin N) (h : Fin H) (w : Fin W) (r : Fin R) :
    concatenate ⟨4, ![N, H, W, R]⟩ 3
      [⟨⟨4, ![N, H, W, C]⟩, extractStridedSlice ⟨4, ![N, H, W, C]⟩ ![0, 0, 0, 0] P s0⟩,
       ⟨⟨4, ![N, H, W, C]⟩, extractStridedSlice ⟨4, ![N, H, W, C]⟩ ![0, 1, 0, 0] P s1⟩,
       ⟨⟨4, ![N, H, W, C]⟩, extractStridedSlice ⟨4, ![N, H, W, C]⟩ ![0, 2, 0, 0] P s2⟩] hc (ix4 n h w r)
      = f n.val (h.val + r.val / C) w.val (r.val % C) := by
  subst hR
  have hC : 0 < C := by have := r.isLt; omega
  have hq : r.val / C < 3 := Nat.div_lt_of_lt_mul (by have := r.isLt; omega)
  have hrv := Nat.div_add_mod r.val C
  have hm := Nat.mod_lt r.val hC
  have hhh : h.val + r.val / C < H' := by have := h.isLt; omega
  have off : ∀ b : Fin 4, b ≠ 3 → ((ix4 n h w (⟨_, hm⟩ : Fin C) : (⟨4, ![N, H, W, C]⟩ : Shape).Idx) b).val
      = ((ix4 n h w r : (⟨4, ![N, H, W, 3 * C]⟩ : Shape).Idx) b).val := fun b hb =>
    match b with
    | ⟨0, _⟩ => rfl
    | ⟨1, _⟩ => rfl
    | ⟨2, _⟩ => rfl
    | ⟨3, _⟩ => absurd rfl hb
  refine Eq.trans ?_ (hP n ⟨_, hhh⟩ w ⟨_, hm⟩)
  let xs : List ((s : Shape) × (s.Idx → EReal)) :=
    [⟨⟨4, ![N, H, W, C]⟩, extractStridedSlice ⟨4, ![N, H, W, C]⟩ ![0, 0, 0, 0] P s0⟩,
     ⟨⟨4, ![N, H, W, C]⟩, extractStridedSlice ⟨4, ![N, H, W, C]⟩ ![0, 1, 0, 0] P s1⟩,
     ⟨⟨4, ![N, H, W, C]⟩, extractStridedSlice ⟨4, ![N, H, W, C]⟩ ![0, 2, 0, 0] P s2⟩]
  rcases (show ∀ q, q < 3 → q = 0 ∨ q = 1 ∨ q = 2 by intro q hq; omega) _ hq with e | e | e
  · exact (concatenate_apply_piece (t := ⟨4, ![N, H, W, 3 * C]⟩) 3 xs hc (ix4 n h w r) 0 (Nat.zero_lt_succ _) ⟨4, ![N, H, W, C]⟩ _ rfl rfl 0 rfl
      (ix4 n h w ⟨_, hm⟩) off (by rw [e] at hrv; show 0 + r.val % C = r.val; omega)).trans
        (slice4_axis1_apply 0 P s0 n h w ⟨_, hm⟩ ⟨_, hhh⟩ (by show h.val + r.val / C = 0 + h.val; omega))
  · exact (concatenate_apply_piece (t := ⟨4, ![N, H, W, 3 * C]⟩) 3 xs hc (ix4 n h w r) 1 (Nat.succ_lt_succ (Nat.zero_lt_succ _)) ⟨4, ![N, H, W, C]⟩ _ rfl rfl C rfl
      (ix4 n h w ⟨_, hm⟩) off (by rw [e] at hrv; show C + r.val % C = r.val; omega)).trans
        (slice4_axis1_apply 1 P s1 n h w ⟨_, hm⟩ ⟨_, hhh⟩ (by show h.val + r.val / C = 1 + h.val; omega))
  · exact (concatenate_apply_piece (t := ⟨4, ![N, H, W, 3 * C]⟩) 3 xs hc (ix4 n h w r) 2 (Nat.succ_lt_succ (Nat.succ_lt_succ (Nat.zero_lt_succ _))) ⟨4, ![N, H, W, C]⟩ _ rfl rfl (C + C) rfl
      (ix4 n h w ⟨_, hm⟩) off (by rw [e] at hrv; show C + C + r.val % C = r.val; omega)).trans
        (slice4_axis1_apply 2 P s2 n h w ⟨_, hm⟩ ⟨_, hhh⟩ (by show h.val + r.val / C = 2 + h.val; omega))

/-- Tap axes swapped, leading tap folded into the channels: row r is tap r / C, channel r % C, as (3 dx + r / C) C + r % C = 3 C dx + r. -/
theorem taps_apply (hR : R = 3 * C) (k : (⟨4, ![3, 3, C, D]⟩ : Shape).Idx → EReal)
    (ht : (⟨4, ![3, 3, C, D]⟩ : Shape).Transposes [1, 0, 2, 3] ⟨4, ![3, 3, C, D]⟩)
    (hs : (⟨4, ![3, 3, C, D]⟩ : Shape).ShapeCasts ⟨3, ![3, R, D]⟩) (dx : Fin 3) (r : Fin R) (d : Fin D) :
    shapeCast ⟨3, ![3, R, D]⟩ (transpose ⟨4, ![3, 3, C, D]⟩ [1, 0, 2, 3] k ht) hs (ix3 dx r d)
      = rd4 k (r.val / C) dx.val (r.val % C) d.val := by
  subst hR
  have hC : 0 < C := by have := r.isLt; omega
  have hq : r.val / C < 3 := Nat.div_lt_of_lt_mul (by have := r.isLt; omega)
  have hm := Nat.mod_lt r.val hC
  have e : (dx.val * 3 + r.val / C) * C + r.val % C = dx.val * (3 * C) + r.val := by
    rw [Nat.add_mul, Nat.mul_assoc, Nat.add_assoc, Nat.mul_comm (r.val / C), Nat.div_add_mod]
  rw [shapeCast_apply _ hs (ix3 dx r d) (ix4 dx ⟨_, hq⟩ ⟨_, hm⟩ d) (by
    rw [Shape.rowMajor_val_four, Shape.rowMajor_val_three]
    show ((dx.val * 3 + r.val / C) * C + r.val % C) * D + d.val = (dx.val * (3 * C) + r.val) * D + d.val
    rw [e])]
  exact (transpose_apply _ k ht (ix4 dx ⟨_, hq⟩ ⟨_, hm⟩ d) (ix4 ⟨_, hq⟩ dx ⟨_, hm⟩ d) fun b =>
    match b with | ⟨0, _⟩ => rfl | ⟨1, _⟩ => rfl | ⟨2, _⟩ => rfl | ⟨3, _⟩ => rfl).trans (rd4_fin k ⟨_, hq⟩ dx ⟨_, hm⟩ d).symm

end

/-- Of three terms weighted by the indicators of w' = w, w + 1, w + 2 only the one at tap w' - w is left. -/
theorem band_pick (F : ℕ → EReal) (w w' : ℕ) :
    0 + (if w' = w + 0 then (1 : EReal) else 0) * F 0 + (if w' = w + 1 then (1 : EReal) else 0) * F 1
        + (if w' = w + 2 then (1 : EReal) else 0) * F 2
      = if w ≤ w' ∧ w' ≤ w + 2 then F (w' - w) else 0 := by
  by_cases h : w ≤ w' ∧ w' ≤ w + 2
  · obtain ⟨i, rfl⟩ : ∃ i, w' = w + i := ⟨w' - w, by omega⟩
    have hi : i ≤ 2 := by omega
    interval_cases i <;> simp
  · rw [if_neg h, if_neg (by omega), if_neg (by omega), if_neg (by omega), zero_mul, zero_mul, zero_mul, add_zero, add_zero, add_zero]

/-- The sum over a leading axis of extent two, started from zero, plus a bias row repeated over the images. -/
theorem tail_point (X : (⟨3, ![2, 256, 3]⟩ : Shape).Idx → EReal) (b : (⟨1, ![3]⟩ : Shape).Idx → EReal)
    (hr : (⟨3, ![2, 256, 3]⟩ : Shape).ReducesTo [0] ⟨2, ![256, 3]⟩) (hu : 0 < (⟨0, ![]⟩ : Shape).numel)
    (hb : (⟨2, ![1, 3]⟩ : Shape).BroadcastsInDim ⟨2, ![256, 3]⟩ (![0, 1] : Fin 2 → Fin (⟨2, ![256, 3]⟩ : Shape).rank))
    (hs : (⟨1, ![3]⟩ : Shape).ShapeCasts ⟨2, ![1, 3]⟩) (n : Fin 256) (q : Fin 3) :
    addf (Host.reduceAdd (X : FVec Ideal ⟨3, ![2, 256, 3]⟩ .f32) (constant (F := Ideal) ⟨0, ![]⟩ .f32 0x00000000#32) hr hu)
        (broadcastInDim ⟨2, ![256, 3]⟩ ![0, 1] hb (shapeCast ⟨2, ![1, 3]⟩ b hs)) (ix2 n q)
      = (rd3 X 0 n.val q.val + rd3 X 1 n.val q.val) + rd1 b q.val := by
  have hR : (⟨3, ![2, 256, 3]⟩ : Shape).Reduces [0] ⟨2, ![256, 3]⟩ := by decide
  have hl : ∀ k : Fin 2, hR.lift (ix2 n q) k = ix3 k n q := fun k =>
    funext fun a => match a with
      | ⟨0, _⟩ => rfl
      | ⟨1, _⟩ => rfl
      | ⟨2, _⟩ => rfl
  have hsum : (∑ k : Fin ((⟨3, ![2, 256, 3]⟩ : Shape).size 0), X (hR.lift (ix2 n q) k)) = X (ix3 0 n q) + X (ix3 1 n q) := by
    show (∑ k : Fin 2, X (hR.lift (ix2 n q) k)) = _
    rw [Fin.sum_univ_two, hl, hl]
  rw [addf_apply, hostReduceAdd_apply, constant_apply, Ideal.ofBits_zero_f32, Ideal.hostReduceAdd_single hr hR, zero_add, hsum,
    show rd3 X 0 n.val q.val = _ from rd3_fin X (0 : Fin 2) n q, show rd3 X 1 n.val q.val = _ from rd3_fin X (1 : Fin 2) n q,
    broadcastInDim_apply _ _ _ (ix2 n q) (ix2 (0 : Fin 1) q) (fun a => match a with
      | ⟨0, _⟩ => rfl
      | ⟨1, _⟩ => rfl),
    row_apply]

end Cert.Spec

end
-- ==== Proof.KiHostA.lean ====
/-
  Before the kernel's first region: the images with a zero border, the first filter as a banded matrix, its bias
  repeated over the columns, the second and third filters with the row taps stacked on channels, their biases as rows.
-/
import proofs.«103448_g2000407080750749_pallasbulk_1140_2_alg».proof.Proof.Spec
import proofs.«103448_g2000407080750749_pallasbulk_1140_2_alg».proof.Proof.Layout
import proofs.«103448_g2000407080750749_pallasbulk_1140_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StableHlo.Predicate

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open scoped BigOperators

variable (U : Valuation τ sig (Elt Ideal))

local notation "rf" => Proc.devRef (τ := τ) (sig := sig) Proc.tc

abbrev prepA : Valuation τ sig (Elt Ideal) := StableHlo.after hostOps0_2 (StableHlo.after hostOps0_1 (StableHlo.after hostOps0 U))

/-- The unit channel axis dropped, then a zero border of width one on rows and columns. -/
theorem prepA_x (n : Fin 256) (h' w' : Fin 146) :
    (prepA U (rf main_v2) : S256x146x146.Idx → EReal) (ix3 n h' w')
      = padded 144 144 (fun n h w _ => rd4 (U (rf main_arg10) : S256x1x144x144.Idx → EReal) n 0 h w) n.val h'.val w'.val 0 := by
  have e : (prepA U (rf main_v2) : S256x146x146.Idx → EReal)
      = truncf (F := Ideal) .bf16 (pad S256x146x146 ![0, 1, 1] ![0, 1, 1] ![0, 0, 0]
          (shapeCast S256x144x144 (U (rf main_arg10) : S256x1x144x144.Idx → EReal) shapeCasts_S256x1x144x144_S256x144x144)
          (sitofp (F := Ideal) .f32 (constantI S_ 32 0#32)) pads_S256x144x144_S256x146x146_000_110_110 h_S_) bitsLt_bf16_f32 := by
    simp only [prepA, hostOps0_2, hostOps0_1, hostOps0]
    after_results
    rfl
  rw [e, truncf_apply]
  unfold padded
  by_cases hin : (0 < h'.val ∧ h'.val ≤ 144) ∧ (0 < w'.val ∧ w'.val ≤ 144)
  · have h1 : h'.val - 1 < 144 := by omega
    have h2 : w'.val - 1 < 144 := by omega
    rw [if_pos hin, pad_apply_of_inside _ _ _ _ _ _ _ (ix3 n h' w') (ix3 n ⟨_, h1⟩ ⟨_, h2⟩) (fun a => by
        match a with
        | ⟨0, _⟩ => show n.val = 0 + n.val * (0 + 1); omega
        | ⟨1, _⟩ => show h'.val = 1 + (h'.val - 1) * (0 + 1); omega
        | ⟨2, _⟩ => show w'.val = 1 + (w'.val - 1) * (0 + 1); omega),
      shapeCast_apply _ _ (ix3 n ⟨_, h1⟩ ⟨_, h2⟩) (ix4 n (0 : Fin 1) ⟨_, h1⟩ ⟨_, h2⟩) (by
        rw [Shape.rowMajor_val_four, Shape.rowMajor_val_three]
        show ((n.val * 1 + 0) * 144 + (h'.val - 1)) * 144 + (w'.val - 1) = (n.val * 144 + (h'.val - 1)) * 144 + (w'.val - 1)
        omega)]
    exact (rd4_fin _ n (0 : Fin 1) ⟨_, h1⟩ ⟨_, h2⟩).symm
  · rw [if_neg hin]
    by_cases hrow : 0 < h'.val ∧ h'.val ≤ 144
    · rw [pad_apply_of_not_inside _ _ _ _ _ _ _ (ix3 n h' w') (2 : Fin 3) (by
        show ¬(1 ≤ w'.val ∧ (w'.val - 1) % (0 + 1) = 0 ∧ (w'.val - 1) / (0 + 1) < 144); omega)]
      exact zero_word _
    · rw [pad_apply_of_not_inside _ _ _ _ _ _ _ (ix3 n h' w') (1 : Fin 3) (by
        show ¬(1 ≤ h'.val ∧ (h'.val - 1) % (0 + 1) = 0 ∧ (h'.val - 1) / (0 + 1) < 144); omega)]
      exact zero_word _

namespace KiHostA

/-- The 146 x 144 zero-one matrix with a one where the bordered column is the output column plus the tap. -/
abbrev shiftMask (c : BitVec 32) : FVec Ideal S146x144 .f32 :=
  uitofp (F := Ideal) .f32 (cmpi .eq (addi (iotaInDim S146x144 32 0)
    (broadcastInDim S146x144 ![] bcast_S_S146x144 (constantI S_ 32 c))) (iotaInDim S146x144 32 1))

abbrev maskT (c : BitVec 32) : FVec Ideal S3x146x144x32 .f32 :=
  broadcastInDim S3x146x144x32 ![0, 1, 2, 3] bcast_S1x146x144x1_S3x146x144x32_0_1_2_3
    (broadcastInDim S1x146x144x1 ![1, 2] bcast_S146x144_S1x146x144x1_1_2 (shiftMask c))

/-- One column tap of the filter repeated over the bordered columns and the output columns. -/
abbrev tapT (X : FVec Ideal S3x3x1x32 .f32) (off : Fin 4 → ℕ) (hs : S3x3x1x32.Slices off S3x1x1x32) : FVec Ideal S3x146x144x32 .f32 :=
  broadcastInDim S3x146x144x32 ![0, 1, 2, 3] bcast_S3x1x1x32_S3x146x144x32_0_1_2_3
    (broadcastInDim S3x1x1x32 ![0, 3] bcast_S3x32_S3x1x1x32_0_3
      (shapeCast S3x32 (extractStridedSlice S3x1x1x32 off X hs) shapeCasts_S3x1x1x32_S3x32))

abbrev zeroT : FVec Ideal S3x146x144x32 .f32 :=
  broadcastInDim S3x146x144x32 ![] bcast_S_S3x146x144x32 (constant (F := Ideal) S_ .f32 0x00000000#32)

/-- On 32-bit words of small numbers, a plus the word of -dx is b exactly when a = b + dx. -/
theorem mask_word (c : BitVec 32) (dx a b : ℕ) (hdx : dx ≤ 2) (hc : c.toNat = (4294967296 - dx) % 4294967296)
    (ha : a < 146) (hb : b < 144) :
    FloatOps.uitofp (F := Ideal) .f32 (IntOp.cmpi .eq (IntOp.addi (BitVec.ofNat 32 a) c) (BitVec.ofNat 32 b))
      = if a = b + dx then (1 : EReal) else 0 := by
  have hiff : IntOp.addi (BitVec.ofNat 32 a) c = BitVec.ofNat 32 b ↔ a = b + dx := by
    show BitVec.ofNat 32 a + c = BitVec.ofNat 32 b ↔ _
    rw [← BitVec.toNat_inj, BitVec.toNat_add, BitVec.toNat_ofNat, BitVec.toNat_ofNat, hc]
    omega
  by_cases h : a = b + dx
  · rw [if_pos h, StableHlo.Predicate.cmpi_eq_iff.mpr (hiff.mpr h)]
    show (((1#1 : BitVec 1).toNat : ℝ) : EReal) = 1
    rw [show (1#1 : BitVec 1).toNat = 1 from rfl, Nat.cast_one, EReal.coe_one]
  · rw [if_neg h, eq_zero_of_ne_one (fun hc1 => h (hiff.mp (StableHlo.Predicate.cmpi_eq_iff.mp hc1)))]
    show (((0#1 : BitVec 1).toNat : ℝ) : EReal) = 0
    rw [show (0#1 : BitVec 1).toNat = 0 from rfl, Nat.cast_zero, EReal.coe_zero]

theorem maskT_apply (c : BitVec 32) (dx : ℕ) (hdx : dx ≤ 2) (hc : c.toNat = (4294967296 - dx) % 4294967296)
    (dy : Fin 3) (w' : Fin 146) (w : Fin 144) (ch : Fin 32) :
    maskT c (ix4 dy w' w ch) = if w'.val = w.val + dx then (1 : EReal) else 0 := by
  unfold maskT
  rw [broadcastInDim_apply _ _ _ (ix4 dy w' w ch) (ix4 (0 : Fin 1) w' w (0 : Fin 1))
        (fun a => match a with | ⟨0, _⟩ => rfl | ⟨1, _⟩ => rfl | ⟨2, _⟩ => rfl | ⟨3, _⟩ => rfl),
    broadcastInDim_apply _ _ _ (ix4 (0 : Fin 1) w' w (0 : Fin 1)) (ix2 w' w)
        (fun a => match a with | ⟨0, _⟩ => rfl | ⟨1, _⟩ => rfl)]
  exact mask_word c dx w'.val w.val hdx hc w'.isLt w.isLt

theorem tapT_apply (X : FVec Ideal S3x3x1x32 .f32) (i : ℕ) (hi : i < 3) (hs : S3x3x1x32.Slices ![0, i, 0, 0] S3x1x1x32)
    (dy : Fin 3) (w' : Fin 146) (w : Fin 144) (ch : Fin 32) :
    tapT X ![0, i, 0, 0] hs (ix4 dy w' w ch) = rd4 (X : S3x3x1x32.Idx → EReal) dy.val i 0 ch.val := by
  unfold tapT
  rw [broadcastInDim_apply _ _ _ (ix4 dy w' w ch) (ix4 dy (0 : Fin 1) (0 : Fin 1) ch)
        (fun a => match a with | ⟨0, _⟩ => rfl | ⟨1, _⟩ => rfl | ⟨2, _⟩ => rfl | ⟨3, _⟩ => rfl),
    broadcastInDim_apply _ _ _ (ix4 dy (0 : Fin 1) (0 : Fin 1) ch) (ix2 dy ch)
        (fun a => match a with | ⟨0, _⟩ => rfl | ⟨1, _⟩ => rfl),
    shapeCast_apply _ _ (ix2 dy ch) (ix4 dy (0 : Fin 1) (0 : Fin 1) ch) (by
      rw [Shape.rowMajor_val_two, Shape.rowMajor_val_four]
      show ((dy.val * 1 + 0) * 1 + 0) * 32 + ch.val = dy.val * 32 + ch.val
      omega),
    extractStridedSlice_apply _ X hs (ix4 dy (0 : Fin 1) (0 : Fin 1) ch) (ix4 dy (⟨i, hi⟩ : Fin 3) (0 : Fin 1) ch) (fun a => by
      match a with
      | ⟨0, _⟩ => show dy.val = 0 + dy.val; omega
      | ⟨1, _⟩ => show i = i + 0; omega
      | ⟨2, _⟩ => show 0 = 0 + 0; rfl
      | ⟨3, _⟩ => show ch.val = 0 + ch.val; omega)]
  exact (rd4_fin _ dy (⟨i, hi⟩ : Fin 3) (0 : Fin 1) ch).symm

theorem zeroT_apply (j : S3x146x144x32.Idx) : zeroT j = (0 : EReal) := Ideal.ofBits_zero_f32

end KiHostA

/-- Three zero-one matrices times the three column taps, summed: at bordered column w' and lane 32 w + c only tap w' - w is left. -/
theorem prepA_band (dy : Fin 3) (w' : Fin 146) (l : Fin 4608) :
    (prepA U (rf main_v47) : S3x146x4608.Idx → EReal) (ix3 dy w' l)
      = band (rd4 (U (rf main_arg0) : S3x3x1x32.Idx → EReal)) dy.val w'.val l.val := by
  have e : (prepA U (rf main_v47) : S3x146x4608.Idx → EReal)
      = truncf (F := Ideal) .bf16 (shapeCast S3x146x4608
          (addf (addf (addf KiHostA.zeroT
            (mulf (KiHostA.maskT 0#32) (KiHostA.tapT (U (rf main_arg0)) ![0, 0, 0, 0] slices_S3x3x1x32_S3x1x1x32_0_0_0_0)))
            (mulf (KiHostA.maskT 4294967295#32) (KiHostA.tapT (U (rf main_arg0)) ![0, 1, 0, 0] slices_S3x3x1x32_S3x1x1x32_0_1_0_0)))
            (mulf (KiHostA.maskT 4294967294#32) (KiHostA.tapT (U (rf main_arg0)) ![0, 2, 0, 0] slices_S3x3x1x32_S3x1x1x32_0_2_0_0)))
          shapeCasts_S3x146x144x32_S3x146x4608) bitsLt_bf16_f32 := by
    simp only [prepA, hostOps0_2, hostOps0_1, hostOps0]
    after_results_simp
    rfl
  have hq : l.val / 32 < 144 := by have := l.isLt; omega
  have hm := Nat.mod_lt l.val (show 0 < 32 by decide)
  rw [e, truncf_apply,
    shapeCast_apply _ _ (ix3 dy w' l) (ix4 dy w' ⟨_, hq⟩ ⟨_, hm⟩) (by
      rw [Shape.rowMajor_val_four, Shape.rowMajor_val_three]
      show ((dy.val * 146 + w'.val) * 144 + l.val / 32) * 32 + l.val % 32 = (dy.val * 146 + w'.val) * 4608 + l.val
      omega),
    addf_apply, addf_apply, addf_apply, mulf_apply, mulf_apply, mulf_apply, KiHostA.zeroT_apply,
    KiHostA.maskT_apply 0#32 0 (by decide) (by decide), KiHostA.maskT_apply 4294967295#32 1 (by decide) (by decide),
    KiHostA.maskT_apply 4294967294#32 2 (by decide) (by decide),
    KiHostA.tapT_apply _ 0 (by decide), KiHostA.tapT_apply _ 1 (by decide), KiHostA.tapT_apply _ 2 (by decide)]
  exact band_pick (fun dx => rd4 (U (rf main_arg0) : S3x3x1x32.Idx → EReal) dy.val dx 0 (l.val % 32)) (l.val / 32) w'.val

/-- The 32 bias entries repeated over the 144 columns: lane l holds entry l % 32. -/
theorem prepA_bias1 (l : Fin 4608) :
    (prepA U (rf main_v51) : S1x4608.Idx → EReal) (ix2 0 l) = rd1 (U (rf main_arg1) : S32.Idx → EReal) (l.val % 32) := by
  have e : (prepA U (rf main_v51) : S1x4608.Idx → EReal)
      = shapeCast S1x4608 (shapeCast S4608 (broadcastInDim S144x32 ![0, 1] bcast_S1x32_S144x32_0_1
          (shapeCast S1x32 (U (rf main_arg1) : S32.Idx → EReal) shapeCasts_S32_S1x32)) shapeCasts_S144x32_S4608) shapeCasts_S4608_S1x4608 := by
    simp only [prepA, hostOps0_2, hostOps0_1, hostOps0]
    after_results
    rfl
  have hq : l.val / 32 < 144 := by have := l.isLt; omega
  have hm := Nat.mod_lt l.val (show 0 < 32 by decide)
  rw [e, shapeCast_a_1a_apply,
    shapeCast_apply _ _ (ix1 l) (ix2 ⟨_, hq⟩ ⟨_, hm⟩) (by
      rw [Shape.rowMajor_val_two, Shape.rowMajor_val_one]
      show l.val / 32 * 32 + l.val % 32 = l.val
      omega),
    broadcastInDim_apply _ _ _ _ (ix2 (0 : Fin 1) ⟨_, hm⟩) (fun a => match a with | ⟨0, _⟩ => rfl | ⟨1, _⟩ => rfl)]
  exact row_apply _ _ ⟨_, hm⟩

theorem prepA_w2 (dx : Fin 3) (r : Fin 96) (d : Fin 64) :
    (prepA U (rf main_v54) : S3x96x64.Idx → EReal) (ix3 dx r d)
      = rd4 (U (rf main_arg2) : S3x3x32x64.Idx → EReal) (r.val / 32) dx.val (r.val % 32) d.val := by
  simp only [prepA, hostOps0_2, hostOps0_1, hostOps0]; after_results
  exact taps_apply (by decide) _ _ _ dx r d

theorem prepA_b2 (d : Fin 64) :
    (prepA U (rf main_v58) : S1x64.Idx → EReal) (ix2 0 d) = rd1 (U (rf main_arg3) : S64.Idx → EReal) d.val := by
  simp only [prepA, hostOps0_2, hostOps0_1, hostOps0]; after_results
  exact row_apply _ _ d

theorem prepA_w3 (dx : Fin 3) (r : Fin 192) (d : Fin 128) :
    (prepA U (rf main_v57) : S3x192x128.Idx → EReal) (ix3 dx r d)
      = rd4 (U (rf main_arg4) : S3x3x64x128.Idx → EReal) (r.val / 64) dx.val (r.val % 64) d.val := by
  simp only [prepA, hostOps0_2, hostOps0_1, hostOps0]; after_results
  exact taps_apply (by decide) _ _ _ dx r d

theorem prepA_b3 (d : Fin 128) :
    (prepA U (rf main_v59) : S1x128.Idx → EReal) (ix2 0 d) = rd1 (U (rf main_arg5) : S128.Idx → EReal) d.val := by
  simp only [prepA, hostOps0_2, hostOps0_1, hostOps0]; after_results
  exact row_apply _ _ d

end Cert.KernelIdeal.Hand

end
-- ==== Proof.KiHostB.lean ====
/-
  Between and after the kernel's two regions: the stack's output flattened per image, the hidden bias as a row,
  and at the end the two halves added to the last bias.
-/
import proofs.«103448_g2000407080750749_pallasbulk_1140_2_alg».proof.Proof.Spec
import proofs.«103448_g2000407080750749_pallasbulk_1140_2_alg».proof.Proof.Layout
import proofs.«103448_g2000407080750749_pallasbulk_1140_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open scoped BigOperators

variable (U : Valuation τ sig (Elt Ideal))

local notation "rf" => Proc.devRef (τ := τ) (sig := sig) Proc.tc

/-- Both layouts put entry k of image n at row-major position 41472 n + k. -/
theorem mid_flat (n : Fin 256) (k : Fin 41472) :
    (StableHlo.after hostOps1 U (rf main_v61) : S256x41472.Idx → EReal) (ix2 n k)
      = rd3 (U (rf main_v60) : S256x18x2304.Idx → EReal) n.val (k.val / 2304) (k.val % 2304) := by
  have h1 : k.val / 2304 < 18 := by have := k.isLt; omega
  have h2 := Nat.mod_lt k.val (show 0 < 2304 by decide)
  simp only [hostOps1]; after_results
  exact (shapeCast_apply _ _ (ix2 n k) (ix3 n ⟨_, h1⟩ ⟨_, h2⟩) (by
    rw [Shape.rowMajor_val_three, Shape.rowMajor_val_two]
    show (n.val * 18 + k.val / 2304) * 2304 + k.val % 2304 = n.val * 41472 + k.val
    omega)).trans (rd3_fin _ n ⟨_, h1⟩ ⟨_, h2⟩).symm

theorem mid_b1 (j : Fin 256) :
    (StableHlo.after hostOps1 U (rf main_v62) : S1x256.Idx → EReal) (ix2 0 j) = rd1 (U (rf main_arg7) : S256.Idx → EReal) j.val := by
  simp only [hostOps1]; after_results
  exact row_apply _ _ j

theorem tail_out (n : Fin 256) (q : Fin 3) :
    (StableHlo.after hostOps2 U (rf main_v67) : S256x3.Idx → EReal) (ix2 n q)
      = (rd3 (U (rf main_v63) : S2x256x3.Idx → EReal) 0 n.val q.val + rd3 (U (rf main_v63) : S2x256x3.Idx → EReal) 1 n.val q.val)
        + rd1 (U (rf main_arg9) : S3.Idx → EReal) q.val := by
  simp only [hostOps2]; after_results
  exact tail_point _ _ _ _ _ _ n q

end Cert.KernelIdeal.Hand

end
-- ==== Proof.ValueLib.lean ====
/-
  Facts about reading arrays at an index that no program owns: all-zero offsets, equality of reads from equality of
  coordinates, a matrix product into zeros as a sum, the least element as a bit pattern, and the maximum over two.
-/
import proofs.«103448_g2000407080750749_pallasbulk_1140_2_alg».proof.Proof.Spec
import proofs.«103448_g2000407080750749_pallasbulk_1140_2_alg».proof.Proof.Algebra
import Idealize.ShloMosaic.Lib.ValueIdx
import Idealize.ShloMosaic.Lib.KernelVsHost
import Idealize.ShloMosaic.Lib.StackMember
import Idealize.ShloMosaic.PureOps.Ideal.Laws

noncomputable section

namespace Cert.Spec

open Idealize.ShloMosaic Idealize.ShloMosaic.TcCoe Idealize.ShloMosaic.ValueIdx
open scoped BigOperators

theorem zeros2 : (![0, 0] : Fin 2 → ℕ) = fun _ => 0 := funext fun a => by fin_cases a <;> rfl
theorem zeros3 : (![0, 0, 0] : Fin 3 → ℕ) = fun _ => 0 := funext fun a => by fin_cases a <;> rfl
theorem zeros4 : (![0, 0, 0, 0] : Fin 4 → ℕ) = fun _ => 0 := funext fun a => by fin_cases a <;> rfl

/-- Two indices with the same coordinates read the same entry. -/
theorem at_idx {S : Shape} {α : Type} (f : S.Idx → α) {i k : S.Idx} (h : ∀ a, (i a).val = (k a).val) : f i = f k :=
  congrArg f (funext fun a => Fin.ext (h a))

/-- A coordinate read through a unit-stride rectangle at offset `c`. -/
theorem unit_off (c n : ℕ) : c + 1 * n = n + c := by omega

/-- Coordinate `y` of block `i` (extent `B`) sits in the array at `i * B + y`; in block 0, at `y`. -/
theorem blk_off (q B y : ℕ) {i : ℕ} (h : i = q) : i * B + 1 * y = q * B + y := by subst h; omega
theorem blk_off0 (B y : ℕ) {i : ℕ} (h : i = 0) : i * B + 1 * y = y := by subst h; omega
theorem blk_mem0 (B y : ℕ) {i : ℕ} (h : i = 0) (hy : y < B) : i * B ≤ y ∧ y < i * B + B := by subst h; omega

/-- An m x k by k x n product accumulated into zeros is, at an entry, the sum over the contracted coordinate. -/
theorem matmul_zero_apply {m k n : ℕ} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂) (a : Fin m) (b : Fin n) :
    matmul D none A B (constant (F := Ideal) ⟨2, ![m, n]⟩ .f32 0x00000000#32) (ix2 a b) = ∑ c : Fin k, A (ix2 a c) * B (ix2 c b) := by
  subst hD
  rw [matmul_zero_eq_dotGeneral]
  exact StackMember.dotGeneral_plain_apply none A B a b

theorem ofBits_ninf_f32 : Ideal.ofBits .f32 0xFF800000#32 = ⊥ := by simp [Ideal.ofBits, Ideal.ieee]
theorem ofBits_ninf_bf16 : Ideal.ofBits .bf16 0xFF80#16 = ⊥ := by simp [Ideal.ofBits, Ideal.ieee]
theorem ofBits_zero_bf16 : Ideal.ofBits .bf16 0x0000#16 = 0 := by simp [Ideal.ofBits, Ideal.ieee]

/-- The maximum over an axis of two, started from the least element, is the larger of the two entries. -/
theorem fold_max_two {m : ℕ} (hm : m = 2) (z : EReal) (hz : z = ⊥) (f : Fin m → EReal) :
    (Finset.univ : Finset (Fin m)).fold max z f = max (f ⟨0, by omega⟩) (f ⟨1, by omega⟩) := by
  subst hm hz
  rw [show (Finset.univ : Finset (Fin 2)) = {0, 1} from rfl, Finset.fold_insert (by decide), Finset.fold_singleton, max_bot_right]
  rfl

end Cert.Spec

end
-- ==== Proof.ConvLib.lean ====
/-
  Two readings at an index shared by both programs, at any float format and any shape: the maximum over an axis of
  two started from the least element, and a bias row laid over all rows.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.ValueLib
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Idealize.ShloMosaic Idealize.ShloMosaic.ValueIdx
open scoped BigOperators

/-- The maximum over an axis of two, started from a pattern that reads as the least element, is the larger of the two entries. -/
theorem maxpair_apply {φ : FTy} {s t : Shape} {a : Fin s.rank} {acc : BitVec φ.bits} (src : FVec Ideal s φ) (h : s.Reduces [a] t)
    (hφ : FKind.Formats φ) (hacc : acc = FKind.maximumf.neutral φ hφ) (hbot : Ideal.ofBits φ acc = (⊥ : EReal)) (j : t.Idx)
    (h2 : s.size a = 2) (i0 i1 : s.Idx) (e0 : h.lift j ⟨0, by omega⟩ = i0) (e1 : h.lift j ⟨1, by omega⟩ = i1) :
    multiReduction .maximumf [a] t src acc h hφ hacc j = max (src i0) (src i1) := by
  subst e0 e1
  rw [Ideal.multiReduction_maximumf_single]
  exact fold_max_two h2 _ hbot _

/-- A bias row laid over all rows reads the bias at the column. -/
theorem bias_apply {φ : FTy} {R D : ℕ} (v : FVec Ideal ⟨2, ![1, D]⟩ φ) (h1 : (⟨2, ![1, D]⟩ : Shape).ShapeCasts ⟨1, ![D]⟩)
    (h2 : (⟨1, ![D]⟩ : Shape).ShapeCasts ⟨2, ![1, D]⟩) (hb : (⟨2, ![1, D]⟩ : Shape).Broadcasts ⟨2, ![R, D]⟩) (r : Fin R) (e : Fin D) :
    broadcastTo ⟨2, ![R, D]⟩ (shapeCast ⟨2, ![1, D]⟩ (shapeCast ⟨1, ![D]⟩ v h1) h2) hb (ix2 r e) = v (ix2 0 e) := by
  rw [shapeCast_shapeCast]
  exact broadcastTo_1b_ab_apply v hb r e

end Cert.Spec

end
-- ==== Proof.KiPayLib.lean ====
/-
  Readings at an index that do not depend on the shapes: a zero border of width one, and a 3x3 convolution computed as
  three products over row-stacked channels.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.ValueLib
import proofs.«103448_g2000407080750749_pallasbulk_1140_2_alg».proof.Proof.ConvLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.KiPayLib

open Cert.Spec
open Idealize.ShloMosaic Idealize.ShloMosaic.ValueIdx
open scoped BigOperators

/-! ## A 3x3 convolution layer on `N` images of `H` x `W` with `C` channels in and `D` out -/

section Layer

variable {N H W C D : ℕ}

/-- One entry of `z` before and after the `W` columns: column `w` of the `W + 2` is column `w - 1` of the image between. -/
theorem borderW_apply (z : EReal) (x : (⟨4, ![N, H, W, C]⟩ : Shape).Idx → EReal)
    (hc : Shape.Concatenates [⟨4, ![N, H, 1, C]⟩, ⟨4, ![N, H, W, C]⟩, ⟨4, ![N, H, 1, C]⟩] ⟨4, ![N, H, W + 2, C]⟩ 2)
    (n : Fin N) (h : Fin H) (w : Fin (W + 2)) (c : Fin C) :
    concatenate ⟨4, ![N, H, W + 2, C]⟩ 2 [⟨⟨4, ![N, H, 1, C]⟩, broadcast ⟨4, ![N, H, 1, C]⟩ z⟩, ⟨⟨4, ![N, H, W, C]⟩, x⟩,
        ⟨⟨4, ![N, H, 1, C]⟩, broadcast ⟨4, ![N, H, 1, C]⟩ z⟩] hc (ix4 n h w c)
      = if hw : 0 < w.val ∧ w.val ≤ W then x (ix4 n h ⟨w.val - 1, by omega⟩ c) else z := by
  have key := concatenate_apply_piece (t := ⟨4, ![N, H, W + 2, C]⟩) 2 [⟨⟨4, ![N, H, 1, C]⟩, broadcast ⟨4, ![N, H, 1, C]⟩ z⟩,
    ⟨⟨4, ![N, H, W, C]⟩, x⟩, ⟨⟨4, ![N, H, 1, C]⟩, broadcast ⟨4, ![N, H, 1, C]⟩ z⟩] hc (ix4 n h w c)
  have off : ∀ b : Fin 4, b ≠ 2 → ∀ (m : ℕ) (v : Fin m), (ix4 n h v c b).val = (ix4 n h w c b).val := fun b hb m v => by
    match b with
    | ⟨0, _⟩ => rfl
    | ⟨1, _⟩ => rfl
    | ⟨2, _⟩ => exact absurd rfl hb
    | ⟨3, _⟩ => rfl
  have hwl := w.isLt
  by_cases hw : 0 < w.val ∧ w.val ≤ W
  · rw [dif_pos hw]
    exact key 1 (by show 1 < 3; omega) _ x rfl rfl 1 rfl (ix4 n h ⟨w.val - 1, by omega⟩ c) (fun b hb => off b hb _ _)
      (by show 1 + (w.val - 1) = w.val; omega)
  · rw [dif_neg hw]
    by_cases h0 : w.val = 0
    · exact key 0 (by show 0 < 3; omega) _ (broadcast ⟨4, ![N, H, 1, C]⟩ z) rfl rfl 0 rfl (ix4 n h 0 c) (fun b hb => off b hb _ _)
        (by show 0 + 0 = w.val; omega)
    · exact key 2 (by show 2 < 3; omega) _ (broadcast ⟨4, ![N, H, 1, C]⟩ z) rfl rfl (1 + W) rfl (ix4 n h 0 c) (fun b hb => off b hb _ _)
        (by show 1 + W + 0 = w.val; omega)

/-- One entry of `z` before and after the `H` rows. -/
theorem borderH_apply (z : EReal) (x : (⟨4, ![N, H, W, C]⟩ : Shape).Idx → EReal)
    (hc : Shape.Concatenates [⟨4, ![N, 1, W, C]⟩, ⟨4, ![N, H, W, C]⟩, ⟨4, ![N, 1, W, C]⟩] ⟨4, ![N, H + 2, W, C]⟩ 1)
    (n : Fin N) (h : Fin (H + 2)) (w : Fin W) (c : Fin C) :
    concatenate ⟨4, ![N, H + 2, W, C]⟩ 1 [⟨⟨4, ![N, 1, W, C]⟩, broadcast ⟨4, ![N, 1, W, C]⟩ z⟩, ⟨⟨4, ![N, H, W, C]⟩, x⟩,
        ⟨⟨4, ![N, 1, W, C]⟩, broadcast ⟨4, ![N, 1, W, C]⟩ z⟩] hc (ix4 n h w c)
      = if hh : 0 < h.val ∧ h.val ≤ H then x (ix4 n ⟨h.val - 1, by omega⟩ w c) else z := by
  have key := concatenate_apply_piece (t := ⟨4, ![N, H + 2, W, C]⟩) 1 [⟨⟨4, ![N, 1, W, C]⟩, broadcast ⟨4, ![N, 1, W, C]⟩ z⟩,
    ⟨⟨4, ![N, H, W, C]⟩, x⟩, ⟨⟨4, ![N, 1, W, C]⟩, broadcast ⟨4, ![N, 1, W, C]⟩ z⟩] hc (ix4 n h w c)
  have off : ∀ b : Fin 4, b ≠ 1 → ∀ (m : ℕ) (v : Fin m), (ix4 n v w c b).val = (ix4 n h w c b).val := fun b hb m v => by
    match b with
    | ⟨0, _⟩ => rfl
    | ⟨1, _⟩ => exact absurd rfl hb
    | ⟨2, _⟩ => rfl
    | ⟨3, _⟩ => rfl
  have hhl := h.isLt
  by_cases hh : 0 < h.val ∧ h.val ≤ H
  · rw [dif_pos hh]
    exact key 1 (by show 1 < 3; omega) _ x rfl rfl 1 rfl (ix4 n ⟨h.val - 1, by omega⟩ w c) (fun b hb => off b hb _ _)
      (by show 1 + (h.val - 1) = h.val; omega)
  · rw [dif_neg hh]
    by_cases h0 : h.val = 0
    · exact key 0 (by show 0 < 3; omega) _ (broadcast ⟨4, ![N, 1, W, C]⟩ z) rfl rfl 0 rfl (ix4 n 0 w c) (fun b hb => off b hb _ _)
        (by show 0 + 0 = h.val; omega)
    · exact key 2 (by show 2 < 3; omega) _ (broadcast ⟨4, ![N, 1, W, C]⟩ z) rfl rfl (1 + H) rfl (ix4 n 0 w c) (fun b hb => off b hb _ _)
        (by show 1 + H + 0 = h.val; omega)

/-- An image with a border of `z = 0` on its columns and then on its rows is the specification's bordered image. -/
theorem bordered_apply (z : EReal) (hz : z = 0) (x : (⟨4, ![N, H, W, C]⟩ : Shape).Idx → EReal)
    (hcw : Shape.Concatenates [⟨4, ![N, H, 1, C]⟩, ⟨4, ![N, H, W, C]⟩, ⟨4, ![N, H, 1, C]⟩] ⟨4, ![N, H, W + 2, C]⟩ 2)
    (hch : Shape.Concatenates [⟨4, ![N, 1, W + 2, C]⟩, ⟨4, ![N, H, W + 2, C]⟩, ⟨4, ![N, 1, W + 2, C]⟩] ⟨4, ![N, H + 2, W + 2, C]⟩ 1)
    (A : Act) (hx : ∀ (n : Fin N) (h : Fin H) (w : Fin W) (c : Fin C), x (ix4 n h w c) = A n.val h.val w.val c.val)
    (n : Fin N) (h : Fin (H + 2)) (w : Fin (W + 2)) (c : Fin C) :
    concatenate ⟨4, ![N, H + 2, W + 2, C]⟩ 1 [⟨⟨4, ![N, 1, W + 2, C]⟩, broadcast ⟨4, ![N, 1, W + 2, C]⟩ z⟩,
        ⟨⟨4, ![N, H, W + 2, C]⟩, concatenate ⟨4, ![N, H, W + 2, C]⟩ 2 [⟨⟨4, ![N, H, 1, C]⟩, broadcast ⟨4, ![N, H, 1, C]⟩ z⟩,
          ⟨⟨4, ![N, H, W, C]⟩, x⟩, ⟨⟨4, ![N, H, 1, C]⟩, broadcast ⟨4, ![N, H, 1, C]⟩ z⟩] hcw⟩,
        ⟨⟨4, ![N, 1, W + 2, C]⟩, broadcast ⟨4, ![N, 1, W + 2, C]⟩ z⟩] hch (ix4 n h w c)
      = padded H W A n.val h.val w.val c.val := by
  rw [borderH_apply, padded]
  by_cases hh : 0 < h.val ∧ h.val ≤ H
  · rw [dif_pos hh, borderW_apply]
    by_cases hw : 0 < w.val ∧ w.val ≤ W
    · rw [dif_pos hw, if_pos ⟨hh, hw⟩, hx]
    · rw [dif_neg hw, if_neg fun q => hw q.2, hz]
  · rw [dif_neg hh, if_neg fun q => hh q.1, hz]

variable {R : ℕ} (d : DotDims ⟨2, ![R, 3 * C]⟩ ⟨2, ![3 * C, D]⟩ ⟨2, ![R, D]⟩) (hd : d = DotDims.plain R (3 * C) D)

include hd in
/-- One column tap at flat row `(n H + h) W + w`: the stacked image cut at column offset `dx` against its filter slab. -/
theorem tap_apply (dx : ℕ) (hdx : dx ≤ 2) (x : FVec Ideal ⟨4, ![N, H, W + 2, 3 * C]⟩ .bf16) (vK : FVec Ideal ⟨3, ![1, 3 * C, D]⟩ .bf16)
    (hs : (⟨4, ![N, H, W + 2, 3 * C]⟩ : Shape).Slices ![0, 0, dx, 0] ⟨4, ![N, H, W, 3 * C]⟩)
    (hsc : (⟨4, ![N, H, W, 3 * C]⟩ : Shape).ShapeCasts ⟨2, ![R, 3 * C]⟩)
    (hk : (⟨3, ![1, 3 * C, D]⟩ : Shape).ShapeCasts ⟨2, ![3 * C, D]⟩) (P : Act) (K : Ker)
    (hx : ∀ (n : Fin N) (h : Fin H) (w : Fin (W + 2)) (k : Fin (3 * C)),
      x (ix4 n h w k) = P n.val (h.val + k.val / C) w.val (k.val % C))
    (hK : ∀ (q : Fin (3 * C)) (e : Fin D), vK (ix3 0 q e) = K (q.val / C) dx (q.val % C) e.val)
    (n : Fin N) (h : Fin H) (w : Fin W) (r : Fin R) (hr : r.val = (n.val * H + h.val) * W + w.val) (e : Fin D) :
    matmul d none (shapeCast ⟨2, ![R, 3 * C]⟩ (extractStridedSlice ⟨4, ![N, H, W, 3 * C]⟩ ![0, 0, dx, 0] x hs) hsc)
        (shapeCast ⟨2, ![3 * C, D]⟩ vK hk) (constant (F := Ideal) ⟨2, ![R, D]⟩ .f32 0x00000000#32) (ix2 r e)
      = ∑ q ∈ Finset.range (3 * C), P n.val (h.val + q / C) (w.val + dx) (q % C) * K (q / C) dx (q % C) e.val := by
  rw [matmul_zero_apply d hd, Finset.sum_range fun q => P n.val (h.val + q / C) (w.val + dx) (q % C) * K (q / C) dx (q % C) e.val]
  refine Finset.sum_congr rfl fun k _ => congrArg₂ (· * ·) ?_ ((shapeCast_1ab_ab_apply vK hk k e).trans (hK k e))
  refine (shapeCast_apply _ hsc _ (ix4 n h w k) ?_).trans
    ((slice4_axis2_apply dx x hs n h w k ⟨w.val + dx, by have := w.isLt; omega⟩ (Nat.add_comm _ _)).trans (hx n h _ k))
  rw [Shape.rowMajor_val_four, Shape.rowMajor_val_two]
  show ((n.val * H + h.val) * W + w.val) * (3 * C) + k.val = r.val * (3 * C) + k.val
  rw [hr]

include hd in
/-- Three column taps over three stacked row taps, bias and rectifier: the rectified nine-tap convolution of the bordered image. -/
theorem actrow_apply (hC : 0 < C) (x : FVec Ideal ⟨4, ![N, H, W + 2, 3 * C]⟩ .bf16) (k0 k1 k2 : FVec Ideal ⟨3, ![1, 3 * C, D]⟩ .bf16)
    (vb : FVec Ideal ⟨2, ![1, D]⟩ .f32)
    (hs0 : (⟨4, ![N, H, W + 2, 3 * C]⟩ : Shape).Slices ![0, 0, 0, 0] ⟨4, ![N, H, W, 3 * C]⟩)
    (hs1 : (⟨4, ![N, H, W + 2, 3 * C]⟩ : Shape).Slices ![0, 0, 1, 0] ⟨4, ![N, H, W, 3 * C]⟩)
    (hs2 : (⟨4, ![N, H, W + 2, 3 * C]⟩ : Shape).Slices ![0, 0, 2, 0] ⟨4, ![N, H, W, 3 * C]⟩)
    (hsc : (⟨4, ![N, H, W, 3 * C]⟩ : Shape).ShapeCasts ⟨2, ![R, 3 * C]⟩)
    (hk : (⟨3, ![1, 3 * C, D]⟩ : Shape).ShapeCasts ⟨2, ![3 * C, D]⟩)
    (h1 : (⟨2, ![1, D]⟩ : Shape).ShapeCasts ⟨1, ![D]⟩) (h2 : (⟨1, ![D]⟩ : Shape).ShapeCasts ⟨2, ![1, D]⟩)
    (hb : (⟨2, ![1, D]⟩ : Shape).Broadcasts ⟨2, ![R, D]⟩) (hlt : FTy.bits .bf16 < FTy.bits .f32)
    (P : Act) (K : Ker) (B : ℕ → EReal)
    (hx : ∀ (n : Fin N) (h : Fin H) (w : Fin (W + 2)) (k : Fin (3 * C)),
      x (ix4 n h w k) = P n.val (h.val + k.val / C) w.val (k.val % C))
    (hk0 : ∀ (q : Fin (3 * C)) (e : Fin D), k0 (ix3 0 q e) = K (q.val / C) 0 (q.val % C) e.val)
    (hk1 : ∀ (q : Fin (3 * C)) (e : Fin D), k1 (ix3 0 q e) = K (q.val / C) 1 (q.val % C) e.val)
    (hk2 : ∀ (q : Fin (3 * C)) (e : Fin D), k2 (ix3 0 q e) = K (q.val / C) 2 (q.val % C) e.val)
    (hvb : ∀ e : Fin D, vb (ix2 0 e) = B e.val)
    (n : Fin N) (h : Fin H) (w : Fin W) (r : Fin R) (hr : r.val = (n.val * H + h.val) * W + w.val) (e : Fin D) :
    truncf .bf16
        (maximumf
          (addf
            (addf
              (addf
                (addf (broadcast ⟨2, ![R, D]⟩ (Scalar.ofBits (F := Ideal) .f32 0x00000000#32))
                  (matmul d none (shapeCast ⟨2, ![R, 3 * C]⟩ (extractStridedSlice ⟨4, ![N, H, W, 3 * C]⟩ ![0, 0, 0, 0] x hs0) hsc)
                    (shapeCast ⟨2, ![3 * C, D]⟩ k0 hk) (constant (F := Ideal) ⟨2, ![R, D]⟩ .f32 0x00000000#32)))
                (matmul d none (shapeCast ⟨2, ![R, 3 * C]⟩ (extractStridedSlice ⟨4, ![N, H, W, 3 * C]⟩ ![0, 0, 1, 0] x hs1) hsc)
                  (shapeCast ⟨2, ![3 * C, D]⟩ k1 hk) (constant (F := Ideal) ⟨2, ![R, D]⟩ .f32 0x00000000#32)))
              (matmul d none (shapeCast ⟨2, ![R, 3 * C]⟩ (extractStridedSlice ⟨4, ![N, H, W, 3 * C]⟩ ![0, 0, 2, 0] x hs2) hsc)
                (shapeCast ⟨2, ![3 * C, D]⟩ k2 hk) (constant (F := Ideal) ⟨2, ![R, D]⟩ .f32 0x00000000#32)))
            (broadcastTo ⟨2, ![R, D]⟩ (shapeCast ⟨2, ![1, D]⟩ (shapeCast ⟨1, ![D]⟩ vb h1) h2) hb))
          (broadcast ⟨2, ![R, D]⟩ (Scalar.ofBits (F := Ideal) .f32 0x00000000#32)))
        hlt (ix2 r e)
      = relu (convP C P K B n.val h.val w.val e.val) := by
  show max (((((Ideal.ofBits .f32 0x00000000#32 : EReal) + _) + _) + _) + _) (Ideal.ofBits .f32 0x00000000#32 : EReal) = _
  rw [tap_apply d hd 0 (by omega) x k0 hs0 hsc hk P K hx hk0 n h w r hr e, tap_apply d hd 1 (by omega) x k1 hs1 hsc hk P K hx hk1 n h w r hr e,
    tap_apply d hd 2 (by omega) x k2 hs2 hsc hk P K hx hk2 n h w r hr e, bias_apply vb h1 h2 hb r e, hvb e, Ideal.ofBits_zero_f32, zero_add,
    stacked_sum C hC]
  rfl

end Layer

end Cert.KernelIdeal.Hand.KiPayLib

end
-- ==== Proof.KiPay1.lean ====
/-
  The first payload of the convolution stack at an index: three products of a row-shifted bordered image block with the
  banded filter, bias, rectifier, and the larger of each pair of rows; columns still unpooled, lane `q = 32 (w mod 2) + c`
  of column pair `w2`.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.KiConv
import proofs.«103448_g2000407080750749_pallasbulk_1140_2_alg».proof.Proof.KiPayLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec KiPayLib
open Idealize.ShloMosaic Idealize.ShloMosaic.TcCoe Idealize.ShloMosaic.ValueIdx
open scoped BigOperators

namespace KiPay1

/-- One product at stacked row `144 n + i`, lane `l`: bordered row `i + dy` against row tap `dy` of the banded filter. -/
theorem prod_apply (v : FVec Ideal S2x144x146 .bf16) (b : FVec Ideal S1x146x4608 .bf16) (P : Act) (K : Ker) (dy : ℕ)
    (hv : ∀ (n : Fin 2) (h : Fin 144) (w' : Fin 146), v (ix3 n h w') = P n.val (h.val + dy) w'.val 0)
    (hb : ∀ (w' : Fin 146) (l : Fin 4608), b (ix3 0 w' l) = band K dy w'.val l.val)
    (n : Fin 2) (i : Fin 144) (r : Fin 288) (hr : r.val = n.val * 144 + i.val) (l : Fin 4608) :
    matmul dot_S288x146_S146x4608_S288x4608_1_0_0_1_n_n none
        (shapeCast S288x146 (shapeCast S2x144x146 v shapeCasts_S2x144x146_S2x144x146) shapeCasts_S2x144x146_S288x146)
        (shapeCast S146x4608 b shapeCasts_S1x146x4608_S146x4608) (constant (F := Ideal) S288x4608 .f32 0x00000000#32) (ix2 r l)
      = ∑ w' ∈ Finset.range 146, P n.val (i.val + dy) w' 0 * band K dy w' l.val := by
  rw [matmul_zero_apply dot_S288x146_S146x4608_S288x4608_1_0_0_1_n_n rfl,
    Finset.sum_range fun w' => P n.val (i.val + dy) w' 0 * band K dy w' l.val, shapeCast_self]
  refine Finset.sum_congr rfl fun c _ => congrArg₂ (· * ·) ((shapeCast_apply v _ _ (ix3 n i c) ?_).trans (hv n i c))
    ((shapeCast_1ab_ab_apply b _ c l).trans (hb c l))
  rw [Shape.rowMajor_val_three, Shape.rowMajor_val_two]
  show (n.val * 144 + i.val) * 146 + c.val = r.val * 146 + c.val
  rw [hr]

/-- Stacked rows `144 n + i` paired, the larger of each pair; lanes `32 w + c` split into column pairs of 64. -/
theorem rowmax_apply (y : FVec Ideal S288x4608 .bf16) (Y : Act)
    (hy : ∀ (n : Fin 2) (i : Fin 144) (l : Fin 4608) (r : Fin 288), r.val = n.val * 144 + i.val →
      y (ix2 r l) = Y n.val i.val (l.val / 32) (l.val % 32))
    (hφ : FKind.Formats .bf16) (hacc : (0xFF80#16 : BitVec 16) = FKind.maximumf.neutral .bf16 hφ)
    (n : Fin 2) (h2 w2 : Fin 72) (q : Fin 64) :
    shapeCast S2x72x72x64
        (multiReduction .maximumf [2] S2x72x4608 (shapeCast S2x72x2x4608 y shapeCasts_S288x4608_S2x72x2x4608) 0xFF80#16
          reduces_S2x72x2x4608_S2x72x4608 hφ hacc)
        shapeCasts_S2x72x4608_S2x72x72x64 (ix4 n h2 w2 q)
      = max (Y n.val (2 * h2.val) (2 * w2.val + q.val / 32) (q.val % 32))
            (Y n.val (2 * h2.val + 1) (2 * w2.val + q.val / 32) (q.val % 32)) := by
  have row : ∀ a : Fin 2, shapeCast S2x72x2x4608 y shapeCasts_S288x4608_S2x72x2x4608 (ix4 n h2 a ⟨w2.val * 64 + q.val, by omega⟩)
      = Y n.val (2 * h2.val + a.val) (2 * w2.val + q.val / 32) (q.val % 32) := fun a =>
    (shapeCast_apply y _ _ (ix2 ⟨n.val * 144 + (2 * h2.val + a.val), by omega⟩ ⟨w2.val * 64 + q.val, by omega⟩) (by
      rw [Shape.rowMajor_val_two, Shape.rowMajor_val_four]
      show (n.val * 144 + (2 * h2.val + a.val)) * 4608 + (w2.val * 64 + q.val)
        = ((n.val * 72 + h2.val) * 2 + a.val) * 4608 + (w2.val * 64 + q.val)
      omega)).trans ((hy n ⟨2 * h2.val + a.val, by omega⟩ _ _ rfl).trans (by
        show Y _ _ ((w2.val * 64 + q.val) / 32) ((w2.val * 64 + q.val) % 32) = _
        rw [show (w2.val * 64 + q.val) / 32 = 2 * w2.val + q.val / 32 by omega,
          show (w2.val * 64 + q.val) % 32 = q.val % 32 by omega]))
  refine (shapeCast_apply _ _ _ (ix3 n h2 ⟨w2.val * 64 + q.val, by omega⟩) (by
    rw [Shape.rowMajor_val_three, Shape.rowMajor_val_four]
    show (n.val * 72 + h2.val) * 4608 + (w2.val * 64 + q.val) = ((n.val * 72 + h2.val) * 72 + w2.val) * 64 + q.val
    omega)).trans ?_
  exact (maxpair_apply _ _ _ _ ofBits_ninf_bf16 _ rfl (ix4 n h2 0 _) (ix4 n h2 1 _) (eq_ix4 _) (eq_ix4 _)).trans (congrArg₂ max (row 0) (row 1))

end KiPay1

theorem pay1_apply (v1 v8 v15 : S2x144x146.Idx → EReal) (v4 v11 v18 : S1x146x4608.Idx → EReal) (v22 : S1x4608.Idx → EReal)
    (P : Act) (K : Ker) (B : ℕ → EReal)
    (h1 : ∀ (n : Fin 2) (h : Fin 144) (w' : Fin 146), v1 (ix3 n h w') = P n.val (h.val + 0) w'.val 0)
    (h8 : ∀ (n : Fin 2) (h : Fin 144) (w' : Fin 146), v8 (ix3 n h w') = P n.val (h.val + 1) w'.val 0)
    (h15 : ∀ (n : Fin 2) (h : Fin 144) (w' : Fin 146), v15 (ix3 n h w') = P n.val (h.val + 2) w'.val 0)
    (h4 : ∀ (w' : Fin 146) (l : Fin 4608), v4 (ix3 0 w' l) = band K 0 w'.val l.val)
    (h11 : ∀ (w' : Fin 146) (l : Fin 4608), v11 (ix3 0 w' l) = band K 1 w'.val l.val)
    (h18 : ∀ (w' : Fin 146) (l : Fin 4608), v18 (ix3 0 w' l) = band K 2 w'.val l.val)
    (h22 : ∀ l : Fin 4608, v22 (ix2 0 l) = B (l.val % 32))
    (n : Fin 2) (h2 : Fin 72) (w2 : Fin 72) (q : Fin 64) :
    k0_pay1 (F := Ideal) v1 v4 v8 v11 v15 v18 v22 (ix4 n h2 w2 q)
      = max (relu (convP 1 P K B n.val (2 * h2.val) (2 * w2.val + q.val / 32) (q.val % 32)))
            (relu (convP 1 P K B n.val (2 * h2.val + 1) (2 * w2.val + q.val / 32) (q.val % 32))) := by
  unfold k0_pay1
  refine KiPay1.rowmax_apply _ (fun n i w c => relu (convP 1 P K B n i w c)) (fun n i l r hr => ?_) _ _ n h2 w2 q
  refine (congrArg₂ max (congrArg₂ (· + ·) (congrArg₂ (· + ·) (congrArg₂ (· + ·) (congrArg₂ (· + ·) Ideal.ofBits_zero_f32
    (KiPay1.prod_apply v1 v4 P K 0 h1 h4 n i r hr l)) (KiPay1.prod_apply v8 v11 P K 1 h8 h11 n i r hr l))
    (KiPay1.prod_apply v15 v18 P K 2 h15 h18 n i r hr l)) ((bias_apply v22 _ _ _ r l).trans (h22 l))) Ideal.ofBits_zero_f32).trans ?_
  obtain ⟨w, c, hw, hc, hl⟩ : ∃ w c, w < 144 ∧ c < 32 ∧ l.val = w * 32 + c :=
    ⟨l.val / 32, l.val % 32, by omega, by omega, by omega⟩
  rw [hl, show (w * 32 + c) / 32 = w by omega, show (w * 32 + c) % 32 = c by omega, zero_add, band_sum P K n.val i.val w c hw hc]
  rfl

end Cert.KernelIdeal.Hand

end
-- ==== Proof.KiPay2.lean ====
/-
  The second payload of the convolution stack at an index: the larger of the two channel halves of the first layer, the
  3x3 convolution of its zero-bordered image with bias and rectifier, and the maximum over each pair of columns.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.KiConv
import proofs.«103448_g2000407080750749_pallasbulk_1140_2_alg».proof.Proof.KiPayLib
import proofs.«103448_g2000407080750749_pallasbulk_1140_2_alg».proof.Proof.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec KiPayLib
open Idealize.ShloMosaic Idealize.ShloMosaic.TcCoe Idealize.ShloMosaic.ValueIdx
open scoped BigOperators

namespace KiPay2

/-- The larger of channels `c` and `c + 32` of the 64-channel input. -/
theorem pooled_apply (v32 : S2x72x72x64.Idx → EReal)
    (hs0 : S2x72x72x64.Slices ![0, 0, 0, 0] S2x72x72x32) (hs1 : S2x72x72x64.Slices ![0, 0, 0, 32] S2x72x72x32)
    (n : Fin 2) (h w : Fin 72) (c : Fin 32) :
    maximumf (F := Ideal) (φ := .bf16) (extractStridedSlice S2x72x72x32 ![0, 0, 0, 0] v32 hs0)
        (extractStridedSlice S2x72x72x32 ![0, 0, 0, 32] v32 hs1) (ix4 n h w c)
      = max (v32 (ix4 n h w ⟨c.val, by omega⟩)) (v32 (ix4 n h w ⟨c.val + 32, by omega⟩)) :=
  congrArg₂ max
    (extractStridedSlice_apply _ _ _ _ _ fun ax => by
      match ax with
      | ⟨0, _⟩ | ⟨1, _⟩ | ⟨2, _⟩ | ⟨3, _⟩ => exact (Nat.zero_add _).symm)
    (extractStridedSlice_apply _ _ _ _ _ fun ax => by
      match ax with
      | ⟨0, _⟩ | ⟨1, _⟩ | ⟨2, _⟩ => exact (Nat.zero_add _).symm
      | ⟨3, _⟩ => exact Nat.add_comm _ _)

/-- The flat rows `(72 n + h) 72 + w` regrouped by pairs of rows and of columns, and the larger of each pair of columns. -/
theorem colmax_apply (y : FVec Ideal S10368x64 .bf16) (Y : Act)
    (hy : ∀ (n : Fin 2) (h w : Fin 72) (d : Fin 64) (r : Fin 10368), r.val = (n.val * 72 + h.val) * 72 + w.val →
      y (ix2 r d) = Y n.val h.val w.val d.val)
    (hφ : FKind.Formats .bf16) (hacc : (0xFF80#16 : BitVec 16) = FKind.maximumf.neutral .bf16 hφ)
    (n : Fin 2) (h2 : Fin 36) (i : Fin 2) (w2 : Fin 36) (d : Fin 64) :
    multiReduction .maximumf [4] S2x36x2x36x64 (shapeCast S2x36x2x36x2x64 y shapeCasts_S10368x64_S2x36x2x36x2x64) 0xFF80#16
        reduces_S2x36x2x36x2x64_S2x36x2x36x64 hφ hacc (ix5 n h2 i w2 d)
      = max (Y n.val (2 * h2.val + i.val) (2 * w2.val) d.val) (Y n.val (2 * h2.val + i.val) (2 * w2.val + 1) d.val) := by
  have key : ∀ j : Fin 2, shapeCast S2x36x2x36x2x64 y shapeCasts_S10368x64_S2x36x2x36x2x64 (ix6 n h2 i w2 j d)
      = Y n.val (2 * h2.val + i.val) (2 * w2.val + j.val) d.val := fun j =>
    (shapeCast_apply y _ _ (ix2 ⟨(n.val * 72 + (2 * h2.val + i.val)) * 72 + (2 * w2.val + j.val), by omega⟩ d) (by
      rw [Shape.rowMajor_val_six, Shape.rowMajor_val_two]
      show ((n.val * 72 + (2 * h2.val + i.val)) * 72 + (2 * w2.val + j.val)) * 64 + d.val
        = ((((n.val * 36 + h2.val) * 2 + i.val) * 36 + w2.val) * 2 + j.val) * 64 + d.val
      omega)).trans (hy n ⟨2 * h2.val + i.val, by omega⟩ ⟨2 * w2.val + j.val, by omega⟩ d _ rfl)
  exact (maxpair_apply _ _ _ _ ofBits_ninf_bf16 _ rfl (ix6 n h2 i w2 0 d) (ix6 n h2 i w2 1 d) (eq_ix6 _) (eq_ix6 _)).trans
    (congrArg₂ max (key 0) (key 1))

end KiPay2

theorem pay2_apply (v32 : S2x72x72x64.Idx → EReal) (v47 v53 v59 : S1x96x64.Idx → EReal) (v63 : S1x64.Idx → EReal)
    (A : Act) (K : Ker) (B : ℕ → EReal)
    (h32 : ∀ (n : Fin 2) (h w : Fin 72) (c : Fin 32),
      max (v32 (ix4 n h w ⟨c.val, by omega⟩)) (v32 (ix4 n h w ⟨c.val + 32, by omega⟩)) = A n.val h.val w.val c.val)
    (h47 : ∀ (r : Fin 96) (d : Fin 64), v47 (ix3 0 r d) = K (r.val / 32) 0 (r.val % 32) d.val)
    (h53 : ∀ (r : Fin 96) (d : Fin 64), v53 (ix3 0 r d) = K (r.val / 32) 1 (r.val % 32) d.val)
    (h59 : ∀ (r : Fin 96) (d : Fin 64), v59 (ix3 0 r d) = K (r.val / 32) 2 (r.val % 32) d.val)
    (h63 : ∀ d : Fin 64, v63 (ix2 0 d) = B d.val)
    (n : Fin 2) (h2 : Fin 36) (i : Fin 2) (w2 : Fin 36) (d : Fin 64) :
    k0_pay2 (F := Ideal) v32 v47 v53 v59 v63 (ix5 n h2 i w2 d)
      = max (act 72 72 32 A K B n.val (2 * h2.val + i.val) (2 * w2.val) d.val)
            (act 72 72 32 A K B n.val (2 * h2.val + i.val) (2 * w2.val + 1) d.val) := by
  unfold k0_pay2
  exact KiPay2.colmax_apply _ (act 72 72 32 A K B) (fun n h w d r hr =>
    actrow_apply (N := 2) (H := 72) (W := 72) (C := 32) dot_S10368x96_S96x64_S10368x64_1_0_0_1_n_n rfl (by omega) _ v47 v53 v59 v63
      _ _ _ _ _ _ _ _ _ (padded 72 72 A) K B
      (stack3_apply (C := 32) rfl (by omega) _ _ _ _ _ (padded 72 72 A)
        (bordered_apply _ ofBits_zero_bf16 _ _ _ A fun n h w c => (KiPay2.pooled_apply v32 _ _ n h w c).trans (h32 n h w c)))
      h47 h53 h59 h63 n h w r hr d) _ _ n h2 i w2 d

end Cert.KernelIdeal.Hand

end
-- ==== Proof.KiPay3.lean ====
/-
  The third payload of the convolution stack at an index: the larger of each pair of rows of the second layer, the 3x3
  convolution of its zero-bordered image with bias and rectifier, the 2x2 maximum, and columns and channels laid on one
  axis, lane `128 w + d`.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.KiConv
import proofs.«103448_g2000407080750749_pallasbulk_1140_2_alg».proof.Proof.KiPayLib
import proofs.«103448_g2000407080750749_pallasbulk_1140_2_alg».proof.Proof.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec KiPayLib
open Idealize.ShloMosaic Idealize.ShloMosaic.TcCoe Idealize.ShloMosaic.ValueIdx
open scoped BigOperators

namespace KiPay3

/-- The flat rows `(36 n + y) 36 + x` regrouped by pairs, the 2x2 maximum, and columns and channels on one axis. -/
theorem pool_apply (x108 : FVec Ideal S2592x128 .bf16) (Y : Act) (hφ : FKind.Formats .bf16)
    (hacc : (0xFF80#16 : BitVec 16) = FKind.maximumf.neutral .bf16 hφ) (hφ' : FKind.Formats .bf16)
    (hacc' : (0xFF80#16 : BitVec 16) = FKind.maximumf.neutral .bf16 hφ')
    (hx : ∀ (n : Fin 2) (y x : Fin 36) (d : Fin 128) (r : Fin 2592), r.val = (n.val * 36 + y.val) * 36 + x.val →
      x108 (ix2 r d) = Y n.val y.val x.val d.val)
    (n : Fin 2) (h : Fin 18) (l : Fin 2304) :
    shapeCast S2x18x2304
        (multiReduction .maximumf [2] S2x18x18x128
          (multiReduction .maximumf [4] S2x18x2x18x128
            (shapeCast S2x18x2x18x2x128 x108 shapeCasts_S2592x128_S2x18x2x18x2x128)
            0xFF80#16 reduces_S2x18x2x18x2x128_S2x18x2x18x128 hφ hacc)
          0xFF80#16 reduces_S2x18x2x18x128_S2x18x18x128 hφ' hacc')
        shapeCasts_S2x18x18x128_S2x18x2304 (ix3 n h l)
      = pool Y n.val h.val (l.val / 128) (l.val % 128) := by
  have ent : ∀ (a b : Fin 2) (w : Fin 18) (d : Fin 128),
      shapeCast S2x18x2x18x2x128 x108 shapeCasts_S2592x128_S2x18x2x18x2x128 (ix6 n h a w b d)
        = Y n.val (2 * h.val + a.val) (2 * w.val + b.val) d.val := fun a b w d =>
    (shapeCast_apply x108 _ _ (ix2 ⟨(n.val * 36 + (2 * h.val + a.val)) * 36 + (2 * w.val + b.val), by omega⟩ d) (by
      rw [Shape.rowMajor_val_six, Shape.rowMajor_val_two]
      show ((n.val * 36 + (2 * h.val + a.val)) * 36 + (2 * w.val + b.val)) * 128 + d.val
        = ((((n.val * 18 + h.val) * 2 + a.val) * 18 + w.val) * 2 + b.val) * 128 + d.val
      omega)).trans (hx n ⟨2 * h.val + a.val, by omega⟩ ⟨2 * w.val + b.val, by omega⟩ d _ rfl)
  refine (shapeCast_apply _ _ _ (ix4 n h ⟨l.val / 128, by omega⟩ ⟨l.val % 128, by omega⟩) (by
    rw [Shape.rowMajor_val_four, Shape.rowMajor_val_three]
    show ((n.val * 18 + h.val) * 18 + l.val / 128) * 128 + l.val % 128 = (n.val * 18 + h.val) * 2304 + l.val
    omega)).trans ?_
  refine (maxpair_apply _ _ _ _ ofBits_ninf_bf16 _ rfl (ix5 n h 0 _ _) (ix5 n h 1 _ _) (eq_ix5 _) (eq_ix5 _)).trans ?_
  refine (congrArg₂ max (maxpair_apply _ _ _ _ ofBits_ninf_bf16 _ rfl (ix6 n h 0 _ 0 _) (ix6 n h 0 _ 1 _) (eq_ix6 _) (eq_ix6 _))
    (maxpair_apply _ _ _ _ ofBits_ninf_bf16 _ rfl (ix6 n h 1 _ 0 _) (ix6 n h 1 _ 1 _) (eq_ix6 _) (eq_ix6 _))).trans ?_
  exact congrArg₂ max (congrArg₂ max (ent 0 0 _ _) (ent 0 1 _ _)) (congrArg₂ max (ent 1 0 _ _) (ent 1 1 _ _))

end KiPay3

theorem pay3_apply (v72 : S2x36x2x36x64.Idx → EReal) (v85 v91 v97 : S1x192x128.Idx → EReal) (v101 : S1x128.Idx → EReal)
    (A : Act) (K : Ker) (B : ℕ → EReal)
    (h72 : ∀ (n : Fin 2) (h w : Fin 36) (d : Fin 64), max (v72 (ix5 n h 0 w d)) (v72 (ix5 n h 1 w d)) = A n.val h.val w.val d.val)
    (h85 : ∀ (r : Fin 192) (d : Fin 128), v85 (ix3 0 r d) = K (r.val / 64) 0 (r.val % 64) d.val)
    (h91 : ∀ (r : Fin 192) (d : Fin 128), v91 (ix3 0 r d) = K (r.val / 64) 1 (r.val % 64) d.val)
    (h97 : ∀ (r : Fin 192) (d : Fin 128), v97 (ix3 0 r d) = K (r.val / 64) 2 (r.val % 64) d.val)
    (h101 : ∀ d : Fin 128, v101 (ix2 0 d) = B d.val)
    (n : Fin 2) (h : Fin 18) (l : Fin 2304) :
    k0_pay3 (F := Ideal) v72 v85 v91 v97 v101 (ix3 n h l) = layer 36 36 64 A K B n.val h.val (l.val / 128) (l.val % 128) := by
  unfold k0_pay3
  exact KiPay3.pool_apply _ (act 36 36 64 A K B) _ _ _ _ (fun n y x d r hr =>
    actrow_apply (N := 2) (H := 36) (W := 36) (C := 64) dot_S2592x192_S192x128_S2592x128_1_0_0_1_n_n rfl (by omega) _ v85 v91 v97 v101
      _ _ _ _ _ _ _ _ _ (padded 36 36 A) K B
      (stack3_apply (C := 64) rfl (by omega) _ _ _ _ _ (padded 36 36 A)
        (bordered_apply _ ofBits_zero_bf16 _ _ _ A fun n y x c =>
          (maxpair_apply v72 _ _ _ ofBits_ninf_bf16 (ix4 n y x c) rfl (ix5 n y 0 x c) (ix5 n y 1 x c) (eq_ix5 _) (eq_ix5 _)).trans (h72 n y x c)))
      h85 h91 h97 h101 n y x r hr d) n h l

end Cert.KernelIdeal.Hand

end
-- ==== Proof.KiStackValue.lean ====
/-
  The three convolution layers as a function of the whole arrays: grid point `t` takes images `2t` and `2t + 1`, every
  other operand whole, and leaves their three layers in block `t` of the output array, lane `128 w + d` of row `h`.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.ValueLib
import proofs.«103448_g2000407080750749_pallasbulk_1140_2_alg».proof.Proof.KiConv
import proofs.«103448_g2000407080750749_pallasbulk_1140_2_alg».proof.Proof.KiPay1
import proofs.«103448_g2000407080750749_pallasbulk_1140_2_alg».proof.Proof.KiPay2
import proofs.«103448_g2000407080750749_pallasbulk_1140_2_alg».proof.Proof.KiPay3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

namespace KiStackValue

/-- A load of the bordered image block shifted down by `dy` rows reads row `h + dy`. -/
theorem ld_rows (x0 : Vec Ideal S2x146x146 .bf16) (Pb : Act)
    (hx0 : ∀ (n : Fin 2) (h' w' : Fin 146), x0 (ix3 n h' w') = Pb n.val h'.val w'.val 0) (dy : ℕ)
    (inb : ∀ a, (![0, dy, 0] : Fin 3 → ℕ) a + S2x144x146.size a ≤ S2x146x146.size a) (n : Fin 2) (h : Fin 144) (w' : Fin 146) :
    View.ld x0 (Rect.unit ![0, dy, 0] S2x144x146.size inb) (ix3 n h w') = Pb n.val (h.val + dy) w'.val 0 := by
  have h1 : dy + 144 ≤ 146 := inb 1
  exact (at_idx x0 (k := ix3 n ⟨h.val + dy, by omega⟩ w') fun a => match a with
    | ⟨0, _⟩ => unit_off 0 _
    | ⟨1, _⟩ => unit_off dy _
    | ⟨2, _⟩ => unit_off 0 _).trans (hx0 _ _ _)

/-- A load of slab `dy` of a stack of three matrices reads that matrix. -/
theorem ld_tap {e : EltTy} {n1 n2 : ℕ} (x : Vec Ideal ⟨3, ![3, n1, n2]⟩ e) (dy : ℕ) (hd : dy < 3)
    (inb : ∀ a, (![dy, 0, 0] : Fin 3 → ℕ) a + (![1, n1, n2] : Fin 3 → ℕ) a ≤ (![3, n1, n2] : Fin 3 → ℕ) a) (r : Fin n1) (d : Fin n2) :
    View.ld x (Rect.unit ![dy, 0, 0] ![1, n1, n2] inb) (ix3 0 r d) = x (ix3 ⟨dy, hd⟩ r d) :=
  at_idx x fun a => match a with
    | ⟨0, _⟩ => rfl
    | ⟨1, _⟩ => unit_off 0 _
    | ⟨2, _⟩ => unit_off 0 _

/-- The first layer before its column maximum, of the blocks. -/
def stack_stage1 (x0 : Vec Ideal S2x146x146 .bf16) (x1 : Vec Ideal S3x146x4608 .bf16) (x2 : Vec Ideal S1x4608 .f32) : FVec Ideal S2x72x72x64 .bf16 :=
  k0_pay1 (View.ld x0 rx0) (View.ld x1 rb0) (View.ld x0 rx1) (View.ld x1 rb1) (View.ld x0 rx2) (View.ld x1 rb2) (View.ld x2 rbias1)

/-- The second layer before its row maximum, of the blocks. -/
def stack_stage2 (x0 : Vec Ideal S2x146x146 .bf16) (x1 : Vec Ideal S3x146x4608 .bf16) (x2 : Vec Ideal S1x4608 .f32) (x3 : Vec Ideal S3x96x64 .bf16)
    (x4 : Vec Ideal S1x64 .f32) : FVec Ideal S2x36x2x36x64 .bf16 :=
  k0_pay2 (stack_stage1 x0 x1 x2) (View.ld x3 rw20) (View.ld x3 rw21) (View.ld x3 rw22) (View.ld x4 rbias2)

section Blocks

variable (x0 : Vec Ideal S2x146x146 .bf16) (x1 : Vec Ideal S3x146x4608 .bf16) (x2 : Vec Ideal S1x4608 .f32) (x3 : Vec Ideal S3x96x64 .bf16)
  (x4 : Vec Ideal S1x64 .f32) (x5 : Vec Ideal S3x192x128 .bf16) (x6 : Vec Ideal S1x128 .f32)
  (Pb : Act) (K1 K2 K3 : Ker) (B1 B2 B3 : ℕ → EReal)
  (hx0 : ∀ (n : Fin 2) (h' w' : Fin 146), x0 (ix3 n h' w') = Pb n.val h'.val w'.val 0)
  (hx1 : ∀ (dy : Fin 3) (w' : Fin 146) (l : Fin 4608), x1 (ix3 dy w' l) = band K1 dy.val w'.val l.val)
  (hx2 : ∀ l : Fin 4608, x2 (ix2 0 l) = B1 (l.val % 32))
  (hx3 : ∀ (dx : Fin 3) (r : Fin 96) (d : Fin 64), x3 (ix3 dx r d) = K2 (r.val / 32) dx.val (r.val % 32) d.val)
  (hx4 : ∀ d : Fin 64, x4 (ix2 0 d) = B2 d.val)
  (hx5 : ∀ (dx : Fin 3) (r : Fin 192) (d : Fin 128), x5 (ix3 dx r d) = K3 (r.val / 64) dx.val (r.val % 64) d.val)
  (hx6 : ∀ d : Fin 128, x6 (ix2 0 d) = B3 d.val)

include hx0 hx1 hx2 in
/-- The first payload of the blocks at an index: bias, rectifier and row-pair maximum of the nine taps. -/
theorem stack_stage1_apply (n : Fin 2) (h2 w2 : Fin 72) (q : Fin 64) :
    stack_stage1 x0 x1 x2 (ix4 n h2 w2 q)
      = max (relu (convP 1 Pb K1 B1 n.val (2 * h2.val) (2 * w2.val + q.val / 32) (q.val % 32)))
            (relu (convP 1 Pb K1 B1 n.val (2 * h2.val + 1) (2 * w2.val + q.val / 32) (q.val % 32))) :=
  pay1_apply _ _ _ _ _ _ _ Pb K1 B1 (ld_rows x0 Pb hx0 0 _) (ld_rows x0 Pb hx0 1 _) (ld_rows x0 Pb hx0 2 _)
    (fun w' l => (ld_tap x1 0 (by decide) _ w' l).trans (hx1 0 w' l)) (fun w' l => (ld_tap x1 1 (by decide) _ w' l).trans (hx1 1 w' l))
    (fun w' l => (ld_tap x1 2 (by decide) _ w' l).trans (hx1 2 w' l))
    (by rw [View.ld_unit_zero (S := S1x4608) zeros2]; exact hx2) n h2 w2 q

include hx0 hx1 hx2 in
/-- The maximum over a column pair of the first payload is the first layer. -/
theorem stack_stage1_pool (n : Fin 2) (h w : Fin 72) (c : Fin 32) :
    max (stack_stage1 x0 x1 x2 (ix4 n h w ⟨c.val, by omega⟩)) (stack_stage1 x0 x1 x2 (ix4 n h w ⟨c.val + 32, by omega⟩))
      = layerP 1 Pb K1 B1 n.val h.val w.val c.val := by
  rw [stack_stage1_apply x0 x1 x2 Pb K1 B1 hx0 hx1 hx2, stack_stage1_apply x0 x1 x2 Pb K1 B1 hx0 hx1 hx2]
  simp only [show c.val / 32 = 0 by omega, show c.val % 32 = c.val by omega, show (c.val + 32) / 32 = 1 by omega,
    show (c.val + 32) % 32 = c.val by omega]
  exact max4_comm _ _ _ _

include hx0 hx1 hx2 hx3 hx4 in
/-- The second payload of the blocks at an index: the second layer before its row-pair maximum. -/
theorem stack_stage2_apply (n : Fin 2) (h2 : Fin 36) (i : Fin 2) (w2 : Fin 36) (d : Fin 64) :
    stack_stage2 x0 x1 x2 x3 x4 (ix5 n h2 i w2 d)
      = max (act 72 72 32 (layerP 1 Pb K1 B1) K2 B2 n.val (2 * h2.val + i.val) (2 * w2.val) d.val)
            (act 72 72 32 (layerP 1 Pb K1 B1) K2 B2 n.val (2 * h2.val + i.val) (2 * w2.val + 1) d.val) :=
  pay2_apply _ _ _ _ _ (layerP 1 Pb K1 B1) K2 B2 (stack_stage1_pool x0 x1 x2 Pb K1 B1 hx0 hx1 hx2)
    (fun r d => (ld_tap x3 0 (by decide) _ r d).trans (hx3 0 r d)) (fun r d => (ld_tap x3 1 (by decide) _ r d).trans (hx3 1 r d))
    (fun r d => (ld_tap x3 2 (by decide) _ r d).trans (hx3 2 r d))
    (by rw [View.ld_unit_zero (S := S1x64) zeros2]; exact hx4) n h2 i w2 d

include hx0 hx1 hx2 hx3 hx4 hx5 hx6 in
/-- The body's stored value at an index: the three layers of the image block. -/
theorem stack0_apply (n : Fin 2) (h : Fin 18) (l : Fin 2304) :
    stack0 (F := Ideal) x0 x1 x2 x3 x4 x5 x6 (ix3 n h l)
      = layer 36 36 64 (layer 72 72 32 (layerP 1 Pb K1 B1) K2 B2) K3 B3 n.val h.val (l.val / 128) (l.val % 128) := by
  show k0_pay3 (stack_stage2 x0 x1 x2 x3 x4) (View.ld x5 rw30) (View.ld x5 rw31) (View.ld x5 rw32) (View.ld x6 rbias3) (ix3 n h l) = _
  exact pay3_apply _ _ _ _ _ (layer 72 72 32 (layerP 1 Pb K1 B1) K2 B2) K3 B3
    (fun n h w d => by
      rw [stack_stage2_apply x0 x1 x2 x3 x4 Pb K1 K2 B1 B2 hx0 hx1 hx2 hx3 hx4, stack_stage2_apply x0 x1 x2 x3 x4 Pb K1 K2 B1 B2 hx0 hx1 hx2 hx3 hx4]
      rfl)
    (fun r d => (ld_tap x5 0 (by decide) _ r d).trans (hx5 0 r d)) (fun r d => (ld_tap x5 1 (by decide) _ r d).trans (hx5 1 r d))
    (fun r d => (ld_tap x5 2 (by decide) _ r d).trans (hx5 2 r d))
    (by rw [View.ld_unit_zero (S := S1x128) zeros2]; exact hx6) n h l

end Blocks

/-- The activations of the images from `s` on; a layer of them is the layer, from `s` on. -/
def stack_fromImage (s : ℕ) (a : Act) : Act := fun n h w c => a (s + n) h w c

theorem layerP_fromImage (C s : ℕ) (p : Act) (k : Ker) (b : ℕ → EReal) :
    layerP C (stack_fromImage s p) k b = stack_fromImage s (layerP C p k b) := rfl

theorem layer_fromImage (H W C s : ℕ) (a : Act) (k : Ker) (b : ℕ → EReal) :
    layer H W C (stack_fromImage s a) k b = stack_fromImage s (layer H W C a k b) := rfl

/-- The image block and the output block move with the grid point on the image axis; every other block is its whole array. -/
theorem index0 : ∀ t : Fin cfg0.N,
    (win0_0.index t (0 : Fin 3) = t.val ∧ win0_0.index t (1 : Fin 3) = 0 ∧ win0_0.index t (2 : Fin 3) = 0)
    ∧ (∀ a : Fin 3, win0_1.index t a = 0) ∧ (∀ a : Fin 2, win0_2.index t a = 0) ∧ (∀ a : Fin 3, win0_3.index t a = 0)
    ∧ (∀ a : Fin 2, win0_4.index t a = 0) ∧ (∀ a : Fin 3, win0_5.index t a = 0) ∧ (∀ a : Fin 2, win0_6.index t a = 0)
    ∧ win0_7.index t (0 : Fin 3) = t.val ∧ win0_7.index t (1 : Fin 3) = 0 ∧ win0_7.index t (2 : Fin 3) = 0 :=
  (by decide +kernel : ∀ t : Fin grid0.N, _)

/-- The three layers of the images, laid out as the output array: image, row, lane `128 w + d`. -/
def stackG (P : Act) (K1 K2 K3 : Ker) (B1 B2 B3 : ℕ → EReal) : S256x18x2304.Idx → EReal := fun i =>
  layer 36 36 64 (layer 72 72 32 (layerP 1 P K1 B1) K2 B2) K3 B3 (i 0).val (i 1).val ((i 2).val / 128) ((i 2).val % 128)

theorem stackG_at (P : Act) (K1 K2 K3 : Ker) (B1 B2 B3 : ℕ → EReal) (i : S256x18x2304.Idx) (a b d : ℕ)
    (h0 : (i 0).val = a) (h1 : (i 1).val = b) (h2 : (i 2).val = d) :
    stackG P K1 K2 K3 B1 B2 B3 i
      = layer 36 36 64 (layer 72 72 32 (layerP 1 P K1 B1) K2 B2) K3 B3 a b (d / 128) (d % 128) := by
  unfold stackG; rw [h0, h1, h2]

/-- Image `n` of the output array is in the block of grid point `n / 2`. -/
theorem cover0_7_arr (i : S256x18x2304.Idx) :
    ∃ t : Fin cfg0.N, (cfg0.win 7).flush t = true ∧ i ∈ ((cfg0.win 7).blk t).view.set := by
  have h0 : (i 0).val < 256 := (i 0).isLt
  have h1 : (i 1).val < 18 := (i 1).isLt
  have h2 : (i 2).val < 2304 := (i 2).isLt
  have hN : cfg0.N = 128 := N_0
  obtain ⟨t, ht⟩ : ∃ t : Fin cfg0.N, t.val = (i 0).val / 2 := ⟨⟨(i 0).val / 2, by omega⟩, rfl⟩
  obtain ⟨-, -, -, -, -, -, -, e0, e1, e2⟩ := index0 t
  refine ⟨t, flush0_7 _, ?_⟩
  show i ∈ ((View.whole main_v60).slice (win0_7.rect t)).set
  rw [View.set_slice_whole, Rect.mem_set_unit]
  intro a
  match a with
  | ⟨0, _⟩ => show win0_7.index t (0 : Fin 3) * 2 ≤ (i 0).val ∧ (i 0).val < win0_7.index t (0 : Fin 3) * 2 + 2; omega
  | ⟨1, _⟩ => exact blk_mem0 18 _ e1 h1
  | ⟨2, _⟩ => exact blk_mem0 2304 _ e2 h2

section Arrays

variable (c : Dev nD) (P : Act) (K1 K2 K3 : Ker) (B1 B2 B3 : ℕ → EReal)
  (hx : ∀ (n : Fin 256) (h' w' : Fin 146), (V c main_v2 : S256x146x146.Idx → EReal) (ix3 n h' w') = P n.val h'.val w'.val 0)
  (hband : ∀ (dy : Fin 3) (w' : Fin 146) (l : Fin 4608), (V c main_v47 : S3x146x4608.Idx → EReal) (ix3 dy w' l) = band K1 dy.val w'.val l.val)
  (hb1 : ∀ l : Fin 4608, (V c main_v51 : S1x4608.Idx → EReal) (ix2 0 l) = B1 (l.val % 32))
  (hw2 : ∀ (dx : Fin 3) (r : Fin 96) (d : Fin 64), (V c main_v54 : S3x96x64.Idx → EReal) (ix3 dx r d) = K2 (r.val / 32) dx.val (r.val % 32) d.val)
  (hb2 : ∀ d : Fin 64, (V c main_v58 : S1x64.Idx → EReal) (ix2 0 d) = B2 d.val)
  (hw3 : ∀ (dx : Fin 3) (r : Fin 192) (d : Fin 128), (V c main_v57 : S3x192x128.Idx → EReal) (ix3 dx r d) = K3 (r.val / 64) dx.val (r.val % 64) d.val)
  (hb3 : ∀ d : Fin 128, (V c main_v59 : S1x128.Idx → EReal) (ix2 0 d) = B3 d.val)

include hx hband hb1 hw2 hb2 hw3 hb3 in
/-- The body's stored value at grid point `t`: the three layers of images `2t` and `2t + 1`. -/
theorem stack_at (t : Fin cfg0.N) (n : Fin 2) (h : Fin 18) (l : Fin 2304) :
    stack0 (F := Ideal) (iblk0 V c 0 t) (iblk0 V c 1 t) (iblk0 V c 2 t) (iblk0 V c 3 t) (iblk0 V c 4 t) (iblk0 V c 5 t) (iblk0 V c 6 t) (ix3 n h l)
      = layer 36 36 64 (layer 72 72 32 (layerP 1 P K1 B1) K2 B2) K3 B3 (t.val * 2 + n.val) h.val (l.val / 128) (l.val % 128) := by
  have ht : t.val < 128 := Nat.lt_of_lt_of_eq t.isLt (N_0 : cfg0.N = 128)
  obtain ⟨⟨e0, e1, e2⟩, z1, z2, z3, z4, z5, z6, -⟩ := index0 t
  refine (stack0_apply _ _ _ _ _ _ _ (stack_fromImage (t.val * 2) P) K1 K2 K3 B1 B2 B3 (fun n h' w' => ?_)
    (fun dy w' l => (at_idx (V c main_v47 : S3x146x4608.Idx → EReal) fun a => win0_1.rect_emb_val_of_index_zero t a (z1 a) _).trans (hband dy w' l))
    (fun l => (at_idx (V c main_v51 : S1x4608.Idx → EReal) fun a => win0_2.rect_emb_val_of_index_zero t a (z2 a) _).trans (hb1 l))
    (fun dx r d => (at_idx (V c main_v54 : S3x96x64.Idx → EReal) fun a => win0_3.rect_emb_val_of_index_zero t a (z3 a) _).trans (hw2 dx r d))
    (fun d => (at_idx (V c main_v58 : S1x64.Idx → EReal) fun a => win0_4.rect_emb_val_of_index_zero t a (z4 a) _).trans (hb2 d))
    (fun dx r d => (at_idx (V c main_v57 : S3x192x128.Idx → EReal) fun a => win0_5.rect_emb_val_of_index_zero t a (z5 a) _).trans (hw3 dx r d))
    (fun d => (at_idx (V c main_v59 : S1x128.Idx → EReal) fun a => win0_6.rect_emb_val_of_index_zero t a (z6 a) _).trans (hb3 d)) n h l).trans ?_
  swap
  · rw [layerP_fromImage, layer_fromImage, layer_fromImage]
    rfl
  refine (at_idx (V c main_v2 : S256x146x146.Idx → EReal) (k := ix3 ⟨t.val * 2 + n.val, by omega⟩ h' w') fun a => ?_).trans (hx _ h' w')
  match a with
  | ⟨0, _⟩ => exact blk_off t.val 2 n.val e0
  | ⟨1, _⟩ => exact blk_off0 146 h'.val e1
  | ⟨2, _⟩ => exact blk_off0 146 w'.val e2

include hx hband hb1 hw2 hb2 hw3 hb3 in
/-- What grid point `t` writes back is block `t` of the three layers of the images. -/
theorem flushed0_7_eq (t : Fin cfg0.N) :
    (dat0 V c).flushed 7 t = ((cfg0.win 7).blk t).view.read (Elt Ideal) (stackG P K1 K2 K3 B1 B2 B3) := by
  show (cfg0.win 7).cut (grid0.coords t) ((dat0 V c).after 7 t) = _
  rw [after0_7]
  unfold out0_7
  rw [View.canon_unit_zero zeros3]
  obtain ⟨-, -, -, -, -, -, -, e0, e1, e2⟩ := index0 t
  funext y
  obtain ⟨n, h, l, rfl⟩ : ∃ (n : Fin 2) (h : Fin 18) (l : Fin 2304), y = ix3 n h l :=
    ⟨y 0, y 1, y 2, eq_ix3 (n0 := 2) (n1 := 18) (n2 := 2304) y⟩
  refine (stack_at V c P K1 K2 K3 B1 B2 B3 hx hband hb1 hw2 hb2 hw3 hb3 t n h l).trans ?_
  show _ = stackG P K1 K2 K3 B1 B2 B3 (((cfg0.win 7).blk t).view.emb (ix3 n h l))
  refine (stackG_at P K1 K2 K3 B1 B2 B3 _ _ _ _ ?_ ?_ ?_).symm
  · exact blk_off t.val 2 n.val e0
  · exact blk_off0 18 h.val e1
  · exact blk_off0 2304 l.val e2

include hx hband hb1 hw2 hb2 hw3 hb3 in
theorem _root_.Cert.KernelIdeal.Hand.arrAt0_value (n : Fin 256) (h : Fin 18) (l : Fin 2304) :
    ((dat0 V c).arrAt 7 cfg0.N : S256x18x2304.Idx → EReal) (ix3 n h l)
      = layer 36 36 64 (layer 72 72 32 (layerP 1 P K1 B1) K2 B2) K3 B3 n.val h.val (l.val / 128) (l.val % 128) :=
  congrFun ((dat0 V c).arrAt_eq_of_cover 7 (stackG P K1 K2 K3 B1 B2 B3)
    (fun t _ => flushed0_7_eq V c P K1 K2 K3 B1 B2 B3 hx hband hb1 hw2 hb2 hw3 hb3 t) cover0_7_arr) (ix3 n h l)

end Arrays

end KiStackValue

end Cert.KernelIdeal.Hand

end
-- ==== Proof.FcValueLib.lean ====
/-
  The first dense layer's sum over its 41472 inputs, cut into consecutive runs of equal length.
-/
import proofs.«103448_g2000407080750749_pallasbulk_1140_2_alg».proof.Proof.ValueLib

noncomputable section

namespace Cert.Spec

open scoped BigOperators

/-- Run `s` (`L` inputs) of the first dense layer's sum for image `n` and hidden unit `128 h + j`. -/
def run (L : ℕ) (Fl W1 : ℕ → ℕ → EReal) (h s n j : ℕ) : EReal :=
  ∑ k ∈ Finset.range L, Fl n (s * L + k) * W1 (s * L + k) (h * 128 + j)

/-- `R` runs of `L` make the whole sum. -/
theorem runs_sum (R L : ℕ) (Fl W1 : ℕ → ℕ → EReal) (h n j : ℕ) :
    ∑ s ∈ Finset.range R, run L Fl W1 h s n j = ∑ k ∈ Finset.range (R * L), Fl n k * W1 k (h * 128 + j) :=
  (chunk_sum R L fun k => Fl n k * W1 k (h * 128 + j)).symm

end Cert.Spec

end
-- ==== Proof.KiFcValue.lean ====
/-
  The head as a function of the whole arrays: after the last point of row `h` of the grid the output array's block `h`
  holds half `h` of the second dense layer over the rectified hidden units, whose sums are gathered four runs a row.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.FcValueLib
import proofs.«103448_g2000407080750749_pallasbulk_1140_2_alg».proof.Proof.KiFc
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat)
open scoped BigOperators

namespace KiFcValue

theorem pay1_apply (i : S256x128.Idx) : (k1_pay1 (F := Ideal)) i = (0 : EReal) := by
  unfold k1_pay1
  simp only [shapeCast_self]
  exact Ideal.ofBits_zero_f32

theorem pay2_apply (v3 : FVec Ideal S256x128 .f32) (v4 : FVec Ideal S256x10368 .bf16) (v6 : FVec Ideal S10368x128 .bf16)
    (n : Fin 256) (j : Fin 128) :
    k1_pay2 (F := Ideal) v3 v4 v6 (ix2 n j) = v3 (ix2 n j) + ∑ k : Fin 10368, v4 (ix2 n k) * v6 (ix2 k j) := by
  unfold k1_pay2
  simp only [shapeCast_self]
  exact congrArg (v3 (ix2 n j) + ·) (matmul_zero_apply dot_S256x10368_S10368x128_S256x128_1_0_0_1_n_n rfl v4 v6 n j)

theorem pay3_apply (v15 : FVec Ideal S256x128 .f32) (v16 : FVec Ideal S1x128 .f32) (v23 : FVec Ideal S128x3 .bf16)
    (u : Fin 1) (n : Fin 256) (q : Fin 3) :
    k1_pay3 (F := Ideal) v15 v16 v23 (ix3 u n q)
      = ∑ j : Fin 128, relu (v15 (ix2 n j) + v16 (ix2 (0 : Fin 1) j)) * v23 (ix2 j q) := by
  unfold k1_pay3
  simp only [shapeCast_self]
  refine (shapeCast_ab_1ab_apply _ _ u n q).trans ?_
  refine (matmul_zero_apply dot_S256x128_S128x3_S256x3_1_0_0_1_n_n rfl _ v23 n q).trans ?_
  refine Finset.sum_congr rfl fun j _ => congrArg (· * v23 (ix2 j q)) ?_
  show max (v15 (ix2 n j) + broadcastTo S256x128 v16 broadcasts_S1x128_S256x128 (ix2 n j)) (Ideal.ofBits .f32 0x00000000#32) = _
  rw [broadcastTo_1b_ab_apply, Ideal.ofBits_zero_f32]
  rfl

/-- Grid point `t` is point `t % 4` of row `t / 4`; each window's block index is made of these. -/
theorem index1 : ∀ t : Fin cfg1.N,
    (win1_0.index t 0 = 0 ∧ win1_0.index t 1 = t.val % 4) ∧ (win1_1.index t 0 = t.val % 4 ∧ win1_1.index t 1 = t.val / 4)
    ∧ (win1_2.index t 0 = 0 ∧ win1_2.index t 1 = t.val / 4) ∧ (win1_3.index t 0 = t.val / 4 ∧ win1_3.index t 1 = 0)
    ∧ win1_4.index t 0 = t.val / 4 ∧ win1_4.index t 1 = 0 ∧ win1_4.index t 2 = 0 :=
  (by decide +kernel : ∀ t : Fin grid1.N, _)

variable (V : (c : Dev nD) → (b : Ref sig .tc) → Buf (Elt Ideal) ((c : Thread nD τ).loc b))
  (c : Dev nD) (Fl W1 : ℕ → ℕ → EReal) (B1 : ℕ → EReal) (W2 : ℕ → ℕ → EReal)
  (ha : ∀ (n : Fin 256) (k : Fin 41472), (V c main_v61 : S256x41472.Idx → EReal) (ix2 n k) = Fl n.val k.val)
  (hw1 : ∀ (k : Fin 41472) (j : Fin 256), (V c main_arg6 : S41472x256.Idx → EReal) (ix2 k j) = W1 k.val j.val)
  (hb1 : ∀ j : Fin 256, (V c main_v62 : S1x256.Idx → EReal) (ix2 0 j) = B1 j.val)
  (hw2 : ∀ (j : Fin 256) (q : Fin 3), (V c main_arg8 : S256x3.Idx → EReal) (ix2 j q) = W2 j.val q.val)

include ha in
/-- The activation block at point `t` is columns `10368 (t % 4) …` of the activations. -/
theorem x_at (t : Fin cfg1.N) (n : Fin 256) (k : Fin 10368) :
    (iblk1 V c 0 t : S256x10368.Idx → EReal) (ix2 n k) = Fl n.val (t.val % 4 * 10368 + k.val) := by
  obtain ⟨⟨e0, e1⟩, -⟩ := index1 t
  have hk := k.isLt
  refine (at_idx (V c main_v61 : S256x41472.Idx → EReal) (k := ix2 n ⟨t.val % 4 * 10368 + k.val, by omega⟩) fun a => ?_).trans (ha _ _)
  match a with
  | ⟨0, _⟩ => exact blk_off0 256 n.val e0
  | ⟨1, _⟩ => exact blk_off (t.val % 4) 10368 k.val e1

include hw1 in
/-- The first weight block is rows `10368 (t % 4) …` and columns `128 (t / 4) …` of the first weights. -/
theorem w1_at (t : Fin cfg1.N) (k : Fin 10368) (j : Fin 128) :
    (iblk1 V c 1 t : S10368x128.Idx → EReal) (ix2 k j) = W1 (t.val % 4 * 10368 + k.val) (t.val / 4 * 128 + j.val) := by
  obtain ⟨-, ⟨e0, e1⟩, -⟩ := index1 t
  have hN : t.val < 8 := lt_of_lt_of_eq t.isLt N_1
  have hk := k.isLt
  have hj := j.isLt
  refine (at_idx (V c main_arg6 : S41472x256.Idx → EReal)
    (k := ix2 ⟨t.val % 4 * 10368 + k.val, by omega⟩ ⟨t.val / 4 * 128 + j.val, by omega⟩) fun a => ?_).trans (hw1 _ _)
  match a with
  | ⟨0, _⟩ => exact blk_off (t.val % 4) 10368 k.val e0
  | ⟨1, _⟩ => exact blk_off (t.val / 4) 128 j.val e1

include hb1 in
/-- The bias block is entries `128 (t / 4) …` of the bias row. -/
theorem b_at (t : Fin cfg1.N) (j : Fin 128) :
    (iblk1 V c 2 t : S1x128.Idx → EReal) (ix2 (0 : Fin 1) j) = B1 (t.val / 4 * 128 + j.val) := by
  obtain ⟨-, -, ⟨e0, e1⟩, -⟩ := index1 t
  have hN : t.val < 8 := lt_of_lt_of_eq t.isLt N_1
  have hj := j.isLt
  refine (at_idx (V c main_v62 : S1x256.Idx → EReal) (k := ix2 0 ⟨t.val / 4 * 128 + j.val, by omega⟩) fun a => ?_).trans (hb1 _)
  match a with
  | ⟨0, _⟩ => exact blk_off0 1 0 e0
  | ⟨1, _⟩ => exact blk_off (t.val / 4) 128 j.val e1

include hw2 in
/-- The second weight block is rows `128 (t / 4) …` of the second weights. -/
theorem w2_at (t : Fin cfg1.N) (j : Fin 128) (q : Fin 3) :
    (iblk1 V c 3 t : S128x3.Idx → EReal) (ix2 j q) = W2 (t.val / 4 * 128 + j.val) q.val := by
  obtain ⟨-, -, -, ⟨e0, e1⟩, -⟩ := index1 t
  have hN : t.val < 8 := lt_of_lt_of_eq t.isLt N_1
  have hj := j.isLt
  refine (at_idx (V c main_arg8 : S256x3.Idx → EReal) (k := ix2 ⟨t.val / 4 * 128 + j.val, by omega⟩ q) fun a => ?_).trans (hw2 _ _)
  match a with
  | ⟨0, _⟩ => exact blk_off (t.val / 4) 128 j.val e0
  | ⟨1, _⟩ => exact blk_off0 3 q.val e1

include ha hw1 in
/-- One accumulating store at point `t` adds run `t % 4` of row `t / 4`'s hidden units. -/
theorem accStep1_apply (t : Fin cfg1.N) (a : Vec Ideal S256x128 .f32) (n : Fin 256) (j : Fin 128) :
    (View.ld (accStep1 a (iblk1 V c 0 t) (iblk1 V c 1 t)) fc1_racc : S256x128.Idx → EReal) (ix2 n j)
      = (View.ld a fc1_racc : S256x128.Idx → EReal) (ix2 n j) + run 10368 Fl W1 (t.val / 4) (t.val % 4) n.val j.val := by
  have ex : View.ld (iblk1 V c 0 t : Vec Ideal S256x10368 .bf16) fc1_rx = iblk1 V c 0 t := View.ld_unit_zero zeros2 _ _
  have ew : View.ld (iblk1 V c 1 t : Vec Ideal S10368x128 .bf16) fc1_rw = iblk1 V c 1 t := View.ld_unit_zero zeros2 _ _
  rw [ld_accStep1]
  refine (pay2_apply _ _ _ n j).trans (congrArg (_ + ·) ?_)
  unfold run
  rw [Finset.sum_range]
  exact Finset.sum_congr rfl fun k _ => congrArg₂ (· * ·) ((congrFun ex (ix2 n k)).trans (x_at V c Fl ha t n k))
    ((congrFun ew (ix2 k j)).trans (w1_at V c W1 hw1 t k j))

include ha hw1 in
/-- After grid point `m` the accumulator holds runs `0 … m % 4` of row `m / 4`'s hidden units. -/
theorem acc_value : ∀ (m : ℕ) (hm : m < cfg1.N) (n : Fin 256) (j : Fin 128),
    (View.ld (accAt1 V c m hm) fc1_racc : S256x128.Idx → EReal) (ix2 n j)
      = ∑ s ∈ Finset.range (m % 4 + 1), run 10368 Fl W1 (m / 4) s n.val j.val := by
  have first : ∀ (m : ℕ) (hm : m < cfg1.N), m % 4 = 0 → ∀ (n : Fin 256) (j : Fin 128),
      (View.ld (accAt1 V c m hm) fc1_racc : S256x128.Idx → EReal) (ix2 n j)
        = ∑ s ∈ Finset.range (m % 4 + 1), run 10368 Fl W1 (m / 4) s n.val j.val := fun m hm h0 n j => by
    have e : accAt1 V c m hm = accStep1 accZero1 (iblk1 V c 0 ⟨m, hm⟩) (iblk1 V c 1 ⟨m, hm⟩) := accAt1_first V c ⟨m, hm⟩ h0
    rw [e]
    refine (accStep1_apply V c Fl W1 ha hw1 ⟨m, hm⟩ accZero1 n j).trans ?_
    rw [ld_accZero1, pay1_apply, zero_add]
    show run 10368 Fl W1 (m / 4) (m % 4) n.val j.val = _
    rw [h0, Finset.sum_range_one]
  intro m
  induction m with
  | zero => exact fun hm => first 0 hm rfl
  | succ m ih =>
    intro hm n j
    by_cases h0 : (m + 1) % 4 = 0
    · exact first _ hm h0 n j
    · have e : accAt1 V c (m + 1) hm
          = accStep1 (accAt1 V c m (Nat.lt_of_succ_lt hm)) (iblk1 V c 0 ⟨m + 1, hm⟩) (iblk1 V c 1 ⟨m + 1, hm⟩) :=
        accAt1_step V c ⟨m + 1, hm⟩ h0
      rw [e]
      refine (accStep1_apply V c Fl W1 ha hw1 ⟨m + 1, hm⟩ _ n j).trans ?_
      rw [ih (Nat.lt_of_succ_lt hm) n j]
      show _ + run 10368 Fl W1 ((m + 1) / 4) ((m + 1) % 4) n.val j.val = _
      rw [show (m + 1) / 4 = m / 4 by omega, show (m + 1) % 4 = m % 4 + 1 by omega, Finset.sum_range_succ _ (m % 4 + 1)]

theorem head1_apply (a : Vec Ideal S256x128 .f32) (b : Vec Ideal S1x128 .f32) (w : Vec Ideal S128x3 .bf16)
    (u : Fin 1) (n : Fin 256) (q : Fin 3) :
    (head1 a b w : S1x256x3.Idx → EReal) (ix3 u n q)
      = ∑ j : Fin 128, relu ((View.ld a fc1_racc : S256x128.Idx → EReal) (ix2 n j) + (b : S1x128.Idx → EReal) (ix2 (0 : Fin 1) j))
          * (w : S128x3.Idx → EReal) (ix2 j q) := by
  have eb : View.ld b fc1_rbias = b := View.ld_unit_zero zeros2 _ _
  have ew : View.ld w fc1_rw2 = w := View.ld_unit_zero zeros2 _ _
  unfold head1
  rw [View.canon_unit_zero zeros3, eb, ew]
  exact pay3_apply _ _ _ u n q

include ha hw1 hb1 hw2 in
/-- The last point of row `t / 4` leaves that half of the second dense layer in the output window. -/
theorem head_at (t : Fin cfg1.N) (h3 : t.val % 4 = 3) (u : Fin 1) (n : Fin 256) (q : Fin 3) :
    (head1 (accAt1 V c t.val t.isLt) (iblk1 V c 2 t) (iblk1 V c 3 t) : S1x256x3.Idx → EReal) (ix3 u n q)
      = half (hiddenF Fl W1 B1) W2 (t.val / 4) n.val q.val := by
  refine (head1_apply _ _ _ u n q).trans ?_
  unfold half
  rw [Finset.sum_range]
  refine Finset.sum_congr rfl fun j _ => ?_
  rw [acc_value V c Fl W1 ha hw1 t.val t.isLt n j, h3, runs_sum 4 10368, b_at V c B1 hb1 t j, w2_at V c W2 hw2 t j q]
  rfl

/-- The output array as a function of its index: half `i 0` of the second dense layer. -/
def headOut : S2x256x3.Idx → EReal := fun i => half (hiddenF Fl W1 B1) W2 (i 0).val (i 1).val (i 2).val

include ha hw1 hb1 hw2 in
theorem flushed1_4_eq (t : Fin cfg1.N) (hf : (cfg1.win 4).flush t = true) :
    (dat1 V c).flushed 4 t = ((cfg1.win 4).blk t).view.read (Elt Ideal) (headOut Fl W1 B1 W2) := by
  obtain ⟨-, -, -, -, e0, e1, e2⟩ := index1 t
  funext y
  obtain ⟨u, n, q, rfl⟩ : ∃ (u : Fin 1) (n : Fin 256) (q : Fin 3), y = ix3 u n q := ⟨y 0, y 1, y 2, eq_ix3 y⟩
  rw [View.read_apply]
  show (dat1 V c).after 4 t (ix3 u n q) = headOut Fl W1 B1 W2 (((cfg1.win 4).blk t).view.emb (ix3 u n q))
  rw [after1_4, head_at V c Fl W1 B1 W2 ha hw1 hb1 hw2 t ((flush1_4 t).mp hf) u n q]
  unfold headOut
  congr 1
  · exact ((blk_off (t.val / 4) 1 u.val e0).trans (by omega)).symm
  · exact (blk_off0 256 n.val e1).symm
  · exact (blk_off0 3 q.val e2).symm

/-- Every index lies in the block of the last point of its row of the grid. -/
theorem cover1_4 (i : S2x256x3.Idx) :
    ∃ t : Fin cfg1.N, (cfg1.win 4).flush t = true ∧ i ∈ ((cfg1.win 4).blk t).view.set := by
  have h0 : (i 0).val < 2 := (i 0).isLt
  have h1 : (i 1).val < 256 := (i 1).isLt
  have h2 : (i 2).val < 3 := (i 2).isLt
  have hN : cfg1.N = 8 := N_1
  obtain ⟨t, ht⟩ : ∃ t : Fin cfg1.N, t.val = 4 * (i 0).val + 3 := ⟨⟨4 * (i 0).val + 3, by omega⟩, rfl⟩
  obtain ⟨-, -, -, -, e0, e1, e2⟩ := index1 t
  refine ⟨t, (flush1_4 t).mpr (by omega), ?_⟩
  show i ∈ ((View.whole main_v63).slice (win1_4.rect t)).set
  rw [View.set_slice_whole, Rect.mem_set_unit]
  intro a
  match a with
  | ⟨0, _⟩ => show win1_4.index t 0 * 1 ≤ (i 0).val ∧ (i 0).val < win1_4.index t 0 * 1 + 1; omega
  | ⟨1, _⟩ => exact blk_mem0 256 _ e1 h1
  | ⟨2, _⟩ => exact blk_mem0 3 _ e2 h2

include ha hw1 hb1 hw2 in
theorem _root_.Cert.KernelIdeal.Hand.arrAt1_value (h : Fin 2) (n : Fin 256) (q : Fin 3) :
    ((dat1 V c).arrAt 4 cfg1.N : S2x256x3.Idx → EReal) (ix3 h n q) = half (hiddenF Fl W1 B1) W2 h.val n.val q.val :=
  congrFun ((dat1 V c).arrAt_eq_of_cover 4 (headOut Fl W1 B1 W2) (flushed1_4_eq V c Fl W1 B1 W2 ha hw1 hb1 hw2) cover1_4)
    (ix3 h n q)

end KiFcValue

end Cert.KernelIdeal.Hand

end
-- ==== Proof.KiBridge.lean ====
/-
  The kernel's program computes the network: the fused region's whole-array value of the operands the host lines lay out is
  the third layer, the head region's is the two halves of the second dense layer, and the last host lines add them and the bias.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.KiRun
import proofs.«103448_g2000407080750749_pallasbulk_1140_2_alg».proof.Proof.KiHostA
import proofs.«103448_g2000407080750749_pallasbulk_1140_2_alg».proof.Proof.KiHostB
import proofs.«103448_g2000407080750749_pallasbulk_1140_2_alg».proof.Proof.KiStackValue
import proofs.«103448_g2000407080750749_pallasbulk_1140_2_alg».proof.Proof.KiFcValue

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ)

local notation "rf" => Proc.devRef (τ := τ) (sig := sig) Proc.tc

abbrev arg (c : Dev nD) (r : Ref sig .tc) : Buf (Elt Ideal) ((c : Thread nD τ).loc r) := m ((c : Thread nD τ).loc r)
abbrev netA3 (c : Dev nD) : Act := Spec.A3 (arg m c main_arg0) (arg m c main_arg1) (arg m c main_arg2) (arg m c main_arg3) (arg m c main_arg4) (arg m c main_arg5) (arg m c main_arg10)
abbrev netHid (c : Dev nD) : ℕ → ℕ → EReal := Spec.Hid (arg m c main_arg0) (arg m c main_arg1) (arg m c main_arg2) (arg m c main_arg3) (arg m c main_arg4) (arg m c main_arg5) (arg m c main_arg6) (arg m c main_arg7) (arg m c main_arg10)

def netOut (c : Dev nD) : S256x3.Idx → EReal := Spec.Out (arg m c main_arg0) (arg m c main_arg1) (arg m c main_arg2) (arg m c main_arg3) (arg m c main_arg4) (arg m c main_arg5) (arg m c main_arg6) (arg m c main_arg7) (arg m c main_arg8) (arg m c main_arg9) (arg m c main_arg10)

-- No item writes an argument array: wherever one is read it holds its launch contents.
theorem W4_launch (c : Dev nD) (r : Ref sig .tc) (h0 : r ∉ hostOps0_W := by decide) (h1 : r ∉ hostOps0_1_W := by decide)
    (h2 : r ∉ hostOps0_2_W := by decide) (h3 : ∀ w, Pipeline.arrRef spec0 w ≠ r := by decide) : W4 m c (rf r) = arg m c r :=
  (W4_of_ne m c r h3).trans <| (StableHlo.after_of_writes_sub hostOps0_2 _ hostOps0_2_writes h2).trans <|
    (StableHlo.after_of_writes_sub hostOps0_1 _ hostOps0_1_writes h1).trans (StableHlo.after_of_writes_sub hostOps0 _ hostOps0_writes h0)

theorem W5_launch (c : Dev nD) (r : Ref sig .tc) (h0 : W4 m c (rf r) = arg m c r := by exact W4_launch _ _ _)
    (h : r ∉ hostOps1_W := by decide) : W5 m c (rf r) = arg m c r :=
  (StableHlo.after_of_writes_sub hostOps1 _ hostOps1_writes h).trans h0

-- The fused region's output array: the third layer, the 18 columns and 128 channels of a row side by side.
theorem stack_value (c : Dev nD) (n : Fin 256) (h : Fin 18) (l : Fin 2304) :
    (W4 m c (rf main_v60) : S256x18x2304.Idx → EReal) (ix3 n h l) = netA3 m c n.val h.val (l.val / 128) (l.val % 128) :=
  (congrFun (W4_arr m c 7) (ix3 n h l)).trans <|
    arrAt0_value (B3 m) c (padded 144 144 (Spec.X (arg m c main_arg10)))
      (rd4 (arg m c main_arg0)) (rd4 (arg m c main_arg2)) (rd4 (arg m c main_arg4))
      (rd1 (arg m c main_arg1)) (rd1 (arg m c main_arg3)) (rd1 (arg m c main_arg5))
      (prepA_x (W0 m c)) (prepA_band (W0 m c)) (prepA_bias1 (W0 m c)) (prepA_w2 (W0 m c)) (prepA_b2 (W0 m c))
      (prepA_w3 (W0 m c)) (prepA_b3 (W0 m c)) n h l

-- Flattened position `k` of an image is row `k / 2304`, column `k / 128 % 18`, channel `k % 128`.
theorem flat_value (c : Dev nD) (n : Fin 256) (k : Fin 41472) :
    (W5 m c (rf main_v61) : S256x41472.Idx → EReal) (ix2 n k) = flat (netA3 m c) n.val k.val := by
  have hk : k.val < 41472 := k.isLt
  refine (mid_flat (W4 m c) n k).trans <| (rd3_fin (W4 m c (rf main_v60) : S256x18x2304.Idx → EReal) n
    ⟨k.val / 2304, by omega⟩ ⟨k.val % 2304, by omega⟩).trans <| (stack_value m c n _ _).trans ?_
  show netA3 m c n.val (k.val / 2304) (k.val % 2304 / 128) (k.val % 2304 % 128) = netA3 m c n.val (k.val / 2304) (k.val / 128 % 18) (k.val % 128)
  rw [show k.val % 2304 / 128 = k.val / 128 % 18 by omega, show k.val % 2304 % 128 = k.val % 128 by omega]

-- The head region's output array: per half of the hidden units, that half's share of the second dense layer.
theorem half_value (c : Dev nD) (h : Fin 2) (n : Fin 256) (q : Fin 3) :
    (W6 m c (rf main_v63) : S2x256x3.Idx → EReal) (ix3 h n q) = half (netHid m c) (rd2 (arg m c main_arg8)) h.val n.val q.val :=
  (congrFun (W6_arr m c 4) (ix3 h n q)).trans <|
    arrAt1_value (B5 m) c (flat (netA3 m c)) (rd2 (arg m c main_arg6)) (rd1 (arg m c main_arg7)) (rd2 (arg m c main_arg8))
      (flat_value m c)
      (fun k j => (congrFun (W5_launch m c main_arg6) (ix2 k j)).trans (rd2_fin _ k j).symm)
      (fun j => (mid_b1 (W4 m c) j).trans (congrFun (congrArg rd1 (W4_launch m c main_arg7)) j.val))
      (fun j q => (congrFun (W5_launch m c main_arg8) (ix2 j q)).trans (rd2_fin _ j q).symm)
      h n q

theorem result_value (c : Dev nD) : (W7 m c (rf main_v67) : S256x3.Idx → EReal) = netOut m c := by
  funext i
  obtain ⟨n, q, rfl⟩ : ∃ n q, i = ix2 n q := ⟨i 0, i 1, eq_ix2 i⟩
  have e (h : Fin 2) : rd3 (W6 m c (rf main_v63) : S2x256x3.Idx → EReal) h.val n.val q.val
      = half (netHid m c) (rd2 (arg m c main_arg8)) h.val n.val q.val := (rd3_fin _ h n q).trans (half_value m c h n q)
  exact (tail_out (W6 m c) n q).trans (congrArg₂ (· + ·) (congrArg₂ (· + ·) (e 0) (e 1))
    (congrFun (congrArg rd1 ((W6_of_ne m c main_arg9 (by decide)).trans (W5_launch m c main_arg9))) q.val))

end Cert.KernelIdeal.Hand

end
-- ==== Proof.RiConvLib.lean ====
import proofs.«103448_g2000407080750749_pallasbulk_1140_2_alg».proof.Proof.Gen.ReferenceIdeal.Launch

/-! What every convolution region of this program shares: the shape of its body's triple, three input buffers kept
  and one output buffer written, in continuation form; and the frame rule that takes such a triple to the
  entailment a body obligation asks for. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A body keeps three whole buffers and leaves `out` of what they hold in a fourth, whatever that held. -/
def Keeps3 {s0 s1 s2 s3 : Shape}
    (prog : (a0 : Memref sig .tc .vmem s0 .f32) → a0.IsWhole → (a1 : Memref sig .tc .vmem s1 .f32) → a1.IsWhole →
      (a2 : Memref sig .tc .vmem s2 .f32) → a2.IsWhole → (a3 : Memref sig .tc .vmem s3 .f32) → a3.IsWhole →
      Prog (TpuEff nD τ sig (Elt F) Λ₀ .tc) PUnit)
    (out : Vec F s0 .f32 → Vec F s1 .f32 → Vec F s2 .f32 → Vec F s3 .f32) : Prop :=
  ∀ (c : Dev nD) (E : Set ℕ) a0 h0 a1 h1 a2 h2 a3 h3 x0 x1 x2 (K : PUnit → sProp 𝕄),
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out x0 x1 x2)) -∗ K ⟨⟩))
      ⊢ wp frame (wpE (defs₀ (F := F)) Variants.none c none) E (prog a0 h0 a1 h1 a2 h2 a3 h3) K

/-- Two assertions pass around a body that keeps three buffers and writes a fourth; what an input's buffer
    holds does not depend on the unused choice, and the output's buffer may start at anything. -/
theorem frame31 {W : (PUnit → sProp 𝕄) → sProp 𝕄} {P Q I0 I1 I2 O : sProp 𝕄} {α0 α1 α2 α3 β : Type}
    {D : β → sProp 𝕄} {b : α3 → β}
    (h : ∀ K, iprop(I0 ∗ I1 ∗ I2 ∗ (∃ d, D d) ∗ (iprop(I0 ∗ I1 ∗ I2 ∗ O) -∗ K ⟨⟩)) ⊢ W K) :
    iprop(P ∗ Q ∗ (∃ _ : α0, I0) ∗ (∃ _ : α1, I1) ∗ (∃ _ : α2, I2) ∗ (∃ d, D (b d)))
      ⊢ W fun _ => iprop(P ∗ Q ∗ I0 ∗ I1 ∗ I2 ∗ O) := by
  iintro ⟨HP, HQ, ⟨%_, H0⟩, ⟨%_, H1⟩, ⟨%_, H2⟩, ⟨%d, H3⟩⟩
  iapply h
  isplitl [H0]; · iexact H0
  isplitl [H1]; · iexact H1
  isplitl [H2]; · iexact H2
  isplitl [H3]; · iexists _; iexact H3
  iintro ⟨H0, H1, H2, H3⟩
  isplitl [HP]; · iexact HP
  isplitl [HQ]; · iexact HQ
  isplitl [H0]; · iexact H0
  isplitl [H1]; · iexact H1
  isplitl [H2]; · iexact H2
  iexact H3

end Cert.ReferenceIdeal.Hand

end
-- ==== Proof.RiConv1.lean ====
import proofs.«103448_g2000407080750749_pallasbulk_1140_2_alg».proof.Proof.Gen.ReferenceIdeal.Launch
import proofs.«103448_g2000407080750749_pallasbulk_1140_2_alg».proof.Proof.Gen.ReferenceIdeal.Skeleton
import proofs.«103448_g2000407080750749_pallasbulk_1140_2_alg».proof.Proof.Gen.ReferenceIdeal.Points
import proofs.«103448_g2000407080750749_pallasbulk_1140_2_alg».proof.Proof.RiConvLib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the reference: the patches times the 9 x 32 weight, plus the bias, rectified, then the maximum over
  each 2 x 2 square. What the body stores as a function of its three input blocks, and the body obligation. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1x16x144x9 := Rect.unit (s := S1x16x144x9) ![0, 0, 0, 0] S1x16x144x9.size inb_S1x16x144x9_S1x16x144x9_0_0_0_0
abbrev r0_w : Rect S1x9x32 := Rect.unit (s := S1x9x32) ![0, 0, 0] S1x9x32.size inb_S1x9x32_S1x9x32_0_0_0
abbrev r0_bias : Rect S1x32 := Rect.unit (s := S1x32) ![0, 0] S1x32.size inb_S1x32_S1x32_0_0
abbrev r0_out : Rect S1x8x2304 := Rect.unit (s := S1x8x2304) ![0, 0, 0] S1x8x2304.size inb_S1x8x2304_S1x8x2304_0_0_0

def conv0 (x0 : Vec F S1x16x144x9 .f32) (x1 : Vec F S1x9x32 .f32) (x2 : Vec F S1x32 .f32) : FVec F S1x8x2304 .f32 :=
  k0_pay1 (View.ld x0 r0_x) (View.ld x1 r0_w) (View.ld x2 r0_bias)

def out0_3 (x0 : Vec F S1x16x144x9 .f32) (x1 : Vec F S1x9x32 .f32) (x2 : Vec F S1x32 .f32) : Vec F S1x8x2304 .f32 :=
  View.canon [⟨r0_out, conv0 x0 x1 x2⟩]

set_option maxHeartbeats 4000000 in
/-- The body run once on whole buffers: the inputs stay as they were, and the one store covers the output's buffer. -/
theorem sound_kernel0 (i : grid0.Coords) : Keeps3 (cc0__conv_relu_pool_kernel (F := F) i) out0_3 := by
  intro c E arg2 harg2 arg3 harg3 arg4 harg4 arg5 harg5 x0 x1 x2 K
  simp only [cc0__conv_relu_pool_kernel_eq_skeleton]; unfold cc0__conv_relu_pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _ (View.cover_of_tiled _ S1x8x2304.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t
    = out0_3 (iblk0 V c 0 t) (iblk0 V c 1 t) (iblk0 V c 2 t) := by
  dsimp only [dat0]

/-- At every grid point an input window's buffer holds what the body leaves in it: that window's block. -/
theorem before0 (c : Dev nD) (t : Fin cfg0.N) :
    ∀ (w : Fin cfg0.W), (cfg0.win w).isOut = false → ∀ d, (dat0 V c).before w t d = (dat0 V c).after w t
  | 0, _, d | 1, _, d | 2, _, d =>
    ((dat0 V c).before_in_eq_fetched _ rfl (fun _ => rfl) (fun _ _ _ => rfl) (fun _ => rfl) t d).trans rfl
  | 3, h, _ => nomatch h

/-- The body obligation: the body's triple, framed. -/
theorem body_obligation0 (c : Dev nD) : BodyObligation (dat0 (F := F) V c) (defs₀ (F := F)) Variants.none () Set.univ := fun t => by
  rw [bigSep_W0, bigSep_W0]
  simp only [before0 V c t 0 rfl, before0 V c t 1 rfl, before0 V c t 2 rfl]
  rw [show (dat0 V c).after 3 t = out0_3 ((dat0 V c).after 0 t) ((dat0 V c).after 1 t) ((dat0 V c).after 2 t) by dsimp only [dat0]]
  show _ ⊢ wp _ _ _ (bodyAt0 t) _
  exact frame31 (sound_kernel0 _ c Set.univ _ _ _ _ _ _ _ _ _ _ _)

theorem Phi0_first (c : Dev nD) : (dat0 V c).Φ 0 = Pipeline.ΦA spec0 c := rfl

theorem Phi0_last (c : Dev nD) : (dat0 V c).Φ (Fin.last cfg0.N) ⊢ Pipeline.ΦA spec0 c := .rfl

end Cert.ReferenceIdeal.Hand

end
-- ==== Proof.RiConv2.lean ====
import proofs.«103448_g2000407080750749_pallasbulk_1140_2_alg».proof.Proof.Gen.ReferenceIdeal.Launch
import proofs.«103448_g2000407080750749_pallasbulk_1140_2_alg».proof.Proof.Gen.ReferenceIdeal.Skeleton
import proofs.«103448_g2000407080750749_pallasbulk_1140_2_alg».proof.Proof.Gen.ReferenceIdeal.Points
import proofs.«103448_g2000407080750749_pallasbulk_1140_2_alg».proof.Proof.RiConvLib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 of the reference: three column-shifted reads of the row-stacked input, each times its slice of the
  weight, summed, plus the bias, rectified, then the maximum over each 2 x 2 square. What the body stores as a
  function of its three input blocks, and the body obligation. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1x0 : Rect S1x8x74x96 := Rect.unit (s := S1x8x74x96) ![0, 0, 0, 0] S1x8x72x96.size inb_S1x8x74x96_S1x8x72x96_0_0_0_0
abbrev r1x1 : Rect S1x8x74x96 := Rect.unit (s := S1x8x74x96) ![0, 0, 1, 0] S1x8x72x96.size inb_S1x8x74x96_S1x8x72x96_0_0_1_0
abbrev r1x2 : Rect S1x8x74x96 := Rect.unit (s := S1x8x74x96) ![0, 0, 2, 0] S1x8x72x96.size inb_S1x8x74x96_S1x8x72x96_0_0_2_0
abbrev r1w0 : Rect S3x96x64 := Rect.unit (s := S3x96x64) ![0, 0, 0] S1x96x64.size inb_S3x96x64_S1x96x64_0_0_0
abbrev r1w1 : Rect S3x96x64 := Rect.unit (s := S3x96x64) ![1, 0, 0] S1x96x64.size inb_S3x96x64_S1x96x64_1_0_0
abbrev r1w2 : Rect S3x96x64 := Rect.unit (s := S3x96x64) ![2, 0, 0] S1x96x64.size inb_S3x96x64_S1x96x64_2_0_0
abbrev r1bias : Rect S1x64 := Rect.unit (s := S1x64) ![0, 0] S1x64.size inb_S1x64_S1x64_0_0
abbrev r1out : Rect S1x4x36x64 := Rect.unit (s := S1x4x36x64) ![0, 0, 0, 0] S1x4x36x64.size inb_S1x4x36x64_S1x4x36x64_0_0_0_0

def conv1 (x0 : Vec F S1x8x74x96 .f32) (x1 : Vec F S3x96x64 .f32) (x2 : Vec F S1x64 .f32) : FVec F S1x4x36x64 .f32 :=
  k1_pay1
    (k1_pay2 (View.ld x0 r1x0) (View.ld x1 r1w0) (View.ld x0 r1x1) (View.ld x1 r1w1) (View.ld x0 r1x2) (View.ld x1 r1w2)
      (View.ld x2 r1bias))

def out1_3 (x0 : Vec F S1x8x74x96 .f32) (x1 : Vec F S3x96x64 .f32) (x2 : Vec F S1x64 .f32) : Vec F S1x4x36x64 .f32 :=
  View.canon [⟨r1out, conv1 x0 x1 x2⟩]

set_option maxHeartbeats 4000000 in
/-- The body run once on whole buffers: the inputs stay as they were, and the one store covers the output's buffer. -/
theorem sound_kernel1 (i : grid1.Coords) : Keeps3 (cc1__conv_relu_pool_kernel (F := F) i) out1_3 := by
  intro c E arg2 harg2 arg3 harg3 arg4 harg4 arg5 harg5 x0 x1 x2 K
  simp only [cc1__conv_relu_pool_kernel_eq_skeleton]; unfold cc1__conv_relu_pool_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _ (View.cover_of_tiled _ S1x4x36x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t
    = out1_3 (iblk1 V c 0 t) (iblk1 V c 1 t) (iblk1 V c 2 t) := by
  dsimp only [dat1]

/-- At every grid point an input window's buffer holds what the body leaves in it: that window's block. -/
theorem before1 (c : Dev nD) (t : Fin cfg1.N) :
    ∀ (w : Fin cfg1.W), (cfg1.win w).isOut = false → ∀ d, (dat1 V c).before w t d = (dat1 V c).after w t
  | 0, _, d | 1, _, d | 2, _, d =>
    ((dat1 V c).before_in_eq_fetched _ rfl (fun _ => rfl) (fun _ _ _ => rfl) (fun _ => rfl) t d).trans rfl
  | 3, h, _ => nomatch h

/-- The body obligation: the body's triple, framed. -/
theorem body_obligation1 (c : Dev nD) : BodyObligation (dat1 (F := F) V c) (defs₀ (F := F)) Variants.none () Set.univ := fun t => by
  rw [bigSep_W1, bigSep_W1]
  simp only [before1 V c t 0 rfl, before1 V c t 1 rfl, before1 V c t 2 rfl]
  rw [show (dat1 V c).after 3 t = out1_3 ((dat1 V c).after 0 t) ((dat1 V c).after 1 t) ((dat1 V c).after 2 t) by dsimp only [dat1]]
  show _ ⊢ wp _ _ _ (bodyAt1 t) _
  exact frame31 (sound_kernel1 _ c Set.univ _ _ _ _ _ _ _ _ _ _ _)

theorem Phi1_first (c : Dev nD) : (dat1 V c).Φ 0 = Pipeline.ΦA spec1 c := rfl

theorem Phi1_last (c : Dev nD) : (dat1 V c).Φ (Fin.last cfg1.N) ⊢ Pipeline.ΦA spec1 c := .rfl

end Cert.ReferenceIdeal.Hand

end
-- ==== Proof.RiConv3.lean ====
import proofs.«103448_g2000407080750749_pallasbulk_1140_2_alg».proof.Proof.Gen.ReferenceIdeal.Launch
import proofs.«103448_g2000407080750749_pallasbulk_1140_2_alg».proof.Proof.Gen.ReferenceIdeal.Skeleton
import proofs.«103448_g2000407080750749_pallasbulk_1140_2_alg».proof.Proof.Gen.ReferenceIdeal.Points
import proofs.«103448_g2000407080750749_pallasbulk_1140_2_alg».proof.Proof.RiConvLib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the reference: three column-shifted reads of the row-stacked input, each times its slice of the
  weight, summed, plus the bias, rectified, then the maximum over each 2 x 2 square. What the body stores as a
  function of its three input blocks, and the body obligation. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2x0 : Rect S1x12x38x192 := Rect.unit (s := S1x12x38x192) ![0, 0, 0, 0] S1x12x36x192.size inb_S1x12x38x192_S1x12x36x192_0_0_0_0
abbrev r2x1 : Rect S1x12x38x192 := Rect.unit (s := S1x12x38x192) ![0, 0, 1, 0] S1x12x36x192.size inb_S1x12x38x192_S1x12x36x192_0_0_1_0
abbrev r2x2 : Rect S1x12x38x192 := Rect.unit (s := S1x12x38x192) ![0, 0, 2, 0] S1x12x36x192.size inb_S1x12x38x192_S1x12x36x192_0_0_2_0
abbrev r2w0 : Rect S3x192x128 := Rect.unit (s := S3x192x128) ![0, 0, 0] S1x192x128.size inb_S3x192x128_S1x192x128_0_0_0
abbrev r2w1 : Rect S3x192x128 := Rect.unit (s := S3x192x128) ![1, 0, 0] S1x192x128.size inb_S3x192x128_S1x192x128_1_0_0
abbrev r2w2 : Rect S3x192x128 := Rect.unit (s := S3x192x128) ![2, 0, 0] S1x192x128.size inb_S3x192x128_S1x192x128_2_0_0
abbrev r2bias : Rect S1x128 := Rect.unit (s := S1x128) ![0, 0] S1x128.size inb_S1x128_S1x128_0_0
abbrev r2out : Rect S1x6x18x128 := Rect.unit (s := S1x6x18x128) ![0, 0, 0, 0] S1x6x18x128.size inb_S1x6x18x128_S1x6x18x128_0_0_0_0

def conv2 (x0 : Vec F S1x12x38x192 .f32) (x1 : Vec F S3x192x128 .f32) (x2 : Vec F S1x128 .f32) : FVec F S1x6x18x128 .f32 :=
  k2_pay1
    (k2_pay2 (View.ld x0 r2x0) (View.ld x1 r2w0) (View.ld x0 r2x1) (View.ld x1 r2w1) (View.ld x0 r2x2) (View.ld x1 r2w2)
      (View.ld x2 r2bias))

def out2_3 (x0 : Vec F S1x12x38x192 .f32) (x1 : Vec F S3x192x128 .f32) (x2 : Vec F S1x128 .f32) : Vec F S1x6x18x128 .f32 :=
  View.canon [⟨r2out, conv2 x0 x1 x2⟩]

set_option maxHeartbeats 4000000 in
/-- The body run once on whole buffers: the inputs stay as they were, and the one store covers the output's buffer. -/
theorem sound_kernel2 (i : grid2.Coords) : Keeps3 (cc2__conv_relu_pool_kernel (F := F) i) out2_3 := by
  intro c E arg2 harg2 arg3 harg3 arg4 harg4 arg5 harg5 x0 x1 x2 K
  simp only [cc2__conv_relu_pool_kernel_eq_skeleton]; unfold cc2__conv_relu_pool_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _ (View.cover_of_tiled _ S1x6x18x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t
    = out2_3 (iblk2 V c 0 t) (iblk2 V c 1 t) (iblk2 V c 2 t) := by
  dsimp only [dat2]

/-- At every grid point an input window's buffer holds what the body leaves in it: that window's block. -/
theorem before2 (c : Dev nD) (t : Fin cfg2.N) :
    ∀ (w : Fin cfg2.W), (cfg2.win w).isOut = false → ∀ d, (dat2 V c).before w t d = (dat2 V c).after w t
  | 0, _, d | 1, _, d | 2, _, d =>
    ((dat2 V c).before_in_eq_fetched _ rfl (fun _ => rfl) (fun _ _ _ => rfl) (fun _ => rfl) t d).trans rfl
  | 3, h, _ => nomatch h

/-- The body obligation: the body's triple, framed. -/
theorem body_obligation2 (c : Dev nD) : BodyObligation (dat2 (F := F) V c) (defs₀ (F := F)) Variants.none () Set.univ := fun t => by
  rw [bigSep_W2, bigSep_W2]
  simp only [before2 V c t 0 rfl, before2 V c t 1 rfl, before2 V c t 2 rfl]
  rw [show (dat2 V c).after 3 t = out2_3 ((dat2 V c).after 0 t) ((dat2 V c).after 1 t) ((dat2 V c).after 2 t) by dsimp only [dat2]]
  show _ ⊢ wp _ _ _ (bodyAt2 t) _
  exact frame31 (sound_kernel2 _ c Set.univ _ _ _ _ _ _ _ _ _ _ _)

theorem Phi2_first (c : Dev nD) : (dat2 V c).Φ 0 = Pipeline.ΦA spec2 c := rfl

theorem Phi2_last (c : Dev nD) : (dat2 V c).Φ (Fin.last cfg2.N) ⊢ Pipeline.ΦA spec2 c := .rfl

end Cert.ReferenceIdeal.Hand

end
-- ==== Proof.RiFc.lean ====
/-
  The fully connected head on a grid of two rows of nine points. The scratch accumulates the products of a row's
  activation and weight blocks from zero; the row's last point stores the rectified sum times the second weights.
-/
import proofs.«103448_g2000407080750749_pallasbulk_1140_2_alg».proof.Proof.Gen.ReferenceIdeal.Launch
import proofs.«103448_g2000407080750749_pallasbulk_1140_2_alg».proof.Proof.Gen.ReferenceIdeal.Skeleton
import proofs.«103448_g2000407080750749_pallasbulk_1140_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev fc3_racc : Rect S256x128 := Rect.unit (s := S256x128) ![0, 0] S256x128.size inb_S256x128_S256x128_0_0
abbrev fc3_rx : Rect S256x4608 := Rect.unit (s := S256x4608) ![0, 0] S256x4608.size inb_S256x4608_S256x4608_0_0
abbrev fc3_rw : Rect S4608x128 := Rect.unit (s := S4608x128) ![0, 0] S4608x128.size inb_S4608x128_S4608x128_0_0
abbrev fc3_rbias : Rect S1x128 := Rect.unit (s := S1x128) ![0, 0] S1x128.size inb_S1x128_S1x128_0_0
abbrev fc3_rw2 : Rect S128x3 := Rect.unit (s := S128x3) ![0, 0] S128x3.size inb_S128x3_S128x3_0_0
abbrev fc3_rhead : Rect S1x256x3 := Rect.unit (s := S1x256x3) ![0, 0, 0] S1x256x3.size inb_S1x256x3_S1x256x3_0_0_0

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

/-- The first condition holds at the first point of a row. -/
theorem hcond3_0 : ∀ t : Fin cfg3.N, cond3_0 (grid3.coords t) ↔ t.val % 9 = 0 := by decide +kernel

/-- The second excludes the first and marks the points where the output block is stored and kept. -/
theorem hcond3_1 : ∀ t : Fin cfg3.N, if cond3_1 (grid3.coords t) then ¬cond3_0 (grid3.coords t) ∧ cfg3.idle 4 (grid3.coords t) = false
    else cfg3.idle 4 (grid3.coords t) = true ∧ (cfg3.win 4).flush t = false := by decide +kernel

def accZero3 : Vec F S256x128 .f32 := View.canon [⟨fc3_racc, k3_pay1⟩]

def accStep3 (a : Vec F S256x128 .f32) (x : Vec F S256x4608 .bf16) (w : Vec F S4608x128 .bf16) : Vec F S256x128 .f32 :=
  View.canon [⟨fc3_racc, k3_pay2 (View.ld a fc3_racc) (View.ld x fc3_rx) (View.ld w fc3_rw)⟩]

def head3 (a : Vec F S256x128 .f32) (b : Vec F S1x128 .f32) (w : Vec F S128x3 .bf16) : Vec F S1x256x3 .f32 :=
  View.canon [⟨fc3_rhead, k3_pay3 (View.ld a fc3_racc) (View.ld b fc3_rbias) (View.ld w fc3_rw2)⟩]

/-- A newest piece that is the whole shape covers it, -/
theorem cover3 {s : Shape} {e : EltTy} {p : View.Piece (Elt F) s e} (h : p.whole = true) (L : List (View.Piece (Elt F) s e)) (y : s.Idx) :
    ∃ q ∈ p :: L, y ∈ q.1.set :=
  View.cover_of_wholeMem _ (View.Piece.wholeMem_here h) y

/-- and leaves nothing of the earlier pieces. -/
theorem canon_whole {s : Shape} {e : EltTy} (p : View.Piece (Elt F) s e) (h : p.whole = true) (L : List (View.Piece (Elt F) s e)) :
    View.canon (p :: L) = View.canon [p] := by
  funext y
  obtain ⟨q, hm, hy⟩ := cover3 h [] y
  obtain rfl := List.mem_singleton.mp hm
  obtain ⟨x, rfl⟩ := q.1.exists_idx_of_mem hy
  exact (View.canon_cons_emb q.1 q.2 _ x).trans (View.canon_cons_emb q.1 q.2 _ x).symm

theorem ld_accZero3 : View.ld (accZero3 (F := F)) fc3_racc = k3_pay1 := by
  funext x; exact View.canon_cons_emb fc3_racc _ [] x

theorem ld_accStep3 (a : Vec F S256x128 .f32) (x : Vec F S256x4608 .bf16) (w : Vec F S4608x128 .bf16) :
    View.ld (accStep3 a x w) fc3_racc = k3_pay2 (View.ld a fc3_racc) (View.ld x fc3_rx) (View.ld w fc3_rw) := by
  funext j; exact View.canon_cons_emb fc3_racc _ [] j

set_option maxHeartbeats 4000000 in
/-- One run of the body: the sum restarts from zero at a row's first point, and only a row's last point stores the output. -/
theorem sound_kernel3 (c : Dev nD) (E : Set ℕ) (i : grid3.Coords) (h01 : cond3_1 i → ¬cond3_0 i)
    (arg2 : Memref sig .tc .vmem S256x4608 .bf16) (harg2 : arg2.IsWhole) (arg3 : Memref sig .tc .vmem S4608x128 .bf16) (harg3 : arg3.IsWhole)
    (arg4 : Memref sig .tc .vmem S1x128 .f32) (harg4 : arg4.IsWhole) (arg5 : Memref sig .tc .vmem S128x3 .bf16) (harg5 : arg5.IsWhole)
    (arg6 : Memref sig .tc .vmem S1x256x3 .f32) (harg6 : arg6.IsWhole) (arg7 : Memref sig .tc .vmem S256x128 .f32) (harg7 : arg7.IsWhole)
    (x0 : Vec F S256x4608 .bf16) (x1 : Vec F S4608x128 .bf16) (x2 : Vec F S1x128 .f32) (x3 : Vec F S128x3 .bf16)
    (d : Vec F S1x256x3 .f32) (a a₀ : Vec F S256x128 .f32) (ha : a₀ = if cond3_0 i then accZero3 else a) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (if cond3_1 i then head3 (accStep3 a₀ x0 x1) x2 x3 else d)
            ∗ owns (c : Thread nD τ) arg7 fullShare (accStep3 a₀ x0 x1)) -∗ K ⟨⟩))
      ⊢ wp frame (wpE (defs₀ (F := F)) Variants.none c none) E
          (cc3__fc_kernel i arg2 harg2 arg3 harg3 arg4 harg4 arg5 harg5 arg6 harg6 arg7 harg7) K := by
  subst ha
  by_cases hc1 : cond3_1 i <;> by_cases hc0 : cond3_0 i
  · exact absurd hc0 (h01 hc1)
  all_goals
    first | rw [if_pos hc1] | rw [if_neg hc1]
    first | rw [if_pos hc0] | rw [if_neg hc0]
    simp only [cc3__fc_kernel_eq_skeleton]; unfold cc3__fc_kernel_skel owns
    iintro ⟨⟨%f0, %hf0, H0⟩, ⟨%f1, %hf1, H1⟩, ⟨%f2, %hf2, H2⟩, ⟨%f3, %hf3, H3⟩, ⟨%f4, %hf4, H4⟩, ⟨%fa, %hfa, HS⟩, Hk⟩
    subst hf0 hf1 hf2 hf3 hf4 hfa
    sl_exec (disch := first | exact hc0 | exact hc1)
    sl_step
    iapply Hk
    isplitl [H0]; swap; isplitl [H1]; swap; isplitl [H2]; swap; isplitl [H3]; swap; isplitl [H4]
    all_goals
      iexists _; isplitr; swap; · iassumption
      ipureintro
      first
      | (sl_unfold_words
         try rw [View.readCov_eq_canon_ld _ _ fc3_racc (cover3 (p := ⟨fc3_racc, _⟩) rfl _)]
         exact (View.read_writes_eq_canon _ _ _ (cover3 (by rfl) _)).trans (canon_whole _ (by rfl) _))
      | rfl

def accAt3 (c : Dev nD) : (n : ℕ) → n < cfg3.N → Vec F S256x128 .f32
  | 0, hn => accStep3 accZero3 (iblk3 V c 0 ⟨0, hn⟩) (iblk3 V c 1 ⟨0, hn⟩)
  | n + 1, hn =>
    accStep3 (if (n + 1) % 9 = 0 then accZero3 else accAt3 c n (Nat.lt_of_succ_lt hn))
      (iblk3 V c 0 ⟨n + 1, hn⟩) (iblk3 V c 1 ⟨n + 1, hn⟩)

theorem accAt3_first (c : Dev nD) (t : Fin cfg3.N) (h0 : t.val % 9 = 0) :
    accAt3 V c t.val t.isLt = accStep3 accZero3 (iblk3 V c 0 t) (iblk3 V c 1 t) := by
  obtain ⟨n, hn⟩ := t
  cases n with
  | zero => rfl
  | succ n => exact congrArg (fun a => accStep3 a (iblk3 V c 0 ⟨n + 1, hn⟩) (iblk3 V c 1 ⟨n + 1, hn⟩)) (if_pos h0)

theorem accAt3_step (c : Dev nD) (t : Fin cfg3.N) (h0 : ¬t.val % 9 = 0) :
    accAt3 V c t.val t.isLt
      = accStep3 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact congrArg (fun a => accStep3 a (iblk3 V c 0 ⟨n + 1, hn⟩) (iblk3 V c 1 ⟨n + 1, hn⟩)) (if_neg h0)

abbrev scM3 : Memref sig .tc .vmem S256x128 .f32 := Memref.whole cc3_scratch0

/-- The invariant with the scratch at `S`; whatever else the region owns rides along unnamed. -/
def PhiS3 (c : Dev nD) (S : sProp 𝕄) : sProp 𝕄 :=
  iprop((S ∗ Pipeline.scopedRestBut (Ix := Unit) (Name := ℕ) (U := UR sig nD τ) (Lvl := ℕ) (Val := Elt F) spec3 c [cc3_scratch0])
    ∗ ∃ r, prngReg c r)

theorem PhiA3_eq (c : Dev nD) :
    (Pipeline.ΦA spec3 c : sProp 𝕄) = PhiS3 c iprop(∃ d, owns (c : Thread nD τ) scM3 fullShare d) := by
  unfold Pipeline.ΦA PhiS3
  rw [Pipeline.scopedRest_split_of_list spec3 c [cc3_scratch0] (by decide) (by decide)]
  simp only [scM3, owns_whole]; try rfl

def Phi3 (c : Dev nD) : (n : ℕ) → n ≤ cfg3.N → sProp 𝕄
  | 0, _ => Pipeline.ΦA spec3 c
  | n + 1, hn => PhiS3 c (owns (c : Thread nD τ) scM3 fullShare (accAt3 V c n hn))

/-- Before any point the scratch is owned at some `a` from which the point's step yields `accAt3`. -/
theorem Phi3_open (c : Dev nD) (t : Fin cfg3.N) :
    Phi3 V c t.val (Nat.le_of_lt t.isLt) ⊢ iprop(∃ a, PhiS3 c (owns (c : Thread nD τ) scM3 fullShare a)
      ∗ ⌜accAt3 V c t.val t.isLt = accStep3 (if cond3_0 (grid3.coords t) then accZero3 else a) (iblk3 V c 0 t) (iblk3 V c 1 t)⌝) := by
  obtain ⟨n, hn⟩ := t
  cases n with
  | zero =>
    show Pipeline.ΦA spec3 c ⊢ _
    rw [PhiA3_eq]; unfold PhiS3
    iintro ⟨⟨⟨%a, HS⟩, HR⟩, Hg⟩
    iexists a; isplitl
    · iframe
    ipureintro; rw [if_pos ((hcond3_0 _).mpr rfl)]; rfl
  | succ n =>
    show PhiS3 c _ ⊢ _
    iintro H; iexists _; isplitl; · iexact H
    ipureintro; rw [if_congr (hcond3_0 ⟨n + 1, hn⟩) rfl rfl]; rfl

theorem Phi3_close (c : Dev nD) : ∀ n h, Phi3 V c n h ⊢ Pipeline.ΦA spec3 c
  | 0, _ => .rfl
  | n + 1, _ => by
    rw [PhiA3_eq]; unfold Phi3 PhiS3
    iintro ⟨⟨HS, HR⟩, Hg⟩; iframe; iexists _; iexact HS

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => head3 (accAt3 V c t.val t.isLt) (iblk3 V c 2 t) (iblk3 V c 3 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) :
    (dat3 V c).after 4 t = head3 (accAt3 V c t.val t.isLt) (iblk3 V c 2 t) (iblk3 V c 3 t) := by dsimp only [dat3]

/-- Each input is presented as its own block at every point. -/
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ ∀ d, (dat3 V c).before 3 t d = iblk3 V c 3 t := by
  refine ⟨?_, ?_, ?_, ?_⟩ <;> exact fun d =>
    ((dat3 V c).before_in_eq_fetched _ rfl (fun _ => rfl) (fun _ _ _ => rfl) (fun _ => rfl) t d).trans rfl

/-- The output block in both cases: the head of the finished sum at a row's last point, untouched elsewhere. -/
theorem leaves3_4 (c : Dev nD) (t : Fin cfg3.N) (d) :
    owns (c : Thread nD τ) (st3_4 t) fullShare (if cond3_1 (grid3.coords t)
      then head3 (accAt3 V c t.val t.isLt) (iblk3 V c 2 t) (iblk3 V c 3 t) else (dat3 V c).before 4 t d)
      ⊢ (dat3 V c).leavesExact 4 t := by
  have h := hcond3_1 t
  by_cases h1 : cond3_1 (grid3.coords t)
  · rw [if_pos h1] at h ⊢; unfold Dat.leavesExact; rw [h.2]; exact .rfl
  · rw [if_neg h1] at h ⊢; rw [Dat.leavesExact_idle (dat3 V c) 4 t h.1 h.2]
    iintro H; iexists d; iexact H

set_option maxHeartbeats 4000000 in
/-- The body at any grid point: the invariant lends the scratch, the body runs once, and every buffer comes back as named. -/
theorem sound_body3 (c : Dev nD) (t : Fin cfg3.N) :
    iprop((dat3 V c).Φ t.castSucc ∗ (dat3 V c).owesAt () t.castSucc
      ∗ bigSep Finset.univ fun w : Fin cfg3.W => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.succ ∗ (dat3 V c).owesAt () t.succ ∗ bigSep Finset.univ fun w : Fin cfg3.W => (dat3 V c).leavesExact w t) := by
  rw [bigSep_W3, bigSep_W3]
  obtain ⟨b0, b1, b2, b3⟩ := before3 V c t
  simp only [b0, b1, b2, b3]
  refine (sep_mono_left (Phi3_open V c t)).trans ?_
  rw [show (dat3 V c).Φ t.succ = PhiS3 c (owns (c : Thread nD τ) scM3 fullShare (accAt3 V c t.val t.isLt)) from rfl]
  unfold PhiS3
  iintro ⟨⟨%a, ⟨⟨HS, HR⟩, Hg⟩, %ha⟩, Ho, ⟨%d0, H0⟩, ⟨%d1, H1⟩, ⟨%d2, H2⟩, ⟨%d3, H3⟩, ⟨%d4, H4⟩⟩
  have h1 := hcond3_1 t
  iapply (sound_kernel3 c Set.univ _ (fun h => by rw [if_pos h] at h1; exact h1.1) _ _ _ _ _ _ _ _ _ _ _ _
    (iblk3 V c 0 t) (iblk3 V c 1 t) (iblk3 V c 2 t) (iblk3 V c 3 t) ((dat3 V c).before 4 t d4) a _ rfl _)
  iframe H0 H1 H2 H3 H4 HS
  iintro ⟨H0, H1, H2, H3, H4, HS⟩
  rw [← ha]
  iframe HS HR Hg
  isplitl [Ho]; · iexact Ho
  isplitl [H0]; · iexact H0
  isplitl [H1]; · iexact H1
  isplitl [H2]; · iexact H2
  isplitl [H3]; · iexact H3
  iapply (leaves3_4 V c t d4); iexact H4

theorem body_obligation3 (c : Dev nD) : BodyObligation (dat3 (F := F) V c) (defs₀ (F := F)) Variants.none () Set.univ :=
  sound_body3 V c

theorem Phi3_first (c : Dev nD) : (dat3 V c).Φ 0 = Pipeline.ΦA spec3 c := rfl

theorem Phi3_last (c : Dev nD) : (dat3 V c).Φ (Fin.last cfg3.N) ⊢ Pipeline.ΦA spec3 c := Phi3_close V c _ le_rfl

end Cert.ReferenceIdeal.Hand

end
-- ==== Proof.RiRun.lean ====
/-
  The reference program's @main is fifteen items, host stretches and four kernel regions. From the launch memory
  every weakly fair run ends with each unscoped buffer at the fold of the items: `W0` at launch, `W15` at the end.
-/
import proofs.«103448_g2000407080750749_pallasbulk_1140_2_alg».proof.Proof.Gen.ReferenceIdeal.Regions
import proofs.«103448_g2000407080750749_pallasbulk_1140_2_alg».proof.Proof.RiConv1
import proofs.«103448_g2000407080750749_pallasbulk_1140_2_alg».proof.Proof.RiConv2
import proofs.«103448_g2000407080750749_pallasbulk_1140_2_alg».proof.Proof.RiConv3
import proofs.«103448_g2000407080750749_pallasbulk_1140_2_alg».proof.Proof.RiFc
import proofs.«103448_g2000407080750749_pallasbulk_1140_2_alg».proof.Proof.LibRegion

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers' contents between items: a host stretch applies its operations, a region replaces its arrays. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev RiRun.W3tc : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (RiRun.W3tc m) c).arrAt w cfg0.N
theorem W4_arr (c : Dev nD) (w : Fin cfg0.W) :
    W4 m c (Proc.devRef .tc (Pipeline.arrRef spec0 w)) = (dat0 (RiRun.W3tc m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev W5 (c : Dev nD) : Valuation τ sig (Elt F) := StableHlo.after hostOps1 (W4 m c)
abbrev W6 (c : Dev nD) : Valuation τ sig (Elt F) := StableHlo.after hostOps1_1 (W5 m c)
abbrev W7 (c : Dev nD) : Valuation τ sig (Elt F) := StableHlo.after hostOps1_2 (W6 m c)
abbrev RiRun.W7tc : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (RiRun.W7tc m) c).arrAt w cfg1.N
theorem W8_arr (c : Dev nD) (w : Fin cfg1.W) :
    W8 m c (Proc.devRef .tc (Pipeline.arrRef spec1 w)) = (dat1 (RiRun.W7tc m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev W9 (c : Dev nD) : Valuation τ sig (Elt F) := StableHlo.after hostOps2 (W8 m c)
abbrev W10 (c : Dev nD) : Valuation τ sig (Elt F) := StableHlo.after hostOps2_1 (W9 m c)
abbrev W11 (c : Dev nD) : Valuation τ sig (Elt F) := StableHlo.after hostOps2_2 (W10 m c)
abbrev RiRun.W11tc : (c : Dev nD) → (b : Ref sig .tc) → Buf (Elt F) ((c : Thread nD τ).loc b) := fun c b => W11 m c b
def W12 (c : Dev nD) : Valuation τ sig (Elt F) :=
  Pipeline.withArrays spec2 c (W11 m c) fun w => (dat2 (RiRun.W11tc m) c).arrAt w cfg2.N
theorem W12_arr (c : Dev nD) (w : Fin cfg2.W) :
    W12 m c (Proc.devRef .tc (Pipeline.arrRef spec2 w)) = (dat2 (RiRun.W11tc m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
abbrev W13 (c : Dev nD) : Valuation τ sig (Elt F) := StableHlo.after hostOps3 (W12 m c)
abbrev RiRun.W13tc : (c : Dev nD) → (b : Ref sig .tc) → Buf (Elt F) ((c : Thread nD τ).loc b) := fun c b => W13 m c b
def W14 (c : Dev nD) : Valuation τ sig (Elt F) :=
  Pipeline.withArrays spec3 c (W13 m c) fun w => (dat3 (RiRun.W13tc m) c).arrAt w cfg3.N
theorem W14_arr (c : Dev nD) (w : Fin cfg3.W) :
    W14 m c (Proc.devRef .tc (Pipeline.arrRef spec3 w)) = (dat3 (RiRun.W13tc m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
abbrev W15 (c : Dev nD) : Valuation τ sig (Elt F) := StableHlo.after hostOps4 (W14 m c)

/-- The last region changes only its output arrays. -/
theorem RiRun.W14_keeps (c : Dev nD) (r : Ref sig .tc) (h : ∀ w, Pipeline.arrRef spec3 w = r → (cfg3.win w).isOut = false) :
    W14 m c (Proc.devRef .tc r) = W13 m c (Proc.devRef .tc r) := by
  by_cases hw : ∃ w, Pipeline.arrRef spec3 w = r
  · obtain ⟨w, rfl⟩ := hw
    exact (W14_arr m c w).trans (((dat3 (RiRun.W13tc m) c).arrAt_in w (h w rfl) _).trans (A_eq3 (RiRun.W13tc m) c w))
  · exact W14_of_ne m c r fun w e => hw ⟨w, e⟩

/-- An unscoped buffer that no item writes holds, in a memory that agrees with `W15`, what it held at launch. -/
theorem RiRun.arg_kept (c : Dev nD) (r : Ref sig .tc)
    (h : ¬ (Proc.devRef .tc r : DevRef τ sig).isScoped
      ∧ r ∉ hostOps0_W ∧ r ∉ hostOps0_1_W ∧ r ∉ hostOps0_2_W ∧ (∀ w, Pipeline.arrRef spec0 w ≠ r)
      ∧ r ∉ hostOps1_W ∧ r ∉ hostOps1_1_W ∧ r ∉ hostOps1_2_W ∧ (∀ w, Pipeline.arrRef spec1 w ≠ r)
      ∧ r ∉ hostOps2_W ∧ r ∉ hostOps2_1_W ∧ r ∉ hostOps2_2_W ∧ (∀ w, Pipeline.arrRef spec2 w ≠ r)
      ∧ r ∉ hostOps3_W ∧ (∀ w, Pipeline.arrRef spec3 w = r → (cfg3.win w).isOut = false) ∧ r ∉ hostOps4_W)
    (s : MemSt nD τ sig (Elt F)) (hs : ∀ b ∈ Pipeline.ucRefs τ sig, s.mem ((c : Thread nD τ).1, b) = W15 m c b) :
    s.mem ((c : Thread nD τ).loc r) = m ((c : Thread nD τ).loc r) := by
  obtain ⟨h0, h1, h2, h3, h4, h5, h6, h7, h8, h9, h10, h11, h12, h13, h14, h15⟩ := h
  calc s.mem ((c : Thread nD τ).loc r)
    _ = W15 m c (Proc.devRef .tc r) := hs _ (Run.mem_uc r h0)
    _ = W14 m c (Proc.devRef .tc r) := StableHlo.after_of_writes_sub hostOps4 _ hostOps4_writes h15
    _ = W13 m c (Proc.devRef .tc r) := RiRun.W14_keeps m c r h14
    _ = W12 m c (Proc.devRef .tc r) := StableHlo.after_of_writes_sub hostOps3 _ hostOps3_writes h13
    _ = W11 m c (Proc.devRef .tc r) := W12_of_ne m c r h12
    _ = W10 m c (Proc.devRef .tc r) := StableHlo.after_of_writes_sub hostOps2_2 _ hostOps2_2_writes h11
    _ = W9 m c (Proc.devRef .tc r) := StableHlo.after_of_writes_sub hostOps2_1 _ hostOps2_1_writes h10
    _ = W8 m c (Proc.devRef .tc r) := StableHlo.after_of_writes_sub hostOps2 _ hostOps2_writes h9
    _ = W7 m c (Proc.devRef .tc r) := W8_of_ne m c r h8
    _ = W6 m c (Proc.devRef .tc r) := StableHlo.after_of_writes_sub hostOps1_2 _ hostOps1_2_writes h7
    _ = W5 m c (Proc.devRef .tc r) := StableHlo.after_of_writes_sub hostOps1_1 _ hostOps1_1_writes h6
    _ = W4 m c (Proc.devRef .tc r) := StableHlo.after_of_writes_sub hostOps1 _ hostOps1_writes h5
    _ = W3 m c (Proc.devRef .tc r) := W4_of_ne m c r h4
    _ = W2 m c (Proc.devRef .tc r) := StableHlo.after_of_writes_sub hostOps0_2 _ hostOps0_2_writes h3
    _ = W1 m c (Proc.devRef .tc r) := StableHlo.after_of_writes_sub hostOps0_1 _ hostOps0_1_writes h2
    _ = m ((c : Thread nD τ).loc r) := StableHlo.after_of_writes_sub hostOps0 _ hostOps0_writes h1

/-- For each region, its `dat` at the valuation before it. -/
def RiRun.run_dats : (p : Fin 4) → (c : Dev nD) → Dat τ (Elt F) Unit ℕ (UR sig nD τ) ℕ (Pipeline.pin (pcfgs (F := F)) adm p) c
  | ⟨0, _⟩ => fun c => dat0 (RiRun.W3tc m) c
  | ⟨1, _⟩ => fun c => dat1 (RiRun.W7tc m) c
  | ⟨2, _⟩ => fun c => dat2 (RiRun.W11tc m) c
  | ⟨3, _⟩ => fun c => dat3 (RiRun.W13tc m) c

set_option backward.isDefEq.respectTransparency.types false in
/-- @main's fifteen items in order: a host item per stretch from the valuation before it, a region per kernel call. -/
abbrev RiRun.run_items : List (Pipeline.Seg (pcfgs (F := F)) adm (RiRun.run_dats m) () defs₀ Variants.none Run.L Run.lv) :=
  [ .host (Run.host cfgs defs₀ hostOps0 hostOps0_sub hostOps0_fresh (W0 m)),
    .host (Run.host cfgs defs₀ hostOps0_1 hostOps0_1_sub hostOps0_1_fresh (W1 m)),
    .host (Run.host cfgs defs₀ hostOps0_2 hostOps0_2_sub hostOps0_2_fresh (W2 m)),
    .region (Run.region cfgs defs₀ (RiRun.run_dats m) 0 launch0 (W3 m) (body_obligation0 _) (fun _ _ => rfl) (fun _ _ => rfl) (fun _ => rfl)
      (A_eq0 _) (Phi0_first _) (Phi0_last _)),
    .host (Run.host cfgs defs₀ hostOps1 hostOps1_sub hostOps1_fresh (W4 m)),
    .host (Run.host cfgs defs₀ hostOps1_1 hostOps1_1_sub hostOps1_1_fresh (W5 m)),
    .host (Run.host cfgs defs₀ hostOps1_2 hostOps1_2_sub hostOps1_2_fresh (W6 m)),
    .region (Run.region cfgs defs₀ (RiRun.run_dats m) 1 launch1 (W7 m) (body_obligation1 _) (fun _ _ => rfl) (fun _ _ => rfl) (fun _ => rfl)
      (A_eq1 _) (Phi1_first _) (Phi1_last _)),
    .host (Run.host cfgs defs₀ hostOps2 hostOps2_sub hostOps2_fresh (W8 m)),
    .host (Run.host cfgs defs₀ hostOps2_1 hostOps2_1_sub hostOps2_1_fresh (W9 m)),
    .host (Run.host cfgs defs₀ hostOps2_2 hostOps2_2_sub hostOps2_2_fresh (W10 m)),
    .region (Run.region cfgs defs₀ (RiRun.run_dats m) 2 launch2 (W11 m) (body_obligation2 _) (fun _ _ => rfl) (fun _ _ => rfl) (fun _ => rfl)
      (A_eq2 _) (Phi2_first _) (Phi2_last _)),
    .host (Run.host cfgs defs₀ hostOps3 hostOps3_sub hostOps3_fresh (W12 m)),
    .region (Run.region cfgs defs₀ (RiRun.run_dats m) 3 launch3 (W13 m) (body_obligation3 _) (fun _ _ => rfl) (fun _ _ => rfl) (fun _ => rfl)
      (A_eq3 _) (Phi3_first _) (Phi3_last _)),
    .host (Run.host cfgs defs₀ hostOps4 hostOps4_sub hostOps4_fresh (W14 m)) ]
theorem RiRun.run_main (c : Dev nD) : main (F := F) c = Pipeline.Seg.run (RiRun.run_items m) := (main_chain c).trans (by chain_rfl)

set_option backward.isDefEq.respectTransparency.types false in
/-- Every weakly fair run of @main from the launch memory ends, with each unscoped buffer at `W15`. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W15 m c b) :=
  Run.run cfgs defs₀ cellOf_inj (RiRun.run_dats m) m ρ main (RiRun.run_items m) (RiRun.run_main m)
    (by simp only [RiRun.run_items, Pipeline.Seg.pipes_host, Pipeline.Seg.pipes_region, Pipeline.Seg.pipes_nil]; decide) (W15 m)
    ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩

/-- The result array ends at what the fold leaves in it, and every argument array at its launch contents. -/
theorem value_all (ρ : Dev nD → PrngReg) : θ_run defs (onTc (τ := τ) (main (F := F))) ⟨m, fun _ => 0, ρ⟩ (fun r => ∀ c : Dev nD,
      r.2.mem ((c.tc : Thread nD τ).loc main_v41) = W15 m c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun x h c =>
    ⟨h c _ (Run.mem_uc main_v41 (by decide)), RiRun.arg_kept m c main_arg0 (by decide) x.2 (h c),
     RiRun.arg_kept m c main_arg1 (by decide) x.2 (h c),
     RiRun.arg_kept m c main_arg2 (by decide) x.2 (h c),
     RiRun.arg_kept m c main_arg3 (by decide) x.2 (h c),
     RiRun.arg_kept m c main_arg4 (by decide) x.2 (h c),
     RiRun.arg_kept m c main_arg5 (by decide) x.2 (h c),
     RiRun.arg_kept m c main_arg6 (by decide) x.2 (h c),
     RiRun.arg_kept m c main_arg7 (by decide) x.2 (h c),
     RiRun.arg_kept m c main_arg8 (by decide) x.2 (h c),
     RiRun.arg_kept m c main_arg9 (by decide) x.2 (h c),
     RiRun.arg_kept m c main_arg10 (by decide) x.2 (h c)⟩) (run_all m ρ)

/-- Every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (value_all m ρ)

end Cert.ReferenceIdeal.Hand

end
-- ==== Proof.RiHostA.lean ====
/-
  Before the reference's first region: the images with a zero border, their nine shifted copies laid on the
  channel axis, the first filter with its nine taps on one axis, its bias as a row.
-/
import proofs.«103448_g2000407080750749_pallasbulk_1140_2_alg».proof.Proof.Spec
import proofs.«103448_g2000407080750749_pallasbulk_1140_2_alg».proof.Proof.Layout
import proofs.«103448_g2000407080750749_pallasbulk_1140_2_alg».proof.Proof.Gen.ReferenceIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open scoped BigOperators

variable (U V : Valuation τ sig (Elt Ideal))

local notation "rf" => Proc.devRef (τ := τ) (sig := sig) Proc.tc

abbrev prep0 : Valuation τ sig (Elt Ideal) := StableHlo.after hostOps0_2 (StableHlo.after hostOps0_1 (StableHlo.after hostOps0 U))

namespace RiHostA

/-- Channel q of nine one-channel pieces laid on the channel axis is piece q. -/
theorem concat9_read (x0 x1 x2 x3 x4 x5 x6 x7 x8 : S256x144x144x1.Idx → EReal) (hc : Shape.Concatenates _ S256x144x144x9 3)
    (n : Fin 256) (h w : Fin 144) (q : Fin 9) :
    concatenate S256x144x144x9 3
        [⟨S256x144x144x1, x0⟩, ⟨S256x144x144x1, x1⟩, ⟨S256x144x144x1, x2⟩, ⟨S256x144x144x1, x3⟩, ⟨S256x144x144x1, x4⟩,
         ⟨S256x144x144x1, x5⟩, ⟨S256x144x144x1, x6⟩, ⟨S256x144x144x1, x7⟩, ⟨S256x144x144x1, x8⟩] hc (ix4 n h w q)
      = (![x0, x1, x2, x3, x4, x5, x6, x7, x8] q) (ix4 n h w 0) := by
  refine concatenate_ofFn_unit_apply (t := S256x144x144x9) (s₁ := S256x144x144x1) (3 : Fin 4) ![x0, x1, x2, x3, x4, x5, x6, x7, x8] hc
    rfl rfl (ix4 n h w q) q rfl (ix4 n h w 0) (fun b hb => ?_)
  match b with
  | ⟨0, _⟩ => rfl
  | ⟨1, _⟩ => rfl
  | ⟨2, _⟩ => rfl
  | ⟨3, _⟩ => exact absurd rfl hb

/-- Entry (h, w) of the window at offsets (dy, dx) is entry (h + dy, w + dx). -/
theorem slice_read (P : S256x146x146x1.Idx → EReal) (dy dx : ℕ) (hdy : dy ≤ 2) (hdx : dx ≤ 2)
    (hs : S256x146x146x1.Slices ![0, dy, dx, 0] S256x144x144x1) (n : Fin 256) (h w : Fin 144) (c : Fin 1) :
    extractStridedSlice S256x144x144x1 ![0, dy, dx, 0] P hs (ix4 n h w c)
      = P (ix4 n ⟨h.val + dy, by omega⟩ ⟨w.val + dx, by omega⟩ c) :=
  extractStridedSlice_apply _ _ _ _ _ (fun a =>
    match a with
    | ⟨0, _⟩ => (Nat.zero_add _).symm
    | ⟨1, _⟩ => Nat.add_comm _ _
    | ⟨2, _⟩ => Nat.add_comm _ _
    | ⟨3, _⟩ => (Nat.zero_add _).symm)

/-- If the bordered buffer reads as f, channel q of the nine copies reads as f shifted by (q / 3, q % 3). -/
theorem shifts_of (f : Act)
    (hP : ∀ (n : Fin 256) (hh ww : Fin 146) (c : Fin 1), (V (rf main_v1) : S256x146x146x1.Idx → EReal) (ix4 n hh ww c) = f n.val hh.val ww.val c.val)
    (n : Fin 256) (h w : Fin 144) (q : Fin 9) :
    (StableHlo.after hostOps0_2 V (rf main_v11) : S256x144x144x9.Idx → EReal) (ix4 n h w q)
      = f n.val (h.val + q.val / 3) (w.val + q.val % 3) 0 := by
  simp only [hostOps0_2]; after_results; simp only [Matrix.cons_val]
  repeat (first | rw [StableHlo.unary_result] | (rw [StableHlo.unary_result_ne]; rotate_left; decide))
  refine (concat9_read _ _ _ _ _ _ _ _ _ _ n h w q).trans ?_
  fin_cases q <;> exact (slice_read _ _ _ (by omega) (by omega) (by decide) n h w 0).trans (hP _ _ _ _)

/-- If the channel-last images read as a and the border value is zero, the bordered buffer reads as the bordered a. -/
theorem pad0_of (a : Act) (hz : ∀ i, (sitofp .f32 (V (rf main_c) : IVec S_ 32) : FVec Ideal S_ .f32) i = 0)
    (ha : ∀ (n : Fin 256) (h w : Fin 144) (c : Fin 1), (V (rf main_v0) : S256x144x144x1.Idx → EReal) (ix4 n h w c) = a n.val h.val w.val c.val)
    (n : Fin 256) (hh w : Fin 146) (c : Fin 1) :
    (StableHlo.after hostOps0_1 V (rf main_v1) : S256x146x146x1.Idx → EReal) (ix4 n hh w c) = padded 144 144 a n.val hh.val w.val c.val := by
  simp only [hostOps0_1]; after_results
  exact border_apply (V (rf main_v0)) _ Facts₀.pads_S256x144x144x1_S256x146x146x1_000_110_110_000 Facts₀.h_S_ hz a ha n hh w c

end RiHostA

open RiHostA

theorem prep0_x (n : Fin 256) (h w : Fin 144) (q : Fin 9) :
    (prep0 U (rf main_v11) : S256x144x144x9.Idx → EReal) (ix4 n h w q)
      = padded 144 144 (fun n h w _ => rd4 (U (rf main_arg10) : S256x1x144x144.Idx → EReal) n 0 h w) n.val (h.val + q.val / 3) (w.val + q.val % 3) 0 := by
  refine shifts_of (StableHlo.after hostOps0_1 (StableHlo.after hostOps0 U)) _ (fun n hh ww c => ?_) n h w q
  refine pad0_of (StableHlo.after hostOps0 U) _ (fun i => ?_) (fun n a b c => ?_) n hh ww c
  · simp only [hostOps0]; after_results; exact zero_word i
  · simp only [hostOps0]; after_results
    obtain rfl : c = 0 := Subsingleton.elim _ _
    exact (transpose_apply _ _ _ _ (ix4 n 0 a b) (fun d =>
      match d with | ⟨0, _⟩ => rfl | ⟨1, _⟩ => rfl | ⟨2, _⟩ => rfl | ⟨3, _⟩ => rfl)).trans (rd4_fin _ n 0 a b).symm

/-- Tap q of the nine is row tap q / 3, column tap q % 3: the row-major positions agree. -/
theorem prep0_w (q : Fin 9) (d : Fin 32) :
    (prep0 U (rf main_v12) : S1x9x32.Idx → EReal) (ix3 0 q d) = rd4 (U (rf main_arg0) : S3x3x1x32.Idx → EReal) (q.val / 3) (q.val % 3) 0 d.val := by
  have h1 : q.val / 3 < 3 := by have := q.isLt; omega
  have h2 := Nat.mod_lt q.val (show 0 < 3 by decide)
  have hk : StableHlo.after hostOps0_1 (StableHlo.after hostOps0 U) (rf main_arg0) = U (rf main_arg0) := by
    simp only [hostOps0_1, hostOps0]; after_results
  simp only [prep0]; rw [← hk]
  generalize StableHlo.after hostOps0_1 (StableHlo.after hostOps0 U) = W
  simp only [hostOps0_2]; after_results
  exact (shapeCast_apply (s := S3x3x1x32) (t := S1x9x32) _ _ (ix3 0 q d) (ix4 ⟨_, h1⟩ ⟨_, h2⟩ (0 : Fin 1) d) (by
    rw [Shape.rowMajor_val_four, Shape.rowMajor_val_three]
    show ((q.val / 3 * 3 + q.val % 3) * 1 + 0) * 32 + d.val = ((0 : ℕ) * 9 + q.val) * 32 + d.val
    omega)).trans (rd4_fin _ ⟨_, h1⟩ ⟨_, h2⟩ (0 : Fin 1) d).symm

theorem prep0_b (d : Fin 32) :
    (prep0 U (rf main_v13) : S1x32.Idx → EReal) (ix2 0 d) = rd1 (U (rf main_arg1) : S32.Idx → EReal) d.val := by
  have hk : StableHlo.after hostOps0_1 (StableHlo.after hostOps0 U) (rf main_arg1) = U (rf main_arg1) := by
    simp only [hostOps0_1, hostOps0]; after_results
  simp only [prep0]; rw [← hk]
  generalize StableHlo.after hostOps0_1 (StableHlo.after hostOps0 U) = W
  simp only [hostOps0_2]; after_results
  exact row_apply _ _ d

end Cert.ReferenceIdeal.Hand

end
-- ==== Proof.RiHostB.lean ====
/-
  Before the reference's second and third regions: the previous layer's output with a zero border, its three
  row-shifted copies stacked on channels, the filter with its row taps stacked on channels, the bias as a row.
-/
import proofs.«103448_g2000407080750749_pallasbulk_1140_2_alg».proof.Proof.Spec
import proofs.«103448_g2000407080750749_pallasbulk_1140_2_alg».proof.Proof.Layout
import proofs.«103448_g2000407080750749_pallasbulk_1140_2_alg».proof.Proof.Gen.ReferenceIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open scoped BigOperators

variable (U V : Valuation τ sig (Elt Ideal))

local notation "rf" => Proc.devRef (τ := τ) (sig := sig) Proc.tc

namespace RiHostB

/-- Lane 32 w + c of the first layer's output is column w, channel c. -/
theorem lanes1_apply (x : S256x72x2304.Idx → EReal) (n : Fin 256) (h : Fin 72) (w : Fin 72) (c : Fin 32) :
    shapeCast S256x72x72x32 x shapeCasts_S256x72x2304_S256x72x72x32 (ix4 n h w c) = rd3 x n.val h.val (w.val * 32 + c.val) := by
  have hl : w.val * 32 + c.val < 2304 := by have := w.isLt; have := c.isLt; omega
  rw [shapeCast_apply x _ (ix4 n h w c) (ix3 n h ⟨_, hl⟩) (by
    rw [Shape.rowMajor_val_four, Shape.rowMajor_val_three]
    show (n.val * 72 + h.val) * 2304 + (w.val * 32 + c.val) = ((n.val * 72 + h.val) * 72 + w.val) * 32 + c.val
    omega)]
  exact (rd3_fin x n h ⟨_, hl⟩).symm

/-- If the bordered buffer reads as f, the stacked buffer reads as f at the shifted row. -/
theorem stack1_of (f : Act)
    (hP : ∀ (n : Fin 256) (hh w : Fin 74) (c : Fin 32), (V (rf main_v16) : S256x74x74x32.Idx → EReal) (ix4 n hh w c) = f n.val hh.val w.val c.val)
    (n : Fin 256) (h : Fin 72) (w' : Fin 74) (r : Fin 96) :
    (StableHlo.after hostOps1_2 V (rf main_v20) : S256x72x74x96.Idx → EReal) (ix4 n h w' r)
      = f n.val (h.val + r.val / 32) w'.val (r.val % 32) := by
  simp only [hostOps1_2]; after_results
  exact stack3_apply rfl (by decide) (V (rf main_v16)) slices_S256x74x74x32_S256x72x74x32_0_0_0_0 slices_S256x74x74x32_S256x72x74x32_0_1_0_0
    slices_S256x74x74x32_S256x72x74x32_0_2_0_0 concatenates_S256x72x74x32_S256x72x74x32_S256x72x74x32_S256x72x74x96_d3 f hP n h w' r

theorem stack2_of (f : Act)
    (hP : ∀ (n : Fin 256) (hh w : Fin 38) (c : Fin 64), (V (rf main_v25) : S256x38x38x64.Idx → EReal) (ix4 n hh w c) = f n.val hh.val w.val c.val)
    (n : Fin 256) (h : Fin 36) (w' : Fin 38) (r : Fin 192) :
    (StableHlo.after hostOps2_2 V (rf main_v29) : S256x36x38x192.Idx → EReal) (ix4 n h w' r)
      = f n.val (h.val + r.val / 64) w'.val (r.val % 64) := by
  simp only [hostOps2_2]; after_results
  exact stack3_apply rfl (by decide) (V (rf main_v25)) slices_S256x38x38x64_S256x36x38x64_0_0_0_0 slices_S256x38x38x64_S256x36x38x64_0_1_0_0
    slices_S256x38x38x64_S256x36x38x64_0_2_0_0 concatenates_S256x36x38x64_S256x36x38x64_S256x36x38x64_S256x36x38x192_d3 f hP n h w' r

/-- If the layer's input reads as a and the border value is zero, the bordered buffer reads as the bordered a. -/
theorem pad1_of (a : Act) (hz : ∀ i, (sitofp .f32 (V (rf main_c_0) : IVec S_ 32) : FVec Ideal S_ .f32) i = 0)
    (ha : ∀ (n : Fin 256) (h w : Fin 72) (c : Fin 32), (V (rf main_v15) : S256x72x72x32.Idx → EReal) (ix4 n h w c) = a n.val h.val w.val c.val)
    (n : Fin 256) (hh w : Fin 74) (c : Fin 32) :
    (StableHlo.after hostOps1_1 V (rf main_v16) : S256x74x74x32.Idx → EReal) (ix4 n hh w c) = padded 72 72 a n.val hh.val w.val c.val := by
  simp only [hostOps1_1]; after_results
  exact border_apply (V (rf main_v15)) _ pads_S256x72x72x32_S256x74x74x32_000_110_110_000 h_S_ hz a ha n hh w c

theorem pad2_of (a : Act) (hz : ∀ i, (sitofp .f32 (V (rf main_c_1) : IVec S_ 32) : FVec Ideal S_ .f32) i = 0)
    (ha : ∀ (n : Fin 256) (h w : Fin 36) (c : Fin 64), (V (rf main_v24) : S256x36x36x64.Idx → EReal) (ix4 n h w c) = a n.val h.val w.val c.val)
    (n : Fin 256) (hh w : Fin 38) (c : Fin 64) :
    (StableHlo.after hostOps2_1 V (rf main_v25) : S256x38x38x64.Idx → EReal) (ix4 n hh w c) = padded 36 36 a n.val hh.val w.val c.val := by
  simp only [hostOps2_1]; after_results
  exact border_apply (V (rf main_v24)) _ pads_S256x36x36x64_S256x38x38x64_000_110_110_000 h_S_ hz a ha n hh w c

end RiHostB

open RiHostB

abbrev prep1 : Valuation τ sig (Elt Ideal) := StableHlo.after hostOps1_2 (StableHlo.after hostOps1_1 (StableHlo.after hostOps1 U))

theorem prep1_x (n : Fin 256) (h : Fin 72) (w' : Fin 74) (r : Fin 96) :
    (prep1 U (rf main_v20) : S256x72x74x96.Idx → EReal) (ix4 n h w' r)
      = padded 72 72 (fun n h w c => rd3 (U (rf main_v14) : S256x72x2304.Idx → EReal) n h (w * 32 + c)) n.val (h.val + r.val / 32) w'.val (r.val % 32) := by
  refine stack1_of (StableHlo.after hostOps1_1 (StableHlo.after hostOps1 U)) _ (fun n hh w c => ?_) n h w' r
  refine pad1_of (StableHlo.after hostOps1 U) _ (fun i => ?_) (fun n h w c => ?_) n hh w c
  · simp only [hostOps1]; after_results; exact zero_word i
  · simp only [hostOps1]; after_results; exact lanes1_apply _ n h w c

theorem prep1_w (dx : Fin 3) (r : Fin 96) (d : Fin 64) :
    (prep1 U (rf main_v22) : S3x96x64.Idx → EReal) (ix3 dx r d)
      = rd4 (U (rf main_arg2) : S3x3x32x64.Idx → EReal) (r.val / 32) dx.val (r.val % 32) d.val := by
  simp only [prep1, hostOps1_2]; after_results
  exact taps_apply (by decide) _ _ _ dx r d

theorem prep1_b (d : Fin 64) :
    (prep1 U (rf main_v23) : S1x64.Idx → EReal) (ix2 0 d) = rd1 (U (rf main_arg3) : S64.Idx → EReal) d.val := by
  simp only [prep1, hostOps1_2]; after_results
  exact row_apply _ _ d

abbrev prep2 : Valuation τ sig (Elt Ideal) := StableHlo.after hostOps2_2 (StableHlo.after hostOps2_1 (StableHlo.after hostOps2 U))

theorem prep2_x (n : Fin 256) (h : Fin 36) (w' : Fin 38) (r : Fin 192) :
    (prep2 U (rf main_v29) : S256x36x38x192.Idx → EReal) (ix4 n h w' r)
      = padded 36 36 (rd4 (U (rf main_v24) : S256x36x36x64.Idx → EReal)) n.val (h.val + r.val / 64) w'.val (r.val % 64) := by
  refine stack2_of (StableHlo.after hostOps2_1 (StableHlo.after hostOps2 U)) _ (fun n hh w c => ?_) n h w' r
  refine pad2_of (StableHlo.after hostOps2 U) _ (fun i => ?_) (fun n h w c => ?_) n hh w c
  · simp only [hostOps2]; after_results; exact zero_word i
  · simp only [hostOps2]; after_results; exact (rd4_fin _ n h w c).symm

theorem prep2_w (dx : Fin 3) (r : Fin 192) (d : Fin 128) :
    (prep2 U (rf main_v31) : S3x192x128.Idx → EReal) (ix3 dx r d)
      = rd4 (U (rf main_arg4) : S3x3x64x128.Idx → EReal) (r.val / 64) dx.val (r.val % 64) d.val := by
  simp only [prep2, hostOps2_2]; after_results
  exact taps_apply (by decide) _ _ _ dx r d

theorem prep2_b (d : Fin 128) :
    (prep2 U (rf main_v32) : S1x128.Idx → EReal) (ix2 0 d) = rd1 (U (rf main_arg5) : S128.Idx → EReal) d.val := by
  simp only [prep2, hostOps2_2]; after_results
  exact row_apply _ _ d

end Cert.ReferenceIdeal.Hand

end
-- ==== Proof.RiHostD.lean ====
/-
  Before and after the reference's last region: the third layer's output flattened per image, the hidden bias as
  a row, and at the end the two halves added to the last bias.
-/
import proofs.«103448_g2000407080750749_pallasbulk_1140_2_alg».proof.Proof.Spec
import proofs.«103448_g2000407080750749_pallasbulk_1140_2_alg».proof.Proof.Layout
import proofs.«103448_g2000407080750749_pallasbulk_1140_2_alg».proof.Proof.Gen.ReferenceIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open scoped BigOperators

variable (U : Valuation τ sig (Elt Ideal))

local notation "rf" => Proc.devRef (τ := τ) (sig := sig) Proc.tc

/-- Both layouts put entry k of image n at row-major position 41472 n + k; the conversion keeps every value. -/
theorem mid_flat (n : Fin 256) (k : Fin 41472) :
    (StableHlo.after hostOps3 U (rf main_v35) : S256x41472.Idx → EReal) (ix2 n k)
      = rd4 (U (rf main_v33) : S256x18x18x128.Idx → EReal) n.val (k.val / 2304) (k.val / 128 % 18) (k.val % 128) := by
  have h1 : k.val / 2304 < 18 := by have := k.isLt; omega
  have h2 := Nat.mod_lt (k.val / 128) (show 0 < 18 by decide)
  have h3 := Nat.mod_lt k.val (show 0 < 128 by decide)
  simp only [hostOps3]; after_results
  exact (shapeCast_apply _ _ (ix2 n k) (ix4 n ⟨_, h1⟩ ⟨_, h2⟩ ⟨_, h3⟩) (by
    rw [Shape.rowMajor_val_four, Shape.rowMajor_val_two]
    show ((n.val * 18 + k.val / 2304) * 18 + k.val / 128 % 18) * 128 + k.val % 128 = n.val * 41472 + k.val
    omega)).trans (rd4_fin _ n ⟨_, h1⟩ ⟨_, h2⟩ ⟨_, h3⟩).symm

theorem mid_b1 (j : Fin 256) :
    (StableHlo.after hostOps3 U (rf main_v36) : S1x256.Idx → EReal) (ix2 0 j) = rd1 (U (rf main_arg7) : S256.Idx → EReal) j.val := by
  simp only [hostOps3]; after_results
  exact row_apply _ _ j

theorem tail_out (n : Fin 256) (q : Fin 3) :
    (StableHlo.after hostOps4 U (rf main_v41) : S256x3.Idx → EReal) (ix2 n q)
      = (rd3 (U (rf main_v37) : S2x256x3.Idx → EReal) 0 n.val q.val + rd3 (U (rf main_v37) : S2x256x3.Idx → EReal) 1 n.val q.val)
        + rd1 (U (rf main_arg9) : S3.Idx → EReal) q.val := by
  simp only [hostOps4]; after_results
  exact tail_point _ _ _ _ _ _ n q

end Cert.ReferenceIdeal.Hand

end
-- ==== Proof.RiConvValueLib.lean ====
/-
  A 3x3 convolution layer with rectifier and 2x2 maximum, read at one index of a block, for any block extents:
  a block read through a shifted window, the three column taps with their row taps stacked on the channels summing to
  the nine taps, and the maximum over each 2x2 window.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.ValueLib
import proofs.«103448_g2000407080750749_pallasbulk_1140_2_alg».proof.Proof.ConvLib
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand.ConvLib

open Cert.Spec
open Idealize.ShloMosaic Idealize.ShloMosaic.ValueIdx
open scoped BigOperators

theorem lin_lt {R W a b : ℕ} (ha : a < R) (hb : b < W) : a * W + b < R * W :=
  calc a * W + b < a * W + W := Nat.add_lt_add_left hb _
    _ = (a + 1) * W := (Nat.succ_mul a W).symm
    _ ≤ R * W := Nat.mul_le_mul_right W ha

/-- One column tap's product at position a * W + b of the block laid out as rows: the row taps stacked on the channels. -/
theorem prod_apply {R W C D : ℕ} (dd : DotDims ⟨2, ![R * W, 3 * C]⟩ ⟨2, ![3 * C, D]⟩ ⟨2, ![R * W, D]⟩)
    (hdd : dd = DotDims.plain (R * W) (3 * C) D)
    (hs1 : (⟨4, ![1, R, W, 3 * C]⟩ : Shape).ShapeCasts ⟨3, ![R, W, 3 * C]⟩)
    (hs2 : (⟨3, ![R, W, 3 * C]⟩ : Shape).ShapeCasts ⟨2, ![R * W, 3 * C]⟩)
    (hs3 : (⟨3, ![1, 3 * C, D]⟩ : Shape).ShapeCasts ⟨2, ![3 * C, D]⟩)
    (v : FVec Ideal ⟨4, ![1, R, W, 3 * C]⟩ .f32) (bw : FVec Ideal ⟨3, ![1, 3 * C, D]⟩ .f32)
    (P : Act) (K : Ker) (n g dx : ℕ)
    (hv : ∀ (a : Fin R) (b : Fin W) (r : Fin (3 * C)), v (ix4 0 a b r) = P n (g + a.val + r.val / C) (b.val + dx) (r.val % C))
    (hb : ∀ (r : Fin (3 * C)) (d : Fin D), bw (ix3 0 r d) = K (r.val / C) dx (r.val % C) d.val)
    (a : Fin R) (b : Fin W) (d : Fin D) :
    matmul dd none (shapeCast ⟨2, ![R * W, 3 * C]⟩ (shapeCast ⟨3, ![R, W, 3 * C]⟩ v hs1) hs2) (shapeCast ⟨2, ![3 * C, D]⟩ bw hs3)
        (constant (F := Ideal) ⟨2, ![R * W, D]⟩ .f32 0x00000000#32) (ix2 ⟨a.val * W + b.val, lin_lt a.isLt b.isLt⟩ d)
      = ∑ r ∈ Finset.range (3 * C), P n (g + a.val + r / C) (b.val + dx) (r % C) * K (r / C) dx (r % C) d.val := by
  refine (matmul_zero_apply dd hdd _ _ _ d).trans ?_
  rw [Finset.sum_range (fun r => P n (g + a.val + r / C) (b.val + dx) (r % C) * K (r / C) dx (r % C) d.val)]
  refine Finset.sum_congr rfl fun r _ => congrArg₂ (· * ·) ?_ ((shapeCast_1ab_ab_apply bw hs3 r d).trans (hb r d))
  refine (shapeCast_apply _ hs2 _ (ix3 a b r) ?_).trans ((shapeCast_1abc_abc_apply v hs1 a b r).trans (hv a b r))
  rw [Shape.rowMajor_val_three, Shape.rowMajor_val_two]
  rfl

/-- The three column taps, the bias and the rectifier at row 2p + i, column 2u + j: the rectified nine taps, by the stacked rows' rearrangement. -/
theorem pos_apply {A B C D : ℕ} (hC : 0 < C)
    (dd : DotDims ⟨2, ![2 * A * (2 * B), 3 * C]⟩ ⟨2, ![3 * C, D]⟩ ⟨2, ![2 * A * (2 * B), D]⟩)
    (hdd : dd = DotDims.plain (2 * A * (2 * B)) (3 * C) D)
    (hs1 : (⟨4, ![1, 2 * A, 2 * B, 3 * C]⟩ : Shape).ShapeCasts ⟨3, ![2 * A, 2 * B, 3 * C]⟩)
    (hs2 : (⟨3, ![2 * A, 2 * B, 3 * C]⟩ : Shape).ShapeCasts ⟨2, ![2 * A * (2 * B), 3 * C]⟩)
    (hs3 : (⟨3, ![1, 3 * C, D]⟩ : Shape).ShapeCasts ⟨2, ![3 * C, D]⟩) (hs4 : (⟨2, ![1, D]⟩ : Shape).ShapeCasts ⟨1, ![D]⟩)
    (hs5 : (⟨1, ![D]⟩ : Shape).ShapeCasts ⟨2, ![1, D]⟩) (hbc : (⟨2, ![1, D]⟩ : Shape).Broadcasts ⟨2, ![2 * A * (2 * B), D]⟩)
    (hsp : (⟨2, ![2 * A * (2 * B), D]⟩ : Shape).ShapeCasts ⟨5, ![A, 2, B, 2, D]⟩)
    (v1 v8 v15 : FVec Ideal ⟨4, ![1, 2 * A, 2 * B, 3 * C]⟩ .f32) (v4 v11 v18 : FVec Ideal ⟨3, ![1, 3 * C, D]⟩ .f32)
    (v22 : FVec Ideal ⟨2, ![1, D]⟩ .f32) (P : Act) (K : Ker) (Bi : ℕ → EReal) (n g : ℕ)
    (h1 : ∀ (a : Fin (2 * A)) (b : Fin (2 * B)) (r : Fin (3 * C)), v1 (ix4 0 a b r) = P n (g + a.val + r.val / C) (b.val + 0) (r.val % C))
    (h8 : ∀ (a : Fin (2 * A)) (b : Fin (2 * B)) (r : Fin (3 * C)), v8 (ix4 0 a b r) = P n (g + a.val + r.val / C) (b.val + 1) (r.val % C))
    (h15 : ∀ (a : Fin (2 * A)) (b : Fin (2 * B)) (r : Fin (3 * C)), v15 (ix4 0 a b r) = P n (g + a.val + r.val / C) (b.val + 2) (r.val % C))
    (h4 : ∀ (r : Fin (3 * C)) (d : Fin D), v4 (ix3 0 r d) = K (r.val / C) 0 (r.val % C) d.val)
    (h11 : ∀ (r : Fin (3 * C)) (d : Fin D), v11 (ix3 0 r d) = K (r.val / C) 1 (r.val % C) d.val)
    (h18 : ∀ (r : Fin (3 * C)) (d : Fin D), v18 (ix3 0 r d) = K (r.val / C) 2 (r.val % C) d.val)
    (h22 : ∀ d : Fin D, v22 (ix2 0 d) = Bi d.val)
    (p : Fin A) (i : Fin 2) (u : Fin B) (j : Fin 2) (d : Fin D) :
    shapeCast ⟨5, ![A, 2, B, 2, D]⟩
        (maximumf
          (addf
            (addf
              (addf
                (addf (broadcast ⟨2, ![2 * A * (2 * B), D]⟩ (Scalar.ofBits .f32 0x00000000#32 : Ideal .f32))
                  (matmul dd none (shapeCast ⟨2, ![2 * A * (2 * B), 3 * C]⟩ (shapeCast ⟨3, ![2 * A, 2 * B, 3 * C]⟩ v1 hs1) hs2)
                    (shapeCast ⟨2, ![3 * C, D]⟩ v4 hs3) (constant (F := Ideal) ⟨2, ![2 * A * (2 * B), D]⟩ .f32 0x00000000#32)))
                (matmul dd none (shapeCast ⟨2, ![2 * A * (2 * B), 3 * C]⟩ (shapeCast ⟨3, ![2 * A, 2 * B, 3 * C]⟩ v8 hs1) hs2)
                  (shapeCast ⟨2, ![3 * C, D]⟩ v11 hs3) (constant (F := Ideal) ⟨2, ![2 * A * (2 * B), D]⟩ .f32 0x00000000#32)))
              (matmul dd none (shapeCast ⟨2, ![2 * A * (2 * B), 3 * C]⟩ (shapeCast ⟨3, ![2 * A, 2 * B, 3 * C]⟩ v15 hs1) hs2)
                (shapeCast ⟨2, ![3 * C, D]⟩ v18 hs3) (constant (F := Ideal) ⟨2, ![2 * A * (2 * B), D]⟩ .f32 0x00000000#32)))
            (broadcastTo ⟨2, ![2 * A * (2 * B), D]⟩ (shapeCast ⟨2, ![1, D]⟩ (shapeCast ⟨1, ![D]⟩ v22 hs4) hs5) hbc))
          (broadcast ⟨2, ![2 * A * (2 * B), D]⟩ (Scalar.ofBits .f32 0x00000000#32 : Ideal .f32))) hsp (ix5 p i u j d)
      = relu (convP C P K Bi n (g + (2 * p.val + i.val)) (2 * u.val + j.val) d.val) := by
  have hi := i.isLt
  have hj := j.isLt
  have ha : 2 * p.val + i.val < 2 * A := by have := p.isLt; omega
  have hb : 2 * u.val + j.val < 2 * B := by have := u.isLt; omega
  refine (shapeCast_apply _ hsp (ix5 p i u j d) (ix2 ⟨(2 * p.val + i.val) * (2 * B) + (2 * u.val + j.val), lin_lt ha hb⟩ d) ?_).trans ?_
  · rw [Shape.rowMajor_val_two, Shape.rowMajor_val_five]
    show ((2 * p.val + i.val) * (2 * B) + (2 * u.val + j.val)) * D + d.val = (((p.val * 2 + i.val) * B + u.val) * 2 + j.val) * D + d.val
    ring
  · refine (congrArg₂ max
      (congrArg₂ (· + ·)
        (congrArg₂ (· + ·)
          (congrArg₂ (· + ·)
            (congrArg₂ (· + ·) Ideal.ofBits_zero_f32 (prod_apply dd hdd hs1 hs2 hs3 v1 v4 P K n g 0 h1 h4 ⟨_, ha⟩ ⟨_, hb⟩ d))
            (prod_apply dd hdd hs1 hs2 hs3 v8 v11 P K n g 1 h8 h11 ⟨_, ha⟩ ⟨_, hb⟩ d))
          (prod_apply dd hdd hs1 hs2 hs3 v15 v18 P K n g 2 h15 h18 ⟨_, ha⟩ ⟨_, hb⟩ d))
        ((bias_apply v22 hs4 hs5 hbc _ d).trans (h22 d)))
      Ideal.ofBits_zero_f32).trans ?_
    rw [zero_add, stacked_sum C hC P K n (g + (2 * p.val + i.val)) (2 * u.val + j.val) d.val]
    rfl

/-- The 2x2 maximum of the rectified convolution at rows 2 (g + p) + i, columns 2 u + j is the layer at row g + p, column u. -/
theorem pool_value {A B C D : ℕ} (X : FVec Ideal ⟨5, ![A, 2, B, 2, D]⟩ .f32)
    (h3 : (⟨5, ![A, 2, B, 2, D]⟩ : Shape).Reduces [3] ⟨4, ![A, 2, B, D]⟩) (h1 : (⟨4, ![A, 2, B, D]⟩ : Shape).Reduces [1] ⟨3, ![A, B, D]⟩)
    (hφ hφ' : FKind.Formats .f32) (hacc : (0xFF800000#32 : BitVec 32) = FKind.maximumf.neutral .f32 hφ)
    (hacc' : (0xFF800000#32 : BitVec 32) = FKind.maximumf.neutral .f32 hφ')
    (P : Act) (K : Ker) (Bi : ℕ → EReal) (n g : ℕ) (p : Fin A) (u : Fin B) (d : Fin D)
    (hX : ∀ i j : Fin 2, X (ix5 p i u j d) = relu (convP C P K Bi n (2 * g + (2 * p.val + i.val)) (2 * u.val + j.val) d.val)) :
    multiReduction .maximumf [1] ⟨3, ![A, B, D]⟩
        (multiReduction .maximumf [3] ⟨4, ![A, 2, B, D]⟩ X 0xFF800000#32 h3 hφ hacc) 0xFF800000#32 h1 hφ' hacc' (ix3 p u d)
      = layerP C P K Bi n (g + p.val) u.val d.val := by
  have col : ∀ i : Fin 2, multiReduction .maximumf [3] ⟨4, ![A, 2, B, D]⟩ X 0xFF800000#32 h3 hφ hacc (ix4 p i u d)
      = max (X (ix5 p i u 0 d)) (X (ix5 p i u 1 d)) := fun i =>
    maxpair_apply X h3 hφ hacc ofBits_ninf_f32 (ix4 p i u d) rfl _ _ (eq_ix5 _) (eq_ix5 _)
  refine (maxpair_apply _ h1 hφ' hacc' ofBits_ninf_f32 (ix3 p u d) rfl (ix4 p 0 u d) (ix4 p 1 u d) (eq_ix4 _) (eq_ix4 _)).trans
    ((congrArg₂ max ((col 0).trans (congrArg₂ max (hX 0 0) (hX 0 1))) ((col 1).trans (congrArg₂ max (hX 1 0) (hX 1 1)))).trans ?_)
  have r0 : 2 * g + (2 * p.val + (0 : Fin 2).val) = 2 * (g + p.val) := by show 2 * g + (2 * p.val + 0) = _; omega
  have r1 : 2 * g + (2 * p.val + (1 : Fin 2).val) = 2 * (g + p.val) + 1 := by show 2 * g + (2 * p.val + 1) = _; omega
  rw [r0, r1]
  rfl

/-- A block of rank four read through the unit-stride window at offset (0, 0, dx, 0). -/
theorem ld4_apply {n0 n1 n2 n3 m2 : ℕ} (x : Vec Ideal ⟨4, ![n0, n1, n2, n3]⟩ .f32) (dx : ℕ)
    (inb : ∀ a, (![0, 0, dx, 0] : Fin 4 → ℕ) a + (⟨4, ![n0, n1, m2, n3]⟩ : Shape).size a ≤ (⟨4, ![n0, n1, n2, n3]⟩ : Shape).size a)
    (a : Fin n0) (b : Fin n1) (c : Fin m2) (e : Fin n3) (c' : Fin n2) (hc : c'.val = c.val + dx) :
    View.ld x (Rect.unit (s := ⟨4, ![n0, n1, n2, n3]⟩) ![0, 0, dx, 0] (⟨4, ![n0, n1, m2, n3]⟩ : Shape).size inb) (ix4 a b c e)
      = x (ix4 a b c' e) := by
  refine at_idx x fun ax => ?_
  match ax with
  | ⟨0, _⟩ => exact unit_off 0 _
  | ⟨1, _⟩ => exact unit_off 0 _
  | ⟨2, _⟩ => exact (unit_off dx _).trans hc.symm
  | ⟨3, _⟩ => exact unit_off 0 _

/-- A block of rank three read through the unit-stride window at offset (dx, 0, 0). -/
theorem ld3_apply {n0 n1 n2 m0 : ℕ} (x : Vec Ideal ⟨3, ![n0, n1, n2]⟩ .f32) (dx : ℕ)
    (inb : ∀ a, (![dx, 0, 0] : Fin 3 → ℕ) a + (⟨3, ![m0, n1, n2]⟩ : Shape).size a ≤ (⟨3, ![n0, n1, n2]⟩ : Shape).size a)
    (a : Fin m0) (b : Fin n1) (c : Fin n2) (a' : Fin n0) (ha : a'.val = a.val + dx) :
    View.ld x (Rect.unit (s := ⟨3, ![n0, n1, n2]⟩) ![dx, 0, 0] (⟨3, ![m0, n1, n2]⟩ : Shape).size inb) (ix3 a b c) = x (ix3 a' b c) := by
  refine at_idx x fun ax => ?_
  match ax with
  | ⟨0, _⟩ => exact (unit_off dx _).trans ha.symm
  | ⟨1, _⟩ => exact unit_off 0 _
  | ⟨2, _⟩ => exact unit_off 0 _

end Cert.ReferenceIdeal.Hand.ConvLib

end
-- ==== Proof.RiConv1Value.lean ====
/-
  The first layer of the reference's program as a function of whole arrays: after the region its output array holds
  the specification's layer of the bordered image given as its nine shifted copies, lane 32 w + d holding column w, channel d.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.RiConv1
import proofs.«103448_g2000407080750749_pallasbulk_1140_2_alg».proof.Proof.RiConvValueLib
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.Spec ConvLib
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

namespace RiConv1Value

/-- The nine taps, the bias and the rectifier at row 2a + i, position 2c + j of the block, by the nine taps' rearrangement. -/
theorem pre_value (v1 : FVec Ideal S1x16x144x9 .f32) (v4 : FVec Ideal S1x9x32 .f32) (v8 : FVec Ideal S1x32 .f32)
    (P : Act) (K : Ker) (B : ℕ → EReal) (n g : ℕ)
    (h1 : ∀ (hh : Fin 16) (ww : Fin 144) (q : Fin 9), v1 (ix4 0 hh ww q) = P n (g + hh.val + q.val / 3) (ww.val + q.val % 3) 0)
    (h4 : ∀ (q : Fin 9) (d : Fin 32), v4 (ix3 0 q d) = K (q.val / 3) (q.val % 3) 0 d.val)
    (h8 : ∀ d : Fin 32, v8 (ix2 0 d) = B d.val)
    (a : Fin 8) (i : Fin 2) (c : Fin 72) (j : Fin 2) (d : Fin 32) :
    shapeCast S8x2x72x2x32
        (maximumf
          (addf
            (addf (broadcast S2304x32 (Scalar.ofBits .f32 0x00000000#32 : Ideal .f32))
              (matmul dot_S2304x9_S9x32_S2304x32_1_0_0_1_n_n none
                (shapeCast S2304x9 (shapeCast S16x144x9 v1 shapeCasts_S1x16x144x9_S16x144x9) shapeCasts_S16x144x9_S2304x9)
                (shapeCast S9x32 v4 shapeCasts_S1x9x32_S9x32) (constant (F := Ideal) S2304x32 .f32 0x00000000#32)))
            (broadcastTo S2304x32 (shapeCast S1x32 (shapeCast S32 v8 shapeCasts_S1x32_S32) shapeCasts_S32_S1x32) broadcasts_S1x32_S2304x32))
          (broadcast S2304x32 (Scalar.ofBits .f32 0x00000000#32 : Ideal .f32))) shapeCasts_S2304x32_S8x2x72x2x32 (ix5 a i c j d)
      = relu (convP 1 P K B n (g + (2 * a.val + i.val)) (2 * c.val + j.val) d.val) := by
  have hi := i.isLt
  have hj := j.isLt
  have hr : 2 * a.val + i.val < 16 := by omega
  have hc : 2 * c.val + j.val < 144 := by omega
  refine (shapeCast_apply _ _ (ix5 a i c j d) (ix2 (⟨(2 * a.val + i.val) * 144 + (2 * c.val + j.val), by omega⟩ : Fin 2304) d) ?_).trans ?_
  · rw [Shape.rowMajor_val_two, Shape.rowMajor_val_five]
    show ((2 * a.val + i.val) * 144 + (2 * c.val + j.val)) * 32 + d.val = (((a.val * 2 + i.val) * 72 + c.val) * 2 + j.val) * 32 + d.val
    omega
  · refine (congrArg₂ max
      (congrArg₂ (· + ·)
        (congrArg₂ (· + ·) Ideal.ofBits_zero_f32 ((matmul_zero_apply _ rfl _ _ _ d).trans
          (Finset.sum_congr rfl fun q _ => congrArg₂ (· * ·)
            ((shapeCast_apply _ _ _ (ix3 (⟨_, hr⟩ : Fin 16) (⟨_, hc⟩ : Fin 144) q) (by
              rw [Shape.rowMajor_val_three, Shape.rowMajor_val_two]; rfl)).trans
              ((shapeCast_1abc_abc_apply _ _ _ _ q).trans (h1 _ _ q)))
            ((shapeCast_1ab_ab_apply _ _ q d).trans (h4 q d)))))
        ((bias_apply v8 _ _ _ _ d).trans (h8 d)))
      Ideal.ofBits_zero_f32).trans ?_
    unfold relu convP
    rw [zero_add, ← taps9_sum, Finset.sum_range]

/-- A block of patches starting at bordered row 2 g yields rows g and on of the layer, lane 32 c + d holding column c, channel d. -/
theorem pay_value (v1 : FVec Ideal S1x16x144x9 .f32) (v4 : FVec Ideal S1x9x32 .f32) (v8 : FVec Ideal S1x32 .f32)
    (P : Act) (K : Ker) (B : ℕ → EReal) (n g : ℕ)
    (h1 : ∀ (hh : Fin 16) (ww : Fin 144) (q : Fin 9), v1 (ix4 0 hh ww q) = P n (2 * g + hh.val + q.val / 3) (ww.val + q.val % 3) 0)
    (h4 : ∀ (q : Fin 9) (d : Fin 32), v4 (ix3 0 q d) = K (q.val / 3) (q.val % 3) 0 d.val)
    (h8 : ∀ d : Fin 32, v8 (ix2 0 d) = B d.val)
    (a : Fin 8) (l : Fin 2304) :
    k0_pay1 (F := Ideal) v1 v4 v8 (ix3 0 a l) = layerP 1 P K B n (g + a.val) (l.val / 32) (l.val % 32) := by
  have hl := l.isLt
  unfold k0_pay1
  refine (shapeCast_ab_1ab_apply _ _ 0 a l).trans
    ((shapeCast_apply _ _ _ (ix3 a (⟨l.val / 32, by omega⟩ : Fin 72) (⟨l.val % 32, by omega⟩ : Fin 32)) ?_).trans
      (pool_value (C := 1) _ _ _ _ _ _ _ P K B n g a _ _ fun i j => pre_value v1 v4 v8 P K B n (2 * g) h1 h4 h8 a i _ j _))
  rw [Shape.rowMajor_val_three, Shape.rowMajor_val_two]
  show (a.val * 72 + l.val / 32) * 32 + l.val % 32 = a.val * 2304 + l.val
  omega

/-- The index maps in closed form, for reading the blocks off the arrays. -/
theorem idx_facts : ∀ t : Fin cfg0.N,
    win0_0.index t (0 : Fin 4) = t.val / 9 ∧ win0_0.index t (1 : Fin 4) = t.val % 9
      ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 9 ∧ win0_3.index t (1 : Fin 3) = t.val % 9 ∧ win0_3.index t (2 : Fin 3) = 0 :=
  (by decide +kernel : ∀ t : Fin grid0.N, _)

theorem iblk_0_apply (c : Dev nD) (t : Fin cfg0.N) (hh : Fin 16) (ww : Fin 144) (q : Fin 9) (n : Fin 256) (h : Fin 144)
    (hn : n.val = t.val / 9) (hr : h.val = 16 * (t.val % 9) + hh.val) :
    (iblk0 V c 0 t : FVec Ideal S1x16x144x9 .f32) (ix4 0 hh ww q) = (V c main_v11 : S256x144x144x9.Idx → EReal) (ix4 n h ww q) := by
  obtain ⟨e0, e1, e2, e3, -⟩ := idx_facts t
  unfold iblk0
  rw [View.read_apply]
  show V c main_v11 _ = V c main_v11 _
  refine at_idx (V c main_v11) fun ax => ?_
  match ax with
  | ⟨0, _⟩ => show win0_0.index t (0 : Fin 4) * 1 + 1 * 0 = n.val; rw [e0, hn]; omega
  | ⟨1, _⟩ => show win0_0.index t (1 : Fin 4) * 16 + 1 * hh.val = h.val; rw [e1, hr]; omega
  | ⟨2, _⟩ => show win0_0.index t (2 : Fin 4) * 144 + 1 * ww.val = ww.val; rw [e2]; omega
  | ⟨3, _⟩ => show win0_0.index t (3 : Fin 4) * 9 + 1 * q.val = q.val; rw [e3]; omega

theorem iblk_1_apply (c : Dev nD) (t : Fin cfg0.N) (q : Fin 9) (d : Fin 32) :
    (iblk0 V c 1 t : FVec Ideal S1x9x32 .f32) (ix3 0 q d) = (V c main_v12 : S1x9x32.Idx → EReal) (ix3 0 q d) := by
  obtain ⟨-, -, -, -, e0, e1, e2, -⟩ := idx_facts t
  unfold iblk0
  rw [View.read_apply]
  show V c main_v12 _ = V c main_v12 _
  refine at_idx (V c main_v12) fun ax => ?_
  match ax with
  | ⟨0, _⟩ => show win0_1.index t (0 : Fin 3) * 1 + 1 * 0 = 0; rw [e0]
  | ⟨1, _⟩ => show win0_1.index t (1 : Fin 3) * 9 + 1 * q.val = q.val; rw [e1]; omega
  | ⟨2, _⟩ => show win0_1.index t (2 : Fin 3) * 32 + 1 * d.val = d.val; rw [e2]; omega

theorem iblk_2_apply (c : Dev nD) (t : Fin cfg0.N) (d : Fin 32) :
    (iblk0 V c 2 t : FVec Ideal S1x32 .f32) (ix2 0 d) = (V c main_v13 : S1x32.Idx → EReal) (ix2 0 d) := by
  obtain ⟨-, -, -, -, -, -, -, e0, e1, -⟩ := idx_facts t
  unfold iblk0
  rw [View.read_apply]
  show V c main_v13 _ = V c main_v13 _
  refine at_idx (V c main_v13) fun ax => ?_
  match ax with
  | ⟨0, _⟩ => show win0_2.index t (0 : Fin 2) * 1 + 1 * 0 = 0; rw [e0]
  | ⟨1, _⟩ => show win0_2.index t (1 : Fin 2) * 32 + 1 * d.val = d.val; rw [e1]; omega

def G (P : Act) (K : Ker) (B : ℕ → EReal) : S256x72x2304.Idx → EReal := fun i =>
  layerP 1 P K B (i 0).val (i 1).val ((i 2).val / 32) ((i 2).val % 32)

/-- Every index of the output array is in the block of the point of its image and row tile. -/
theorem cover (i : S256x72x2304.Idx) :
    ∃ t : Fin cfg0.N, (cfg0.win 3).flush t = true ∧ i ∈ ((cfg0.win 3).blk t).view.set := by
  have h0 : (i 0).val < 256 := (i 0).isLt
  have h1 : (i 1).val < 72 := (i 1).isLt
  have h2 : (i 2).val < 2304 := (i 2).isLt
  obtain ⟨t, ht⟩ : ∃ t : Fin cfg0.N, t.val = (i 0).val * 9 + (i 1).val / 8 :=
    ⟨⟨_, lt_of_lt_of_eq (by omega : (i 0).val * 9 + (i 1).val / 8 < 2304) N_0.symm⟩, rfl⟩
  obtain ⟨-, -, -, -, -, -, -, -, -, e0, e1, e2⟩ := idx_facts t
  refine ⟨t, flush0_3 t, ?_⟩
  show i ∈ ((View.whole main_v14).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 8 ≤ (i 1).val ∧ (i 1).val < win0_3.index t (1 : Fin 3) * 8 + 8; rw [e1, ht]; omega
  | ⟨2, _⟩ => show win0_3.index t (2 : Fin 3) * 2304 ≤ (i 2).val ∧ (i 2).val < win0_3.index t (2 : Fin 3) * 2304 + 2304; rw [e2]; omega

end RiConv1Value

open RiConv1Value in
/-- What each point leaves is its block of the layer, and the blocks cover the array. -/
theorem arrAt0_value (c : Dev nD) (P : Act) (K : Ker) (B : ℕ → EReal)
    (hx : ∀ (n : Fin 256) (h w : Fin 144) (q : Fin 9),
      (V c main_v11 : S256x144x144x9.Idx → EReal) (ix4 n h w q) = P n.val (h.val + q.val / 3) (w.val + q.val % 3) 0)
    (hw : ∀ (q : Fin 9) (d : Fin 32), (V c main_v12 : S1x9x32.Idx → EReal) (ix3 0 q d) = K (q.val / 3) (q.val % 3) 0 d.val)
    (hb : ∀ d : Fin 32, (V c main_v13 : S1x32.Idx → EReal) (ix2 0 d) = B d.val)
    (n : Fin 256) (h : Fin 72) (l : Fin 2304) :
    ((dat0 V c).arrAt 3 cfg0.N : S256x72x2304.Idx → EReal) (ix3 n h l)
      = layerP 1 P K B n.val h.val (l.val / 32) (l.val % 32) := by
  refine congrFun ((dat0 V c).arrAt_eq_of_cover 3 (G P K B) (fun t _ => ?_) cover) (ix3 n h l)
  have ht : t.val < 2304 := lt_of_lt_of_eq t.isLt N_0
  obtain ⟨-, -, -, -, -, -, -, -, -, e0, e1, e2⟩ := idx_facts t
  show (cfg0.win 3).cut (grid0.coords t) ((dat0 V c).after 3 t) = _
  rw [after0_3]
  unfold out0_3 conv0
  rw [View.canon_unit_zero zeros3]
  simp only [View.ld_unit_zero (S := S1x16x144x9) zeros4, View.ld_unit_zero (S := S1x9x32) zeros3, View.ld_unit_zero (S := S1x32) zeros2]
  funext y
  obtain ⟨u, a, l, rfl⟩ : ∃ (u : Fin 1) (a : Fin 8) (l : Fin 2304), y = ix3 u a l := ⟨y 0, y 1, y 2, eq_ix3 y⟩
  obtain rfl : u = 0 := Subsingleton.elim _ _
  refine (pay_value _ _ _ P K B (t.val / 9) (8 * (t.val % 9))
    (fun hh ww q => (iblk_0_apply V c t hh ww q ⟨t.val / 9, by omega⟩ ⟨2 * (8 * (t.val % 9)) + hh.val, by omega⟩ rfl
      (by show 2 * (8 * (t.val % 9)) + hh.val = _; omega)).trans (hx _ _ _ _))
    (fun q d => (iblk_1_apply V c t q d).trans (hw q d))
    (fun d => (iblk_2_apply V c t d).trans (hb d)) a l).trans ?_
  show layerP 1 P K B (t.val / 9) (8 * (t.val % 9) + a.val) (l.val / 32) (l.val % 32)
    = layerP 1 P K B (win0_3.index t (0 : Fin 3) * 1 + 1 * 0) (win0_3.index t (1 : Fin 3) * 8 + 1 * a.val)
        ((win0_3.index t (2 : Fin 3) * 2304 + 1 * l.val) / 32) ((win0_3.index t (2 : Fin 3) * 2304 + 1 * l.val) % 32)
  rw [e0, e1, e2]
  congr 1 <;> omega

end Cert.ReferenceIdeal.Hand

end
-- ==== Proof.RiConv2Value.lean ====
/-
  The second layer of the reference's program as a function of whole arrays: after the region its output array holds
  the specification's layer of the bordered input whose three row taps are stacked on the channels.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.RiConv2
import proofs.«103448_g2000407080750749_pallasbulk_1140_2_alg».proof.Proof.RiConvValueLib
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.Spec ConvLib
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

namespace RiConv2Value

/-- A block holding rows 2 g and on of the stacked image yields rows g and on of the layer. -/
theorem conv_value (x0 : Vec Ideal S1x8x74x96 .f32) (x1 : Vec Ideal S3x96x64 .f32) (x2 : Vec Ideal S1x64 .f32)
    (P : Act) (K : Ker) (B : ℕ → EReal) (n g : ℕ)
    (h0 : ∀ (i : Fin 8) (j : Fin 74) (r : Fin 96), x0 (ix4 (0 : Fin 1) i j r) = P n (2 * g + i.val + r.val / 32) j.val (r.val % 32))
    (h1 : ∀ (dx : Fin 3) (r : Fin 96) (d : Fin 64), x1 (ix3 dx r d) = K (r.val / 32) dx.val (r.val % 32) d.val)
    (h2 : ∀ d : Fin 64, x2 (ix2 (0 : Fin 1) d) = B d.val)
    (a : Fin 4) (c : Fin 36) (d : Fin 64) :
    conv1 x0 x1 x2 (ix4 (0 : Fin 1) a c d) = layerP 32 P K B n (g + a.val) c.val d.val := by
  unfold conv1 k1_pay1
  refine (shapeCast_abc_1abc_apply _ _ 0 a c d).trans (pool_value (C := 32) _ _ _ _ _ _ _ P K B n g a c d fun i j => ?_)
  unfold k1_pay2
  exact pos_apply (A := 4) (B := 36) (C := 32) (D := 64) (by decide) dot_S576x96_S96x64_S576x64_1_0_0_1_n_n rfl _ _ _ _ _ _ _ _ _ _ _ _ _ _ P K B n (2 * g)
    (fun i j r => (ld4_apply x0 0 _ 0 i j r ⟨j.val + 0, by omega⟩ rfl).trans (h0 i _ r))
    (fun i j r => (ld4_apply x0 1 _ 0 i j r ⟨j.val + 1, by omega⟩ rfl).trans (h0 i _ r))
    (fun i j r => (ld4_apply x0 2 _ 0 i j r ⟨j.val + 2, by omega⟩ rfl).trans (h0 i _ r))
    (fun r d => (ld3_apply x1 0 _ 0 r d 0 rfl).trans (h1 0 r d))
    (fun r d => (ld3_apply x1 1 _ 0 r d 1 rfl).trans (h1 1 r d))
    (fun r d => (ld3_apply x1 2 _ 0 r d 2 rfl).trans (h1 2 r d))
    (fun d => (congrFun (View.ld_unit_zero (S := S1x64) zeros2 _ x2) (ix2 0 d)).trans (h2 d)) a i c j d

/-- The index maps in closed form, for reading the blocks off the arrays. -/
theorem idx_facts : ∀ t : Fin cfg1.N,
    win1_0.index t (0 : Fin 4) = t.val / 9 ∧ win1_0.index t (1 : Fin 4) = t.val % 9
    ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val / 9 ∧ win1_3.index t (1 : Fin 4) = t.val % 9
    ∧ win1_3.index t (2 : Fin 4) = 0 ∧ win1_3.index t (3 : Fin 4) = 0 :=
  (by decide +kernel : ∀ t : Fin grid1.N, _)

theorem iblk_0_apply (c : Dev nD) (t : Fin cfg1.N) (i : Fin 8) (j : Fin 74) (r : Fin 96) (n : Fin 256) (h : Fin 72)
    (hn : n.val = t.val / 9) (hh : h.val = 8 * (t.val % 9) + i.val) :
    (iblk1 V c 0 t : Vec Ideal S1x8x74x96 .f32) (ix4 (0 : Fin 1) i j r) = (V c main_v20 : S256x72x74x96.Idx → EReal) (ix4 n h j r) := by
  obtain ⟨e0, e1, e2, e3, -⟩ := idx_facts t
  unfold iblk1
  rw [View.read_apply]
  show V c main_v20 _ = V c main_v20 _
  refine at_idx (V c main_v20) fun ax => ?_
  match ax with
  | ⟨0, _⟩ => show win1_0.index t (0 : Fin 4) * 1 + 1 * 0 = n.val; rw [e0, hn]; omega
  | ⟨1, _⟩ => show win1_0.index t (1 : Fin 4) * 8 + 1 * i.val = h.val; rw [e1, hh]; omega
  | ⟨2, _⟩ => show win1_0.index t (2 : Fin 4) * 74 + 1 * j.val = j.val; rw [e2]; omega
  | ⟨3, _⟩ => show win1_0.index t (3 : Fin 4) * 96 + 1 * r.val = r.val; rw [e3]; omega

theorem iblk_1_apply (c : Dev nD) (t : Fin cfg1.N) (dx : Fin 3) (r : Fin 96) (d : Fin 64) :
    (iblk1 V c 1 t : Vec Ideal S3x96x64 .f32) (ix3 dx r d) = (V c main_v22 : S3x96x64.Idx → EReal) (ix3 dx r d) := by
  obtain ⟨-, -, -, -, e0, e1, e2, -⟩ := idx_facts t
  unfold iblk1
  rw [View.read_apply]
  show V c main_v22 _ = V c main_v22 _
  refine at_idx (V c main_v22) fun ax => ?_
  match ax with
  | ⟨0, _⟩ => show win1_1.index t (0 : Fin 3) * 3 + 1 * dx.val = dx.val; rw [e0]; omega
  | ⟨1, _⟩ => show win1_1.index t (1 : Fin 3) * 96 + 1 * r.val = r.val; rw [e1]; omega
  | ⟨2, _⟩ => show win1_1.index t (2 : Fin 3) * 64 + 1 * d.val = d.val; rw [e2]; omega

theorem iblk_2_apply (c : Dev nD) (t : Fin cfg1.N) (d : Fin 64) :
    (iblk1 V c 2 t : Vec Ideal S1x64 .f32) (ix2 (0 : Fin 1) d) = (V c main_v23 : S1x64.Idx → EReal) (ix2 (0 : Fin 1) d) := by
  obtain ⟨-, -, -, -, -, -, -, e0, e1, -⟩ := idx_facts t
  unfold iblk1
  rw [View.read_apply]
  show V c main_v23 _ = V c main_v23 _
  refine at_idx (V c main_v23) fun ax => ?_
  match ax with
  | ⟨0, _⟩ => show win1_2.index t (0 : Fin 2) * 1 + 1 * 0 = 0; rw [e0]
  | ⟨1, _⟩ => show win1_2.index t (1 : Fin 2) * 64 + 1 * d.val = d.val; rw [e1]; omega

def G (P : Act) (K : Ker) (B : ℕ → EReal) : S256x36x36x64.Idx → EReal := fun i =>
  layerP 32 P K B (i 0).val (i 1).val (i 2).val (i 3).val

/-- Every index of the output array is in the block of the point of its image and row tile. -/
theorem cover (i : S256x36x36x64.Idx) :
    ∃ t : Fin cfg1.N, (cfg1.win 3).flush t = true ∧ i ∈ ((cfg1.win 3).blk t).view.set := by
  have h0 : (i 0).val < 256 := (i 0).isLt
  have h1 : (i 1).val < 36 := (i 1).isLt
  have h2 : (i 2).val < 36 := (i 2).isLt
  have h3 : (i 3).val < 64 := (i 3).isLt
  obtain ⟨t, ht⟩ : ∃ t : Fin cfg1.N, t.val = (i 0).val * 9 + (i 1).val / 4 :=
    ⟨⟨_, lt_of_lt_of_eq (by omega : (i 0).val * 9 + (i 1).val / 4 < 2304) N_1.symm⟩, rfl⟩
  obtain ⟨-, -, -, -, -, -, -, -, -, e0, e1, e2, e3⟩ := idx_facts t
  refine ⟨t, flush1_3 t, ?_⟩
  show i ∈ ((View.whole main_v24).slice (win1_3.rect t)).set
  rw [View.set_slice_whole, Rect.mem_set_unit]
  intro a
  match a with
  | ⟨0, _⟩ => show win1_3.index t (0 : Fin 4) * 1 ≤ (i 0).val ∧ (i 0).val < win1_3.index t (0 : Fin 4) * 1 + 1; rw [e0, ht]; omega
  | ⟨1, _⟩ => show win1_3.index t (1 : Fin 4) * 4 ≤ (i 1).val ∧ (i 1).val < win1_3.index t (1 : Fin 4) * 4 + 4; rw [e1, ht]; omega
  | ⟨2, _⟩ => show win1_3.index t (2 : Fin 4) * 36 ≤ (i 2).val ∧ (i 2).val < win1_3.index t (2 : Fin 4) * 36 + 36; rw [e2]; omega
  | ⟨3, _⟩ => show win1_3.index t (3 : Fin 4) * 64 ≤ (i 3).val ∧ (i 3).val < win1_3.index t (3 : Fin 4) * 64 + 64; rw [e3]; omega

end RiConv2Value

open RiConv2Value in
/-- What each point leaves is its block of the layer, and the blocks cover the array. -/
theorem arrAt1_value (c : Dev nD) (P : Act) (K : Ker) (B : ℕ → EReal)
    (hx : ∀ (n : Fin 256) (h : Fin 72) (w' : Fin 74) (r : Fin 96),
      (V c main_v20 : S256x72x74x96.Idx → EReal) (ix4 n h w' r) = P n.val (h.val + r.val / 32) w'.val (r.val % 32))
    (hw : ∀ (dx : Fin 3) (r : Fin 96) (d : Fin 64), (V c main_v22 : S3x96x64.Idx → EReal) (ix3 dx r d) = K (r.val / 32) dx.val (r.val % 32) d.val)
    (hb : ∀ d : Fin 64, (V c main_v23 : S1x64.Idx → EReal) (ix2 0 d) = B d.val)
    (n : Fin 256) (h : Fin 36) (w : Fin 36) (d : Fin 64) :
    ((dat1 V c).arrAt 3 cfg1.N : S256x36x36x64.Idx → EReal) (ix4 n h w d) = layerP 32 P K B n.val h.val w.val d.val := by
  refine congrFun ((dat1 V c).arrAt_eq_of_cover 3 (G P K B) (fun t _ => ?_) cover) (ix4 n h w d)
  have ht : t.val < 2304 := lt_of_lt_of_eq t.isLt N_1
  obtain ⟨-, -, -, -, -, -, -, -, -, e0, e1, e2, e3⟩ := idx_facts t
  show (cfg1.win 3).cut (grid1.coords t) ((dat1 V c).after 3 t) = _
  rw [after1_3]
  unfold out1_3
  rw [View.canon_unit_zero zeros4]
  funext y
  obtain ⟨y0, a, c', d, rfl⟩ : ∃ (y0 : Fin 1) (a : Fin 4) (c' : Fin 36) (d : Fin 64), y = ix4 y0 a c' d := ⟨y 0, y 1, y 2, y 3, eq_ix4 y⟩
  obtain rfl : y0 = 0 := Subsingleton.elim _ _
  refine (conv_value _ _ _ P K B (t.val / 9) (4 * (t.val % 9))
    (fun i j r => (iblk_0_apply V c t i j r ⟨t.val / 9, by omega⟩ ⟨2 * (4 * (t.val % 9)) + i.val, by omega⟩ rfl
      (by show 2 * (4 * (t.val % 9)) + i.val = _; omega)).trans (hx _ _ j r))
    (fun dx r d => (iblk_1_apply V c t dx r d).trans (hw dx r d))
    (fun d => (iblk_2_apply V c t d).trans (hb d)) a c' d).trans ?_
  show layerP 32 P K B (t.val / 9) (4 * (t.val % 9) + a.val) c'.val d.val
    = layerP 32 P K B (win1_3.index t (0 : Fin 4) * 1 + 1 * 0) (win1_3.index t (1 : Fin 4) * 4 + 1 * a.val)
        (win1_3.index t (2 : Fin 4) * 36 + 1 * c'.val) (win1_3.index t (3 : Fin 4) * 64 + 1 * d.val)
  rw [e0, e1, e2, e3]
  congr 1 <;> omega

end Cert.ReferenceIdeal.Hand

end
-- ==== Proof.RiConv3Value.lean ====
/-
  The third layer of the reference's program as a function of whole arrays: after the region its output array holds
  the specification's layer of the bordered input whose three row taps are stacked on the channels.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.RiConv3
import proofs.«103448_g2000407080750749_pallasbulk_1140_2_alg».proof.Proof.RiConvValueLib
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.Spec ConvLib
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

namespace RiConv3Value

/-- A block holding rows 2 g and on of the stacked image yields rows g and on of the layer. -/
theorem conv_value (x0 : Vec Ideal S1x12x38x192 .f32) (x1 : Vec Ideal S3x192x128 .f32) (x2 : Vec Ideal S1x128 .f32)
    (P : Act) (K : Ker) (B : ℕ → EReal) (n g : ℕ)
    (h0 : ∀ (i : Fin 12) (j : Fin 38) (r : Fin 192), x0 (ix4 (0 : Fin 1) i j r) = P n (2 * g + i.val + r.val / 64) j.val (r.val % 64))
    (h1 : ∀ (dx : Fin 3) (r : Fin 192) (d : Fin 128), x1 (ix3 dx r d) = K (r.val / 64) dx.val (r.val % 64) d.val)
    (h2 : ∀ d : Fin 128, x2 (ix2 (0 : Fin 1) d) = B d.val)
    (a : Fin 6) (c : Fin 18) (d : Fin 128) :
    conv2 x0 x1 x2 (ix4 (0 : Fin 1) a c d) = layerP 64 P K B n (g + a.val) c.val d.val := by
  unfold conv2 k2_pay1
  refine (shapeCast_abc_1abc_apply _ _ 0 a c d).trans (pool_value (C := 64) _ _ _ _ _ _ _ P K B n g a c d fun i j => ?_)
  unfold k2_pay2
  exact pos_apply (A := 6) (B := 18) (C := 64) (D := 128) (by decide) dot_S432x192_S192x128_S432x128_1_0_0_1_n_n rfl _ _ _ _ _ _ _ _ _ _ _ _ _ _ P K B n (2 * g)
    (fun i j r => (ld4_apply x0 0 _ 0 i j r ⟨j.val + 0, by omega⟩ rfl).trans (h0 i _ r))
    (fun i j r => (ld4_apply x0 1 _ 0 i j r ⟨j.val + 1, by omega⟩ rfl).trans (h0 i _ r))
    (fun i j r => (ld4_apply x0 2 _ 0 i j r ⟨j.val + 2, by omega⟩ rfl).trans (h0 i _ r))
    (fun r d => (ld3_apply x1 0 _ 0 r d 0 rfl).trans (h1 0 r d))
    (fun r d => (ld3_apply x1 1 _ 0 r d 1 rfl).trans (h1 1 r d))
    (fun r d => (ld3_apply x1 2 _ 0 r d 2 rfl).trans (h1 2 r d))
    (fun d => (congrFun (View.ld_unit_zero (S := S1x128) zeros2 _ x2) (ix2 0 d)).trans (h2 d)) a i c j d

/-- The index maps in closed form, for reading the blocks off the arrays. -/
theorem idx_facts : ∀ t : Fin cfg2.N,
    win2_0.index t (0 : Fin 4) = t.val / 3 ∧ win2_0.index t (1 : Fin 4) = t.val % 3
    ∧ win2_0.index t (2 : Fin 4) = 0 ∧ win2_0.index t (3 : Fin 4) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 4) = t.val / 3 ∧ win2_3.index t (1 : Fin 4) = t.val % 3
    ∧ win2_3.index t (2 : Fin 4) = 0 ∧ win2_3.index t (3 : Fin 4) = 0 :=
  (by decide +kernel : ∀ t : Fin grid2.N, _)

theorem iblk_0_apply (c : Dev nD) (t : Fin cfg2.N) (i : Fin 12) (j : Fin 38) (r : Fin 192) (n : Fin 256) (h : Fin 36)
    (hn : n.val = t.val / 3) (hh : h.val = 12 * (t.val % 3) + i.val) :
    (iblk2 V c 0 t : Vec Ideal S1x12x38x192 .f32) (ix4 (0 : Fin 1) i j r) = (V c main_v29 : S256x36x38x192.Idx → EReal) (ix4 n h j r) := by
  obtain ⟨e0, e1, e2, e3, -⟩ := idx_facts t
  unfold iblk2
  rw [View.read_apply]
  show V c main_v29 _ = V c main_v29 _
  refine at_idx (V c main_v29) fun ax => ?_
  match ax with
  | ⟨0, _⟩ => show win2_0.index t (0 : Fin 4) * 1 + 1 * 0 = n.val; rw [e0, hn]; omega
  | ⟨1, _⟩ => show win2_0.index t (1 : Fin 4) * 12 + 1 * i.val = h.val; rw [e1, hh]; omega
  | ⟨2, _⟩ => show win2_0.index t (2 : Fin 4) * 38 + 1 * j.val = j.val; rw [e2]; omega
  | ⟨3, _⟩ => show win2_0.index t (3 : Fin 4) * 192 + 1 * r.val = r.val; rw [e3]; omega

theorem iblk_1_apply (c : Dev nD) (t : Fin cfg2.N) (dx : Fin 3) (r : Fin 192) (d : Fin 128) :
    (iblk2 V c 1 t : Vec Ideal S3x192x128 .f32) (ix3 dx r d) = (V c main_v31 : S3x192x128.Idx → EReal) (ix3 dx r d) := by
  obtain ⟨-, -, -, -, e0, e1, e2, -⟩ := idx_facts t
  unfold iblk2
  rw [View.read_apply]
  show V c main_v31 _ = V c main_v31 _
  refine at_idx (V c main_v31) fun ax => ?_
  match ax with
  | ⟨0, _⟩ => show win2_1.index t (0 : Fin 3) * 3 + 1 * dx.val = dx.val; rw [e0]; omega
  | ⟨1, _⟩ => show win2_1.index t (1 : Fin 3) * 192 + 1 * r.val = r.val; rw [e1]; omega
  | ⟨2, _⟩ => show win2_1.index t (2 : Fin 3) * 128 + 1 * d.val = d.val; rw [e2]; omega

theorem iblk_2_apply (c : Dev nD) (t : Fin cfg2.N) (d : Fin 128) :
    (iblk2 V c 2 t : Vec Ideal S1x128 .f32) (ix2 (0 : Fin 1) d) = (V c main_v32 : S1x128.Idx → EReal) (ix2 (0 : Fin 1) d) := by
  obtain ⟨-, -, -, -, -, -, -, e0, e1, -⟩ := idx_facts t
  unfold iblk2
  rw [View.read_apply]
  show V c main_v32 _ = V c main_v32 _
  refine at_idx (V c main_v32) fun ax => ?_
  match ax with
  | ⟨0, _⟩ => show win2_2.index t (0 : Fin 2) * 1 + 1 * 0 = 0; rw [e0]
  | ⟨1, _⟩ => show win2_2.index t (1 : Fin 2) * 128 + 1 * d.val = d.val; rw [e1]; omega

def G (P : Act) (K : Ker) (B : ℕ → EReal) : S256x18x18x128.Idx → EReal := fun i =>
  layerP 64 P K B (i 0).val (i 1).val (i 2).val (i 3).val

/-- Every index of the output array is in the block of the point of its image and row tile. -/
theorem cover (i : S256x18x18x128.Idx) :
    ∃ t : Fin cfg2.N, (cfg2.win 3).flush t = true ∧ i ∈ ((cfg2.win 3).blk t).view.set := by
  have h0 : (i 0).val < 256 := (i 0).isLt
  have h1 : (i 1).val < 18 := (i 1).isLt
  have h2 : (i 2).val < 18 := (i 2).isLt
  have h3 : (i 3).val < 128 := (i 3).isLt
  obtain ⟨t, ht⟩ : ∃ t : Fin cfg2.N, t.val = (i 0).val * 3 + (i 1).val / 6 :=
    ⟨⟨_, lt_of_lt_of_eq (by omega : (i 0).val * 3 + (i 1).val / 6 < 768) N_2.symm⟩, rfl⟩
  obtain ⟨-, -, -, -, -, -, -, -, -, e0, e1, e2, e3⟩ := idx_facts t
  refine ⟨t, flush2_3 t, ?_⟩
  show i ∈ ((View.whole main_v33).slice (win2_3.rect t)).set
  rw [View.set_slice_whole, Rect.mem_set_unit]
  intro a
  match a with
  | ⟨0, _⟩ => show win2_3.index t (0 : Fin 4) * 1 ≤ (i 0).val ∧ (i 0).val < win2_3.index t (0 : Fin 4) * 1 + 1; rw [e0, ht]; omega
  | ⟨1, _⟩ => show win2_3.index t (1 : Fin 4) * 6 ≤ (i 1).val ∧ (i 1).val < win2_3.index t (1 : Fin 4) * 6 + 6; rw [e1, ht]; omega
  | ⟨2, _⟩ => show win2_3.index t (2 : Fin 4) * 18 ≤ (i 2).val ∧ (i 2).val < win2_3.index t (2 : Fin 4) * 18 + 18; rw [e2]; omega
  | ⟨3, _⟩ => show win2_3.index t (3 : Fin 4) * 128 ≤ (i 3).val ∧ (i 3).val < win2_3.index t (3 : Fin 4) * 128 + 128; rw [e3]; omega

end RiConv3Value

open RiConv3Value in
/-- What each point leaves is its block of the layer, and the blocks cover the array. -/
theorem arrAt2_value (c : Dev nD) (P : Act) (K : Ker) (B : ℕ → EReal)
    (hx : ∀ (n : Fin 256) (h : Fin 36) (w' : Fin 38) (r : Fin 192),
      (V c main_v29 : S256x36x38x192.Idx → EReal) (ix4 n h w' r) = P n.val (h.val + r.val / 64) w'.val (r.val % 64))
    (hw : ∀ (dx : Fin 3) (r : Fin 192) (d : Fin 128), (V c main_v31 : S3x192x128.Idx → EReal) (ix3 dx r d) = K (r.val / 64) dx.val (r.val % 64) d.val)
    (hb : ∀ d : Fin 128, (V c main_v32 : S1x128.Idx → EReal) (ix2 0 d) = B d.val)
    (n : Fin 256) (h : Fin 18) (w : Fin 18) (d : Fin 128) :
    ((dat2 V c).arrAt 3 cfg2.N : S256x18x18x128.Idx → EReal) (ix4 n h w d) = layerP 64 P K B n.val h.val w.val d.val := by
  refine congrFun ((dat2 V c).arrAt_eq_of_cover 3 (G P K B) (fun t _ => ?_) cover) (ix4 n h w d)
  have ht : t.val < 768 := lt_of_lt_of_eq t.isLt N_2
  obtain ⟨-, -, -, -, -, -, -, -, -, e0, e1, e2, e3⟩ := idx_facts t
  show (cfg2.win 3).cut (grid2.coords t) ((dat2 V c).after 3 t) = _
  rw [after2_3]
  unfold out2_3
  rw [View.canon_unit_zero zeros4]
  funext y
  obtain ⟨y0, a, c', d, rfl⟩ : ∃ (y0 : Fin 1) (a : Fin 6) (c' : Fin 18) (d : Fin 128), y = ix4 y0 a c' d := ⟨y 0, y 1, y 2, y 3, eq_ix4 y⟩
  obtain rfl : y0 = 0 := Subsingleton.elim _ _
  refine (conv_value _ _ _ P K B (t.val / 3) (6 * (t.val % 3))
    (fun i j r => (iblk_0_apply V c t i j r ⟨t.val / 3, by omega⟩ ⟨2 * (6 * (t.val % 3)) + i.val, by omega⟩ rfl
      (by show 2 * (6 * (t.val % 3)) + i.val = _; omega)).trans (hx _ _ j r))
    (fun dx r d => (iblk_1_apply V c t dx r d).trans (hw dx r d))
    (fun d => (iblk_2_apply V c t d).trans (hb d)) a c' d).trans ?_
  show layerP 64 P K B (t.val / 3) (6 * (t.val % 3) + a.val) c'.val d.val
    = layerP 64 P K B (win2_3.index t (0 : Fin 4) * 1 + 1 * 0) (win2_3.index t (1 : Fin 4) * 6 + 1 * a.val)
        (win2_3.index t (2 : Fin 4) * 18 + 1 * c'.val) (win2_3.index t (3 : Fin 4) * 128 + 1 * d.val)
  rw [e0, e1, e2, e3]
  congr 1 <;> omega

end Cert.ReferenceIdeal.Hand

end
-- ==== Proof.RiFcValue.lean ====
/-
  The head as a function of the whole arrays: after the last point of row `h` of the grid the output array's block `h`
  holds half `h` of the second dense layer over the rectified hidden units, whose sums are gathered nine runs a row.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.FcValueLib
import proofs.«103448_g2000407080750749_pallasbulk_1140_2_alg».proof.Proof.RiFc
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.Spec
open Idealize.ShloMosaic Idealize.ShloMosaic.TcCoe Idealize.ShloMosaic.ValueIdx
open Idealize.ShloMosaic.Pipeline (Dat)
open scoped BigOperators

namespace RiFcValue

theorem pay1_apply (i : S256x128.Idx) : (k3_pay1 (F := Ideal)) i = 0 := by
  unfold k3_pay1
  simp only [shapeCast_self]
  exact Ideal.ofBits_zero_f32

theorem pay2_apply (v3 : Vec Ideal S256x128 .f32) (v4 : Vec Ideal S256x4608 .bf16) (v6 : Vec Ideal S4608x128 .bf16)
    (n : Fin 256) (j : Fin 128) :
    k3_pay2 v3 v4 v6 (ix2 n j) = v3 (ix2 n j) + ∑ k : Fin 4608, v4 (ix2 n k) * v6 (ix2 k j) := by
  unfold k3_pay2
  simp only [shapeCast_self]
  exact congrArg (v3 (ix2 n j) + ·) (matmul_zero_apply dot_S256x4608_S4608x128_S256x128_1_0_0_1_n_n rfl v4 v6 n j)

theorem pay3_apply (v15 : Vec Ideal S256x128 .f32) (v16 : Vec Ideal S1x128 .f32) (v23 : Vec Ideal S128x3 .bf16)
    (n : Fin 256) (q : Fin 3) :
    k3_pay3 v15 v16 v23 (ix3 (0 : Fin 1) n q)
      = ∑ j : Fin 128, relu (v15 (ix2 n j) + v16 (ix2 (0 : Fin 1) j)) * v23 (ix2 j q) := by
  unfold k3_pay3
  refine (shapeCast_ab_1ab_apply _ shapeCasts_S256x3_S1x256x3 (0 : Fin 1) n q).trans ?_
  refine (matmul_zero_apply (φ₁ := .bf16) (φ₂ := .bf16) dot_S256x128_S128x3_S256x3_1_0_0_1_n_n rfl _ v23 n q).trans ?_
  refine Finset.sum_congr rfl fun j _ => congrArg (· * v23 (ix2 j q)) ?_
  show max (v15 (ix2 n j) + broadcastTo S256x128 (shapeCast S1x128 v16 shapeCasts_S1x128_S1x128) broadcasts_S1x128_S256x128 (ix2 n j))
      (Ideal.ofBits .f32 0x00000000#32) = _
  rw [Ideal.ofBits_zero_f32, broadcastTo_1b_ab_apply, shapeCast_self]
  rfl

theorem accZero_apply (n : Fin 256) (j : Fin 128) : (accZero3 (F := Ideal)) (ix2 n j) = 0 := by
  unfold accZero3
  rw [View.canon_unit_zero zeros2]
  exact pay1_apply _

theorem accStep_apply (a : Vec Ideal S256x128 .f32) (x : Vec Ideal S256x4608 .bf16) (w : Vec Ideal S4608x128 .bf16)
    (n : Fin 256) (j : Fin 128) :
    accStep3 a x w (ix2 n j) = a (ix2 n j) + ∑ k : Fin 4608, x (ix2 n k) * w (ix2 k j) := by
  unfold accStep3
  rw [View.canon_unit_zero zeros2]
  simp only [View.ld_unit_zero (S := S256x128) zeros2, View.ld_unit_zero (S := S256x4608) zeros2, View.ld_unit_zero (S := S4608x128) zeros2]
  exact pay2_apply a x w n j

theorem head_apply (a : Vec Ideal S256x128 .f32) (b : Vec Ideal S1x128 .f32) (w : Vec Ideal S128x3 .bf16)
    (n : Fin 256) (q : Fin 3) :
    head3 a b w (ix3 (0 : Fin 1) n q) = ∑ j : Fin 128, relu (a (ix2 n j) + b (ix2 (0 : Fin 1) j)) * w (ix2 j q) := by
  unfold head3
  rw [View.canon_unit_zero zeros3]
  simp only [View.ld_unit_zero (S := S256x128) zeros2, View.ld_unit_zero (S := S1x128) zeros2, View.ld_unit_zero (S := S128x3) zeros2]
  exact pay3_apply a b w n q

/-- Grid point `t` is point `t % 9` of row `t / 9`; each window's block index is made of these. -/
theorem index3 : ∀ t : Fin cfg3.N,
    (win3_0.index t 0 = 0 ∧ win3_0.index t 1 = t.val % 9) ∧ (win3_1.index t 0 = t.val % 9 ∧ win3_1.index t 1 = t.val / 9)
    ∧ (win3_2.index t 0 = 0 ∧ win3_2.index t 1 = t.val / 9) ∧ (win3_3.index t 0 = t.val / 9 ∧ win3_3.index t 1 = 0)
    ∧ win3_4.index t 0 = t.val / 9 ∧ win3_4.index t 1 = 0 ∧ win3_4.index t 2 = 0 :=
  (by decide +kernel : ∀ t : Fin grid3.N, _)

variable (V : (c : Dev nD) → (b : Ref sig .tc) → Buf (Elt Ideal) ((c : Thread nD τ).loc b))
  (c : Dev nD) (Fl W1 : ℕ → ℕ → EReal) (B1 : ℕ → EReal) (W2 : ℕ → ℕ → EReal)
  (ha : ∀ (n : Fin 256) (k : Fin 41472), (V c main_v35 : S256x41472.Idx → EReal) (ix2 n k) = Fl n.val k.val)
  (hw1 : ∀ (k : Fin 41472) (j : Fin 256), (V c main_arg6 : S41472x256.Idx → EReal) (ix2 k j) = W1 k.val j.val)
  (hb1 : ∀ j : Fin 256, (V c main_v36 : S1x256.Idx → EReal) (ix2 0 j) = B1 j.val)
  (hw2 : ∀ (j : Fin 256) (q : Fin 3), (V c main_arg8 : S256x3.Idx → EReal) (ix2 j q) = W2 j.val q.val)

include ha in
/-- The activation block at point `t` is columns `4608 (t % 9) …` of the activations. -/
theorem x_at (t : Fin cfg3.N) (n : Fin 256) (k : Fin 4608) :
    (iblk3 V c 0 t : Vec Ideal S256x4608 .bf16) (ix2 n k) = Fl n.val (t.val % 9 * 4608 + k.val) := by
  obtain ⟨⟨e0, e1⟩, -⟩ := index3 t
  have hk := k.isLt
  refine (at_idx (V c main_v35 : S256x41472.Idx → EReal) (k := ix2 n ⟨t.val % 9 * 4608 + k.val, by omega⟩) fun a => ?_).trans (ha _ _)
  match a with
  | ⟨0, _⟩ => exact blk_off0 256 n.val e0
  | ⟨1, _⟩ => exact blk_off (t.val % 9) 4608 k.val e1

include hw1 in
/-- The first weight block is rows `4608 (t % 9) …` and columns `128 (t / 9) …` of the first weights. -/
theorem w1_at (t : Fin cfg3.N) (k : Fin 4608) (j : Fin 128) :
    (iblk3 V c 1 t : Vec Ideal S4608x128 .bf16) (ix2 k j) = W1 (t.val % 9 * 4608 + k.val) (t.val / 9 * 128 + j.val) := by
  obtain ⟨-, ⟨e0, e1⟩, -⟩ := index3 t
  have hN : t.val < 18 := lt_of_lt_of_eq t.isLt N_3
  have hk := k.isLt
  have hj := j.isLt
  refine (at_idx (V c main_arg6 : S41472x256.Idx → EReal)
    (k := ix2 ⟨t.val % 9 * 4608 + k.val, by omega⟩ ⟨t.val / 9 * 128 + j.val, by omega⟩) fun a => ?_).trans (hw1 _ _)
  match a with
  | ⟨0, _⟩ => exact blk_off (t.val % 9) 4608 k.val e0
  | ⟨1, _⟩ => exact blk_off (t.val / 9) 128 j.val e1

include hb1 in
/-- The bias block is entries `128 (t / 9) …` of the bias row. -/
theorem b_at (t : Fin cfg3.N) (j : Fin 128) :
    (iblk3 V c 2 t : Vec Ideal S1x128 .f32) (ix2 (0 : Fin 1) j) = B1 (t.val / 9 * 128 + j.val) := by
  obtain ⟨-, -, ⟨e0, e1⟩, -⟩ := index3 t
  have hN : t.val < 18 := lt_of_lt_of_eq t.isLt N_3
  have hj := j.isLt
  refine (at_idx (V c main_v36 : S1x256.Idx → EReal) (k := ix2 0 ⟨t.val / 9 * 128 + j.val, by omega⟩) fun a => ?_).trans (hb1 _)
  match a with
  | ⟨0, _⟩ => exact blk_off0 1 0 e0
  | ⟨1, _⟩ => exact blk_off (t.val / 9) 128 j.val e1

include hw2 in
/-- The second weight block is rows `128 (t / 9) …` of the second weights. -/
theorem w2_at (t : Fin cfg3.N) (j : Fin 128) (q : Fin 3) :
    (iblk3 V c 3 t : Vec Ideal S128x3 .bf16) (ix2 j q) = W2 (t.val / 9 * 128 + j.val) q.val := by
  obtain ⟨-, -, -, ⟨e0, e1⟩, -⟩ := index3 t
  have hN : t.val < 18 := lt_of_lt_of_eq t.isLt N_3
  have hj := j.isLt
  refine (at_idx (V c main_arg8 : S256x3.Idx → EReal) (k := ix2 ⟨t.val / 9 * 128 + j.val, by omega⟩ q) fun a => ?_).trans (hw2 _ _)
  match a with
  | ⟨0, _⟩ => exact blk_off (t.val / 9) 128 j.val e0
  | ⟨1, _⟩ => exact blk_off0 3 q.val e1

include ha hw1 in
/-- One accumulating store at point `t` adds run `t % 9` of row `t / 9`'s hidden units. -/
theorem step_apply (t : Fin cfg3.N) (a : Vec Ideal S256x128 .f32) (n : Fin 256) (j : Fin 128) :
    accStep3 a (iblk3 V c 0 t) (iblk3 V c 1 t) (ix2 n j)
      = a (ix2 n j) + run 4608 Fl W1 (t.val / 9) (t.val % 9) n.val j.val := by
  refine (accStep_apply a _ _ n j).trans (congrArg (_ + ·) ?_)
  unfold run
  rw [Finset.sum_range]
  exact Finset.sum_congr rfl fun k _ => congrArg₂ (· * ·) (x_at V c Fl ha t n k) (w1_at V c W1 hw1 t k j)

include ha hw1 in
/-- After grid point `m` the accumulator holds runs `0 … m % 9` of row `m / 9`'s hidden units. -/
theorem acc_value : ∀ (m : ℕ) (hm : m < cfg3.N) (n : Fin 256) (j : Fin 128),
    accAt3 V c m hm (ix2 n j) = ∑ s ∈ Finset.range (m % 9 + 1), run 4608 Fl W1 (m / 9) s n.val j.val := by
  have first : ∀ (m : ℕ) (hm : m < cfg3.N), m % 9 = 0 → ∀ (n : Fin 256) (j : Fin 128),
      accAt3 V c m hm (ix2 n j) = ∑ s ∈ Finset.range (m % 9 + 1), run 4608 Fl W1 (m / 9) s n.val j.val := fun m hm h0 n j => by
    have e : accAt3 V c m hm = accStep3 accZero3 (iblk3 V c 0 ⟨m, hm⟩) (iblk3 V c 1 ⟨m, hm⟩) := accAt3_first V c ⟨m, hm⟩ h0
    rw [e]
    refine (step_apply V c Fl W1 ha hw1 ⟨m, hm⟩ accZero3 n j).trans ?_
    rw [accZero_apply, zero_add]
    show run 4608 Fl W1 (m / 9) (m % 9) n.val j.val = _
    rw [h0, Finset.sum_range_one]
  intro m
  induction m with
  | zero => exact fun hm => first 0 hm rfl
  | succ m ih =>
    intro hm n j
    by_cases h0 : (m + 1) % 9 = 0
    · exact first _ hm h0 n j
    · have e : accAt3 V c (m + 1) hm
          = accStep3 (accAt3 V c m (Nat.lt_of_succ_lt hm)) (iblk3 V c 0 ⟨m + 1, hm⟩) (iblk3 V c 1 ⟨m + 1, hm⟩) :=
        accAt3_step V c ⟨m + 1, hm⟩ h0
      rw [e]
      refine (step_apply V c Fl W1 ha hw1 ⟨m + 1, hm⟩ _ n j).trans ?_
      rw [ih (Nat.lt_of_succ_lt hm) n j]
      show _ + run 4608 Fl W1 ((m + 1) / 9) ((m + 1) % 9) n.val j.val = _
      rw [show (m + 1) / 9 = m / 9 by omega, show (m + 1) % 9 = m % 9 + 1 by omega, Finset.sum_range_succ _ (m % 9 + 1)]

include ha hw1 hb1 hw2 in
/-- The last point of row `t / 9` leaves that half of the second dense layer in the output window. -/
theorem head_at (t : Fin cfg3.N) (ht : t.val % 9 = 8) (n : Fin 256) (q : Fin 3) :
    head3 (accAt3 V c t.val t.isLt) (iblk3 V c 2 t) (iblk3 V c 3 t) (ix3 (0 : Fin 1) n q)
      = half (hiddenF Fl W1 B1) W2 (t.val / 9) n.val q.val := by
  refine (head_apply _ _ _ n q).trans ?_
  unfold half
  rw [Finset.sum_range]
  refine Finset.sum_congr rfl fun j _ => ?_
  rw [acc_value V c Fl W1 ha hw1 t.val t.isLt n j, ht, runs_sum 9 4608, b_at V c B1 hb1 t j, w2_at V c W2 hw2 t j q]
  rfl

/-- The output array as a function of its index: half `i 0` of the second dense layer. -/
def headOut : S2x256x3.Idx → EReal := fun i => half (hiddenF Fl W1 B1) W2 (i 0).val (i 1).val (i 2).val

include ha hw1 hb1 hw2 in
theorem flushed_eq (t : Fin cfg3.N) (hf : (cfg3.win 4).flush t = true) :
    (dat3 V c).flushed 4 t = ((cfg3.win 4).blk t).view.read (Elt Ideal) (headOut Fl W1 B1 W2) := by
  obtain ⟨-, -, -, -, e0, e1, e2⟩ := index3 t
  funext y
  obtain ⟨u, n, q, rfl⟩ : ∃ (u : Fin 1) (n : Fin 256) (q : Fin 3), y = ix3 u n q :=
    ⟨y 0, y 1, y 2, eq_ix3 (n0 := 1) (n1 := 256) (n2 := 3) y⟩
  obtain rfl : u = 0 := Subsingleton.elim _ _
  rw [View.read_apply]
  show (dat3 V c).after 4 t (ix3 (0 : Fin 1) n q) = headOut Fl W1 B1 W2 (((cfg3.win 4).blk t).view.emb (ix3 (0 : Fin 1) n q))
  rw [after3_4, head_at V c Fl W1 B1 W2 ha hw1 hb1 hw2 t ((flush3_4 t).mp hf) n q]
  unfold headOut
  congr 1
  · exact ((blk_off (t.val / 9) 1 0 e0).trans (by omega)).symm
  · exact (blk_off0 256 n.val e1).symm
  · exact (blk_off0 3 q.val e2).symm

/-- Every index lies in the block of the last point of its row of the grid. -/
theorem cover (i : S2x256x3.Idx) : ∃ t : Fin cfg3.N, (cfg3.win 4).flush t = true ∧ i ∈ ((cfg3.win 4).blk t).view.set := by
  have h0 : (i 0).val < 2 := (i 0).isLt
  have h1 : (i 1).val < 256 := (i 1).isLt
  have h2 : (i 2).val < 3 := (i 2).isLt
  have hN : cfg3.N = 18 := N_3
  obtain ⟨t, ht⟩ : ∃ t : Fin cfg3.N, t.val = 9 * (i 0).val + 8 := ⟨⟨9 * (i 0).val + 8, by omega⟩, rfl⟩
  obtain ⟨-, -, -, -, e0, e1, e2⟩ := index3 t
  refine ⟨t, (flush3_4 t).mpr (by omega), ?_⟩
  show i ∈ ((View.whole main_v37).slice (win3_4.rect t)).set
  rw [View.set_slice_whole, Rect.mem_set_unit]
  intro a
  match a with
  | ⟨0, _⟩ => show win3_4.index t 0 * 1 ≤ (i 0).val ∧ (i 0).val < win3_4.index t 0 * 1 + 1; omega
  | ⟨1, _⟩ => exact blk_mem0 256 _ e1 h1
  | ⟨2, _⟩ => exact blk_mem0 3 _ e2 h2

include ha hw1 hb1 hw2 in
theorem _root_.Cert.ReferenceIdeal.Hand.arrAt3_value (h : Fin 2) (n : Fin 256) (q : Fin 3) :
    ((dat3 V c).arrAt 4 cfg3.N : S2x256x3.Idx → EReal) (ix3 h n q) = half (hiddenF Fl W1 B1) W2 h.val n.val q.val :=
  congrFun ((dat3 V c).arrAt_eq_of_cover 4 (headOut Fl W1 B1 W2) (flushed_eq V c Fl W1 B1 W2 ha hw1 hb1 hw2) cover) (ix3 h n q)

end RiFcValue

end Cert.ReferenceIdeal.Hand

end
-- ==== Proof.RiBridge.lean ====
/-
  The reference's program computes the network: each region's whole-array value, fed with what the host lines before
  it lay out, is the next layer of the specification, so the result buffer ends at the logits of the arguments as launched.
-/
import proofs.«103448_g2000407080750749_pallasbulk_1140_2_alg».proof.Proof.Spec
import proofs.«103448_g2000407080750749_pallasbulk_1140_2_alg».proof.Proof.Algebra
import proofs.«103448_g2000407080750749_pallasbulk_1140_2_alg».proof.Proof.RiRun
import proofs.«103448_g2000407080750749_pallasbulk_1140_2_alg».proof.Proof.RiHostA
import proofs.«103448_g2000407080750749_pallasbulk_1140_2_alg».proof.Proof.RiHostB
import proofs.«103448_g2000407080750749_pallasbulk_1140_2_alg».proof.Proof.RiHostD
import proofs.«103448_g2000407080750749_pallasbulk_1140_2_alg».proof.Proof.RiConv1Value
import proofs.«103448_g2000407080750749_pallasbulk_1140_2_alg».proof.Proof.RiConv2Value
import proofs.«103448_g2000407080750749_pallasbulk_1140_2_alg».proof.Proof.RiConv3Value
import proofs.«103448_g2000407080750749_pallasbulk_1140_2_alg».proof.Proof.RiFcValue

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open scoped BigOperators

variable (m : (ℓ : Loc nD τ sig) → Buf (Elt Ideal) ℓ)

local notation "rf" => Proc.devRef (τ := τ) (sig := sig) Proc.tc

abbrev arg (c : Dev nD) (r : Ref sig .tc) : Buf (Elt Ideal) ((c : Thread nD τ).loc r) := m ((c : Thread nD τ).loc r)
abbrev netA1 (c : Dev nD) : Act := Spec.A1 (arg m c main_arg0) (arg m c main_arg1) (arg m c main_arg10)
abbrev netA2 (c : Dev nD) : Act := Spec.A2 (arg m c main_arg0) (arg m c main_arg1) (arg m c main_arg2) (arg m c main_arg3) (arg m c main_arg10)
abbrev netA3 (c : Dev nD) : Act := Spec.A3 (arg m c main_arg0) (arg m c main_arg1) (arg m c main_arg2) (arg m c main_arg3) (arg m c main_arg4) (arg m c main_arg5) (arg m c main_arg10)
abbrev netHid (c : Dev nD) : ℕ → ℕ → EReal := Spec.Hid (arg m c main_arg0) (arg m c main_arg1) (arg m c main_arg2) (arg m c main_arg3) (arg m c main_arg4) (arg m c main_arg5) (arg m c main_arg6) (arg m c main_arg7) (arg m c main_arg10)

def netOut (c : Dev nD) : S256x3.Idx → EReal := Spec.Out (arg m c main_arg0) (arg m c main_arg1) (arg m c main_arg2) (arg m c main_arg3) (arg m c main_arg4) (arg m c main_arg5) (arg m c main_arg6) (arg m c main_arg7) (arg m c main_arg8) (arg m c main_arg9) (arg m c main_arg10)

abbrev tcAt (W : Dev nD → Valuation τ sig (Elt Ideal)) : (c : Dev nD) → (b : Ref sig .tc) → Buf (Elt Ideal) ((c : Thread nD τ).loc b) :=
  fun c b => W c b

-- The border is zero and the inside reads the image at `(h - 1, w - 1)`, so images agreeing inside the bounds have one bordered image.
theorem padded_agree (H W N C : ℕ) (a a' : Act) (hag : ∀ n h w d, n < N → h < H → w < W → d < C → a n h w d = a' n h w d)
    (n h w d : ℕ) (hn : n < N) (hd : d < C) : padded H W a n h w d = padded H W a' n h w d := by
  unfold padded
  split
  · next hh => exact hag n (h - 1) (w - 1) d hn (by omega) (by omega) hd
  · rfl

-- No item writes an argument array: wherever one is read it holds its launch contents.
theorem W4_launch (c : Dev nD) (r : Ref sig .tc) (h1 : r ∉ hostOps0_W := by decide) (h2 : r ∉ hostOps0_1_W := by decide)
    (h3 : r ∉ hostOps0_2_W := by decide) (h4 : ∀ w, Pipeline.arrRef spec0 w ≠ r := by decide) : W4 m c (rf r) = arg m c r :=
  (W4_of_ne m c r h4).trans <| (StableHlo.after_of_writes_sub hostOps0_2 _ hostOps0_2_writes h3).trans <|
    (StableHlo.after_of_writes_sub hostOps0_1 _ hostOps0_1_writes h2).trans (StableHlo.after_of_writes_sub hostOps0 _ hostOps0_writes h1)

theorem W8_launch (c : Dev nD) (r : Ref sig .tc) (h0 : W4 m c (rf r) = arg m c r := by exact W4_launch _ _ _) (h1 : r ∉ hostOps1_W := by decide)
    (h2 : r ∉ hostOps1_1_W := by decide) (h3 : r ∉ hostOps1_2_W := by decide) (h4 : ∀ w, Pipeline.arrRef spec1 w ≠ r := by decide) :
    W8 m c (rf r) = arg m c r :=
  (W8_of_ne m c r h4).trans <| (StableHlo.after_of_writes_sub hostOps1_2 _ hostOps1_2_writes h3).trans <|
    (StableHlo.after_of_writes_sub hostOps1_1 _ hostOps1_1_writes h2).trans <| (StableHlo.after_of_writes_sub hostOps1 _ hostOps1_writes h1).trans h0

theorem W12_launch (c : Dev nD) (r : Ref sig .tc) (h0 : W8 m c (rf r) = arg m c r := by exact W8_launch _ _ _) (h1 : r ∉ hostOps2_W := by decide)
    (h2 : r ∉ hostOps2_1_W := by decide) (h3 : r ∉ hostOps2_2_W := by decide) (h4 : ∀ w, Pipeline.arrRef spec2 w ≠ r := by decide) :
    W12 m c (rf r) = arg m c r :=
  (W12_of_ne m c r h4).trans <| (StableHlo.after_of_writes_sub hostOps2_2 _ hostOps2_2_writes h3).trans <|
    (StableHlo.after_of_writes_sub hostOps2_1 _ hostOps2_1_writes h2).trans <| (StableHlo.after_of_writes_sub hostOps2 _ hostOps2_writes h1).trans h0

theorem W13_launch (c : Dev nD) (r : Ref sig .tc) (h0 : W12 m c (rf r) = arg m c r := by exact W12_launch _ _ _)
    (h1 : r ∉ hostOps3_W := by decide) : W13 m c (rf r) = arg m c r :=
  (StableHlo.after_of_writes_sub hostOps3 _ hostOps3_writes h1).trans h0

theorem layer1_out (c : Dev nD) (n h w d : ℕ) (hn : n < 256) (hh : h < 72) (hw : w < 72) (hd : d < 32) :
    rd3 (W4 m c (rf main_v14) : S256x72x2304.Idx → EReal) n h (w * 32 + d) = netA1 m c n h w d := by
  have hl : w * 32 + d < 2304 := by omega
  have e := arrAt0_value (tcAt (W3 m)) c (padded 144 144 (Spec.X (arg m c main_arg10))) (rd4 (arg m c main_arg0)) (rd1 (arg m c main_arg1))
    (prep0_x (W0 m c)) (prep0_w (W0 m c)) (prep0_b (W0 m c)) ⟨n, hn⟩ ⟨h, hh⟩ ⟨w * 32 + d, hl⟩
  dsimp only at e
  rw [show (w * 32 + d) / 32 = w by omega, show (w * 32 + d) % 32 = d by omega] at e
  exact (rd3_fin _ ⟨n, hn⟩ ⟨h, hh⟩ ⟨w * 32 + d, hl⟩).trans ((congrFun (W4_arr m c 3) _).trans e)

theorem layer2_out (c : Dev nD) (n h w d : ℕ) (hn : n < 256) (hh : h < 36) (hw : w < 36) (hd : d < 64) :
    rd4 (W8 m c (rf main_v24) : S256x36x36x64.Idx → EReal) n h w d = netA2 m c n h w d :=
  (rd4_fin _ ⟨n, hn⟩ ⟨h, hh⟩ ⟨w, hw⟩ ⟨d, hd⟩).trans <| (congrFun (W8_arr m c 3) _).trans <|
    arrAt1_value (tcAt (W7 m)) c (padded 72 72 (netA1 m c)) (rd4 (arg m c main_arg2)) (rd1 (arg m c main_arg3))
      (fun n h w' r => (prep1_x (W4 m c) n h w' r).trans
        (padded_agree 72 72 256 32 _ _ (layer1_out m c) _ _ _ _ n.isLt (Nat.mod_lt _ (by decide))))
      (fun dx r d => (prep1_w (W4 m c) dx r d).trans (by rw [W4_launch m c main_arg2]))
      (fun d => (prep1_b (W4 m c) d).trans (by rw [W4_launch m c main_arg3]))
      ⟨n, hn⟩ ⟨h, hh⟩ ⟨w, hw⟩ ⟨d, hd⟩

theorem layer3_out (c : Dev nD) (n h w d : ℕ) (hn : n < 256) (hh : h < 18) (hw : w < 18) (hd : d < 128) :
    rd4 (W12 m c (rf main_v33) : S256x18x18x128.Idx → EReal) n h w d = netA3 m c n h w d :=
  (rd4_fin _ ⟨n, hn⟩ ⟨h, hh⟩ ⟨w, hw⟩ ⟨d, hd⟩).trans <| (congrFun (W12_arr m c 3) _).trans <|
    arrAt2_value (tcAt (W11 m)) c (padded 36 36 (netA2 m c)) (rd4 (arg m c main_arg4)) (rd1 (arg m c main_arg5))
      (fun n h w' r => (prep2_x (W8 m c) n h w' r).trans
        (padded_agree 36 36 256 64 _ _ (layer2_out m c) _ _ _ _ n.isLt (Nat.mod_lt _ (by decide))))
      (fun dx r d => (prep2_w (W8 m c) dx r d).trans (by rw [W8_launch m c main_arg4]))
      (fun d => (prep2_b (W8 m c) d).trans (by rw [W8_launch m c main_arg5]))
      ⟨n, hn⟩ ⟨h, hh⟩ ⟨w, hw⟩ ⟨d, hd⟩

-- Leading index `h` of the last region's output: half `h` of the second dense layer over the hidden units.
theorem head_out (c : Dev nD) (h n q : ℕ) (hh : h < 2) (hn : n < 256) (hq : q < 3) :
    rd3 (W14 m c (rf main_v37) : S2x256x3.Idx → EReal) h n q = half (netHid m c) (rd2 (arg m c main_arg8)) h n q :=
  (rd3_fin _ ⟨h, hh⟩ ⟨n, hn⟩ ⟨q, hq⟩).trans <| (congrFun (W14_arr m c 4) _).trans <|
    arrAt3_value (tcAt (W13 m)) c (flat (netA3 m c)) (rd2 (arg m c main_arg6)) (rd1 (arg m c main_arg7)) (rd2 (arg m c main_arg8))
      (fun n k => (mid_flat (W12 m c) n k).trans (layer3_out m c n.val (k.val / 2304) (k.val / 128 % 18) (k.val % 128) n.isLt
        (by have := k.isLt; omega) (Nat.mod_lt _ (by decide)) (Nat.mod_lt _ (by decide))))
      (fun k j => (congrFun (W13_launch m c main_arg6) _).trans (rd2_fin _ k j).symm)
      (fun j => (mid_b1 (W12 m c) j).trans (by rw [W12_launch m c main_arg7]))
      (fun j q => (congrFun (W13_launch m c main_arg8) _).trans (rd2_fin _ j q).symm)
      ⟨h, hh⟩ ⟨n, hn⟩ ⟨q, hq⟩

-- The last host lines add the two halves and the last bias.
theorem result_value (c : Dev nD) : (W15 m c (rf main_v41) : S256x3.Idx → EReal) = netOut m c := by
  funext i
  obtain ⟨n, q, rfl⟩ : ∃ n q, i = ix2 n q := ⟨i 0, i 1, eq_ix2 i⟩
  have e := tail_out (W14 m c) n q
  rw [(W14_of_ne m c main_arg9 (by decide)).trans (W13_launch m c main_arg9),
    head_out m c 0 n.val q.val (by decide) n.isLt q.isLt, head_out m c 1 n.val q.val (by decide) n.isLt q.isLt] at e
  exact e

end Cert.ReferenceIdeal.Hand

end
-- ==== Proof.lean ====
/-
  The certificate: each program's run ends with the arguments unchanged, and the kernel's and the reference's programs over the
  extended reals end with one and the same function of the argument arrays, the network's logits.
-/
import proofs.«103448_g2000407080750749_pallasbulk_1140_2_alg».proof.Defs
import proofs.«103448_g2000407080750749_pallasbulk_1140_2_alg».proof.Proof.Gen.Kernel
import proofs.«103448_g2000407080750749_pallasbulk_1140_2_alg».proof.Proof.Gen.KernelIdeal
import proofs.«103448_g2000407080750749_pallasbulk_1140_2_alg».proof.Proof.Gen.ReferenceIdeal
import proofs.«103448_g2000407080750749_pallasbulk_1140_2_alg».proof.Proof.Gen.Pre_finite_inputs
import proofs.«103448_g2000407080750749_pallasbulk_1140_2_alg».proof.Proof.KRun
import proofs.«103448_g2000407080750749_pallasbulk_1140_2_alg».proof.Proof.KiRun
import proofs.«103448_g2000407080750749_pallasbulk_1140_2_alg».proof.Proof.KiBridge
import proofs.«103448_g2000407080750749_pallasbulk_1140_2_alg».proof.Proof.RiRun
import proofs.«103448_g2000407080750749_pallasbulk_1140_2_alg».proof.Proof.RiBridge
import Idealize.ShloMosaic.Adequacy
import Idealize.ShloMosaic.Init

noncomputable section

namespace Cert.Proof

open Idealize.ShloMosaic Idealize.SL.Sem

-- Both results are the specification's logits of the arguments, and the memories agree on the arguments.
theorem algebraic : Cert.algebraic_KernelIdeal_ReferenceIdeal := fun m ρ m' ρ' _ hagree =>
  ⟨fun c => Cert.KernelIdeal.Hand.netOut m c,
    (θ_run Cert.KernelIdeal.defs _ _).mono
      (fun _ h c => ⟨(h c).1.trans (Cert.KernelIdeal.Hand.result_value m c), (h c).2⟩)
      (Cert.KernelIdeal.Hand.value_all (F := Ideal) m ρ),
    (θ_run Cert.ReferenceIdeal.defs _ _).mono
      (fun _ h c => ⟨(h c).1.trans ((Cert.ReferenceIdeal.Hand.result_value m' c).trans (by
        obtain ⟨h0, h1, h2, h3, h4, h5, h6, h7, h8, h9, h10⟩ := hagree c
        simp only [Cert.ReferenceIdeal.Hand.netOut, Cert.KernelIdeal.Hand.netOut, Cert.ReferenceIdeal.Hand.arg, Cert.KernelIdeal.Hand.arg,
          h0, h1, h2, h3, h4, h5, h6, h7, h8, h9, h10])), (h c).2⟩)
      (Cert.ReferenceIdeal.Hand.value_all (F := Ideal) m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ, fun m ρ _ => Cert.KernelIdeal.Hand.frame_all (F := Ideal) m ρ,
    fun m ρ _ => Cert.ReferenceIdeal.Hand.frame_all (F := Ideal) m ρ, trivial, algebraic⟩

end Cert.Proof

end
